-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x10000x10 : Shape := ⟨3, ![16, 10000, 10]⟩
abbrev S2x160000 : Shape := ⟨2, ![2, 160000]⟩
abbrev S10x64 : Shape := ⟨2, ![10, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S_ : Shape := ⟨0, ![]⟩

class Facts : Prop where
  bcast_S_S16x10000x10 : S_.BroadcastsInDim S16x10000x10 (![] : Fin 0 → Fin S16x10000x10.rank)
  reducesTo_S16x10000x10_S_d0_1_2 : S16x10000x10.ReducesTo [0, 1, 2] S_
  h_S_ : 0 < S_.numel
  bcast_S_S10x64 : S_.BroadcastsInDim S10x64 (![] : Fin 0 → Fin S10x64.rank)
  reducesTo_S10x64_S_d0_1 : S10x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_v33 : IVec S_ 1) : IVec S_ 1 :=
  let main_c_12 : IVec S_ 32 := constantI S_ 32 0#32
  let main_v34 : IVec S2x160000 32 := broadcastInDim S2x160000 ![] bcast_S_S2x160000 main_c_12
  let main_v35 : IVec S2x160000 1 := cmpi .sge main_arg1 main_v34
  let main_c_13 : IVec S_ 1 := constantI S_ 1 1#1
  let main_v36 : IVec S_ 1 := (fun x v => Host.reduce IntOp.andi x v reducesTo_S2x160000_S_d0_1 h_S_) main_v35 main_c_13
  let main_v37 : IVec S_ 1 := andi main_v33 main_v36
  let main_c_14 : IVec S_ 32 := constantI S_ 32 10000#32
  let main_v38 : IVec S2x160000 32 := broadcastInDim S2x160000 ![] bcast_S_S2x160000 main_c_14
  let main_v39 : IVec S2x160000 1 := cmpi .slt main_arg1 main_v38
  let main_c_15 : IVec S_ 1 := constantI S_ 1 1#1
  let main_v40 : IVec S_ 1 := (fun x v => Host.reduce IntOp.andi x v reducesTo_S2x160000_S_d0_1 h_S_) main_v39 main_c_15
  let main_v41 : IVec S_ 1 := andi main_v37 main_v40
  main_v41

def fn_part1 {F : FTy → Type} [FloatOps F] (main_arg1 : IVec S2x160000 32) (main_arg5 : FVec F S64 .f32) (main_arg6 : FVec F S64x10 .f32) (main_arg7 : FVec F S10 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x10 .f32 := Host.absf main_arg6
  let main_cst_8 : FVec F S_ .f32 := constant S_ .f32 0x7F800000#32
  let main_v25 : FVec F S64x10 .f32 := broadcastInDim S64x10 ![] bcast_S_S64x10 main_cst_8
  let main_v26 : IVec S64x10 1 := cmpf .olt main_v24 main_v25
  let main_c_9 : IVec S_ 1 := constantI S_ 1 1#1
  let main_v27 : IVec S_ 1 := (fun x v => Host.reduce IntOp.andi x v reducesTo_S64x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg1 main_v33

def fn {F : FTy → Type} [FloatOps F] (main_arg0 : FVec F S16x10000x10 .f32) (main_arg1 : IVec S2x160000 32) (main_arg2 : FVec F S10x64 .f32) (main_arg3 : FVec F S64 .f32) (main_arg4 : FVec F S64x64 .f32) (main_arg5 : FVec F S64 .f32) (main_arg6 : FVec F S64x10 .f32) (main_arg7 : FVec F S10 .f32) : IVec S_ 1 :=
  let main_v0 : FVec F S16x10000x10 .f32 := Host.absf main_arg0
  let main_cst : FVec F S_ .f32 := constant S_ .f32 0x7F800000#32
  let main_v1 : FVec F S16x10000x10 .f32 := broadcastInDim S16x10000x10 ![] bcast_S_S16x10000x10 main_cst
  let main_v2 : IVec S16x10000x10 1 := cmpf .olt main_v0 main_v1
  let main_c : IVec S_ 1 := constantI S_ 1 1#1
  let main_v3 : IVec S_ 1 := (fun x v => Host.reduce IntOp.andi x v reducesTo_S16x10000x10_S_d0_1_2 h_S_) main_v2 main_c
  let main_v4 : FVec F S10x64 .f32 := Host.absf main_arg2
  let main_cst_0 : FVec F S_ .f32 := constant S_ .f32 0x7F800000#32
  let main_v5 : FVec F S10x64 .f32 := broadcastInDim S10x64 ![] bcast_S_S10x64 main_cst_0
  let main_v6 : IVec S10x64 1 := cmpf .olt main_v4 main_v5
  let main_c_1 : IVec S_ 1 := constantI S_ 1 1#1
  let main_v7 : IVec S_ 1 := (fun x v => Host.reduce IntOp.andi x v reducesTo_S10x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S16x10000x10 : Shape := ⟨3, ![16, 10000, 10]⟩
abbrev S2x160000 : Shape := ⟨2, ![2, 160000]⟩
abbrev S10x64 : Shape := ⟨2, ![10, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S10240x10240 : Shape := ⟨2, ![10240, 10240]⟩
abbrev S170000x2 : Shape := ⟨2, ![170000, 2]⟩
abbrev S10000x16x10 : Shape := ⟨3, ![10000, 16, 10]⟩
abbrev S10240x16x10 : Shape := ⟨3, ![10240, 16, 10]⟩
abbrev S163840x10 : Shape := ⟨2, ![163840, 10]⟩
abbrev S163840x64 : Shape := ⟨2, ![163840, 64]⟩
abbrev S10240x16x64 : Shape := ⟨3, ![10240, 16, 64]⟩
abbrev S10240x1024 : Shape := ⟨2, ![10240, 1024]⟩
abbrev S1x64 : Shape := ⟨2, ![1, 64]⟩
abbrev S16x64 : Shape := ⟨2, ![16, 64]⟩
abbrev S1024 : Shape := ⟨1, ![1024]⟩
abbrev S512x512 : Shape := ⟨2, ![512, 512]⟩
abbrev S512x1024 : Shape := ⟨2, ![512, 1024]⟩
abbrev S1x1024 : Shape := ⟨2, ![1, 1024]⟩
abbrev S10240x16x16 : Shape := ⟨3, ![10240, 16, 16]⟩
abbrev S10240x256 : Shape := ⟨2, ![10240, 256]⟩
abbrev S16 : Shape := ⟨1, ![16]⟩
abbrev S1x16 : Shape := ⟨2, ![1, 16]⟩
abbrev S16x16 : Shape := ⟨2, ![16, 16]⟩
abbrev S256 : Shape := ⟨1, ![256]⟩
abbrev S512x256 : Shape := ⟨2, ![512, 256]⟩
abbrev S1x256 : Shape := ⟨2, ![1, 256]⟩
abbrev S16x10 : Shape := ⟨2, ![16, 10]⟩

abbrev nBuf : Space → Nat
  | .hbm => 117
  | .vmem => 21
  | .smem => 0
  | _ => 0

abbrev bufTy : (tb : Table) → Fin (tcTables nBuf tb) → BufTy
  | .hbm, ⟨0, _⟩ => ⟨S16x10000x10, .f32⟩
  | .hbm, ⟨1, _⟩ => ⟨S2x160000, .i32⟩
  | .hbm, ⟨2, _⟩ => ⟨S10x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x10, .f32⟩
  | .hbm, ⟨7, _⟩ => ⟨S10, .f32⟩
  | .hbm, ⟨8, _⟩ => ⟨S1x160000, .i32⟩
  | .hbm, ⟨9, _⟩ => ⟨S160000, .i32⟩
  | .hbm, ⟨10, _⟩ => ⟨S1x160000, .i32⟩
  | .hbm, ⟨11, _⟩ => ⟨S160000, .i32⟩
  | .hbm, ⟨12, _⟩ => ⟨S10000, .i32⟩
  | .hbm, ⟨13, _⟩ => ⟨S170000, .i32⟩
  | .hbm, ⟨14, _⟩ => ⟨S170000, .i32⟩
  | .hbm, ⟨15, _⟩ => ⟨S_, .f32⟩
  | .hbm, ⟨16, _⟩ => ⟨S10000, .f32⟩
  | .hbm, ⟨17, _⟩ => ⟨S_, .i32⟩
  | .hbm, ⟨18, _⟩ => ⟨S170000, .i32⟩
  | .hbm, ⟨19, _⟩ => ⟨S170000, .i1⟩
  | .hbm, ⟨20, _⟩ => ⟨S_, .i32⟩
  | .hbm, ⟨21, _⟩ => ⟨S170000, .i32⟩
  | .hbm, ⟨22, _⟩ => ⟨S170000, .i32⟩
  | .hbm, ⟨23, _⟩ => ⟨S170000, .i32⟩
  | .hbm, ⟨24, _⟩ => ⟨S170000x1, .i32⟩
  | .hbm, ⟨25, _⟩ => ⟨S_, .f32⟩
  | .hbm, ⟨26, _⟩ => ⟨S170000, .f32⟩
  | .hbm, ⟨27, _⟩ => ⟨S10000, .f32⟩
  | .hbm, ⟨28, _⟩ => ⟨S_, .f32⟩
  | .hbm, ⟨29, _⟩ => ⟨S10000, .f32⟩
  | .hbm, ⟨30, _⟩ => ⟨S10000, .f32⟩
  | .hbm, ⟨31, _⟩ => ⟨S_, .i32⟩
  | .hbm, ⟨32, _⟩ => ⟨S170000, .i32⟩
  | .hbm, ⟨33, _⟩ => ⟨S170000, .i1⟩
  | .hbm, ⟨34, _⟩ => ⟨S_, .i32⟩
  | .hbm, ⟨35, _⟩ => ⟨S170000, .i32⟩
  | .hbm, ⟨36, _⟩ => ⟨S170000, .i32⟩
  | .hbm, ⟨37, _⟩ => ⟨S170000, .i32⟩
  | .hbm, ⟨38, _⟩ => ⟨S170000x1, .i32⟩
  | .hbm, ⟨39, _⟩ => ⟨S170000, .f32⟩
  | .hbm, ⟨40, _⟩ => ⟨S_, .i32⟩
  | .hbm, ⟨41, _⟩ => ⟨S170000, .i32⟩
  | .hbm, ⟨42, _⟩ => ⟨S170000, .i1⟩
  | .hbm, ⟨43, _⟩ => ⟨S_, .i32⟩
  | .hbm, ⟨44, _⟩ => ⟨S170000, .i32⟩
  | .hbm, ⟨45, _⟩ => ⟨S170000, .i32⟩
  | .hbm, ⟨46, _⟩ => ⟨S170000, .i32⟩
  | .hbm, ⟨47, _⟩ => ⟨S170000x1, .i32⟩
  | .hbm, ⟨48, _⟩ => ⟨S170000, .f32⟩
  | .hbm, ⟨49, _⟩ => ⟨S170000, .f32⟩
  | .hbm, ⟨50, _⟩ => ⟨S_, .f32⟩
  | .hbm, ⟨51, _⟩ => ⟨S10240x10240, .f32⟩
  | .hbm, ⟨52, _⟩ => ⟨S_, .i32⟩
  | .hbm, ⟨53, _⟩ => ⟨S170000, .i32⟩
  | .hbm, ⟨54, _⟩ => ⟨S170000, .i1⟩
  | .hbm, ⟨55, _⟩ => ⟨S_, .i32⟩
  | .hbm, ⟨56, _⟩ => ⟨S170000, .i32⟩
  | .hbm, ⟨57, _⟩ => ⟨S170000, .i32⟩
  | .hbm, ⟨58, _⟩ => ⟨S170000, .i32⟩
  | .hbm, ⟨59, _⟩ => ⟨S_, .i32⟩
  | .hbm, ⟨60, _⟩ => ⟨S170000, .i32⟩
  | .hbm, ⟨61, _⟩ => ⟨S170000, .i1⟩
  | .hbm, ⟨62, _⟩ => ⟨S_, .i32⟩
  | .hbm, ⟨63, _⟩ => ⟨S170000, .i32⟩
  | .hbm, ⟨64, _⟩ => ⟨S170000, .i32⟩
  | .hbm, ⟨65, _⟩ => ⟨S170000, .i32⟩
  | .hbm, ⟨66, _⟩ => ⟨S170000x1, .i32⟩
  | .hbm, ⟨67, _⟩ => ⟨S170000x1, .i32⟩
  | .hbm, ⟨68, _⟩ => ⟨S170000x2, .i32⟩
  | .hbm, ⟨69, _⟩ => ⟨S10240x10240, .f32⟩
  | .hbm, ⟨70, _⟩ => ⟨S10240x10240, .bf16⟩
  | .hbm, ⟨71, _⟩ => ⟨S10000x16x10, .f32⟩
  | .hbm, ⟨72, _⟩ => ⟨S_, .i32⟩
  | .hbm, ⟨73, _⟩ => ⟨S_, .f32⟩
  | .hbm, ⟨74, _⟩ => ⟨S10240x16x10, .f32⟩
  | .hbm, ⟨75, _⟩ => ⟨S163840x10, .f32⟩
  | .hbm, ⟨76, _⟩ => ⟨S163840x64, .f32⟩
  | .hbm, ⟨77, _⟩ => ⟨S10240x16x64, .f32⟩
  | .hbm, ⟨78, _⟩ => ⟨S10240x1024, .f32⟩
  | .hbm, ⟨79, _⟩ => ⟨S10240x1024, .bf16⟩
  | .hbm, ⟨80, _⟩ => ⟨S1x64, .f32⟩
  | .hbm, ⟨81, _⟩ => ⟨S16x64, .f32⟩
  | .hbm, ⟨82, _⟩ => ⟨S1024, .f32⟩
  | .hbm, ⟨83, _⟩ => ⟨S10240x1024, .f32⟩
  | .hbm, ⟨84, _⟩ => ⟨S10240x16x64, .f32⟩
  | .hbm, ⟨85, _⟩ => ⟨S163840x64, .f32⟩
  | .hbm, ⟨86, _⟩ => ⟨S163840x64, .f32⟩
  | .hbm, ⟨87, _⟩ => ⟨S10240x16x64, .f32⟩
  | .hbm, ⟨88, _⟩ => ⟨S10240x1024, .f32⟩
  | .hbm, ⟨89, _⟩ => ⟨S10240x1024, .bf16⟩
  | .hbm, ⟨90, _⟩ => ⟨S1x64, .f32⟩
  | .hbm, ⟨91, _⟩ => ⟨S16x64, .f32⟩
  | .hbm, ⟨92, _⟩ => ⟨S1024, .f32⟩
  | .hbm, ⟨93, _⟩ => ⟨S10240x1024, .f32⟩
  | .hbm, ⟨94, _⟩ => ⟨S10240x16x64, .f32⟩
  | .hbm, ⟨95, _⟩ => ⟨S163840x64, .f32⟩
  | .hbm, ⟨96, _⟩ => ⟨S163840x10, .f32⟩
  | .hbm, ⟨97, _⟩ => ⟨S10240x16x10, .f32⟩
  | .hbm, ⟨98, _⟩ => ⟨S_, .i32⟩
  | .hbm, ⟨99, _⟩ => ⟨S_, .f32⟩
  | .hbm, ⟨100, _⟩ => ⟨S10240x16x16, .f32⟩
  | .hbm, ⟨101, _⟩ => ⟨S10240x256, .f32⟩
  | .hbm, ⟨102, _⟩ => ⟨S10240x256, .bf16⟩
  | .hbm, ⟨103, _⟩ => ⟨S_, .i32⟩
  | .hbm, ⟨104, _⟩ => ⟨S_, .f32⟩
  | .hbm, ⟨105, _⟩ => ⟨S16, .f32⟩
  | .hbm, ⟨106, _⟩ => ⟨S1x16, .f32⟩
  | .hbm, ⟨107, _⟩ => ⟨S16x16, .f32⟩
  | .hbm, ⟨108, _⟩ => ⟨S256, .f32⟩
  | .hbm, ⟨109, _⟩ => ⟨S10240x256, .f32⟩
  | .hbm, ⟨110, _⟩ => ⟨S10240x16x16, .f32⟩
  | .hbm, ⟨111, _⟩ => ⟨S10240x16x10, .f32⟩
  | .hbm, ⟨112, _⟩ => ⟨S_, .f32⟩
  | .hbm, ⟨113, _⟩ => ⟨S16x10, .f32⟩
  | .hbm, ⟨114, _⟩ => ⟨S_, .f32⟩
  | .hbm, ⟨115, _⟩ => ⟨S16x10, .f32⟩
  | .hbm, ⟨116, _⟩ => ⟨S16x10, .f32⟩
  | .local _ .vmem, ⟨0, _⟩ => ⟨S512x512, .bf16⟩
  | .local _ .vmem, ⟨1, _⟩ => ⟨S512x512, .bf16⟩
  | .local _ .vmem, ⟨2, _⟩ => ⟨S10240x1024, .bf16⟩
  | .local _ .vmem, ⟨3, _⟩ => ⟨S1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x512, .bf16⟩
  | .local _ .vmem, ⟨8, _⟩ => ⟨S512x512, .bf16⟩
  | .local _ .vmem, ⟨9, _⟩ => ⟨S10240x1024, .bf16⟩
  | .local _ .vmem, ⟨10, _⟩ => ⟨S1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x512, .bf16⟩
  | .local _ .vmem, ⟨15, _⟩ => ⟨S512x512, .bf16⟩
  | .local _ .vmem, ⟨16, _⟩ => ⟨S10240x256, .bf16⟩
  | .local _ .vmem, ⟨17, _⟩ => ⟨S256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | _, _ => ⟨S16x10000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_7 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_c_9 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_10 : Ref sig .tc := ⟨.hbm, 59, rfl⟩
abbrev main_v39 : Ref sig .tc := ⟨.hbm, 60, rfl⟩
abbrev main_v40 : Ref sig .tc := ⟨.hbm, 61, rfl⟩
abbrev main_c_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_12 : Ref sig .tc := ⟨.hbm, 72, rfl⟩
abbrev main_call0_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_c_13 : Ref sig .tc := ⟨.hbm, 98, rfl⟩
abbrev main_call1_v0 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_c_14 : Ref sig .tc := ⟨.hbm, 103, rfl⟩
abbrev main_call2_v0 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_15 : Ref sig .tc := ⟨.hbm, 112, rfl⟩
abbrev main_v84 : Ref sig .tc := ⟨.hbm, 113, rfl⟩
abbrev main_cst_16 : Ref sig .tc := ⟨.hbm, 114, rfl⟩
abbrev main_v85 : Ref sig .tc := ⟨.hbm, 115, rfl⟩
abbrev main_v86 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![20, 20], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c19_i32 : BitVec 32 := 19#32
  let v16 : BitVec 1 := Scalar.cmpi .eq arg1 c19_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S10240x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![20, 20], ![false, false]⟩

def k1_mult1 (i : grid1.Coords) : BitVec 32 :=
  let arg1 : BitVec 32 := BitVec.ofNat 32 (i 1).val
  let c512_i32 : BitVec 32 := 512#32
  let v3 : BitVec 32 := Scalar.muli arg1 c512_i32
  v3
def k1_off1 (i : grid1.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c19_i32 : BitVec 32 := 19#32
  let v16 : BitVec 1 := Scalar.cmpi .eq arg1 c19_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S10240x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![20, 20], ![false, false]⟩

def k2_mult1 (i : grid2.Coords) : BitVec 32 :=
  let arg1 : BitVec 32 := BitVec.ofNat 32 (i 1).val
  let c512_i32 : BitVec 32 := 512#32
  let v3 : BitVec 32 := Scalar.muli arg1 c512_i32
  v3
def k2_off1 (i : grid2.Coords) : Fin 2 → Nat :=
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  let c0 : Index := 0#32
  ![v5.toNat, 0]
def k2_cond2 (i : grid2.Coords) : BitVec 1 :=
  let arg1 : BitVec 32 := BitVec.ofNat 32 (i 1).val
  let c19_i32 : BitVec 32 := 19#32
  let v16 : BitVec 1 := Scalar.cmpi .eq arg1 c19_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S10240x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S512x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S_S10240x10240 : S_.BroadcastsInDim S10240x10240 (![] : Fin 0 → Fin S10240x10240.rank)
  concatenates_S170000x1_S170000x1_S170000x2_d1 : Shape.Concatenates [S170000x1, S170000x1] S170000x2 1
  bitsLt_bf16_f32 : FTy.bits .bf16 < FTy.bits .f32
  transposes_S16x10000x10_S10000x16x10_1_0_2 : S16x10000x10.Transposes [1, 0, 2] S10000x16x10
  pads_S10000x16x10_S10240x16x10_02400_000_000 : S10000x16x10.Pads (![0, 0, 0] : Fin 3 → Nat) ![240, 0, 0] ![0, 0, 0] S10240x16x10
  h_S_ : 0 < S_.numel
  shapeCasts_S10240x16x10_S163840x10 : S10240x16x10.ShapeCasts S163840x10
  shapeCasts_S163840x64_S10240x16x64 : S163840x64.ShapeCasts S10240x16x64
  shapeCasts_S10240x16x64_S10240x1024 : S10240x16x64.ShapeCasts S10240x1024
  shapeCasts_S64_S1x64 : S64.ShapeCasts S1x64
  bcast_S1x64_S16x64_0_1 : S1x64.BroadcastsInDim S16x64 (![0, 1] : Fin 2 → Fin S16x64.rank)
  shapeCasts_S16x64_S1024 : S16x64.ShapeCasts S1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S512x1024 : S1x1024.Broadcasts S512x1024
  iota_S512x1024_d0_w32 : S512x1024.Iotas .tc 32 [0]
  shapeCasts_S10240x1024_S10240x16x64 : S10240x1024.ShapeCasts S10240x16x64
  shapeCasts_S10240x16x64_S163840x64 : S10240x16x64.ShapeCasts S163840x64
  shapeCasts_S163840x10_S10240x16x10 : S163840x10.ShapeCasts S10240x16x10
  pads_S10240x16x10_S10240x16x16_000_000_060 : S10240x16x10.Pads (![0, 0, 0] : Fin 3 → Nat) ![0, 0, 6] ![0, 0, 0] S10240x16x16
  shapeCasts_S10240x16x16_S10240x256 : S10240x16x16.ShapeCasts S10240x256
  pads_S10_S16_060 : S10.Pads (![0] : Fin 1 → Nat) ![6] ![0] S16
  shapeCasts_S16_S1x16 : S16.ShapeCasts S1x16
  bcast_S1x16_S16x16_0_1 : S1x16.BroadcastsInDim S16x16 (![0, 1] : Fin 2 → Fin S16x16.rank)
  shapeCasts_S16x16_S256 : S16x16.ShapeCasts S256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  iota_S512x256_d0_w32 : S512x256.Iotas .tc 32 [0]
  shapeCasts_S10240x256_S10240x16x16 : S10240x256.ShapeCasts S10240x16x16
  slices_S10240x16x16_S10240x16x10_0_0_0 : S10240x16x16.Slices ![0, 0, 0] S10240x16x10
  reducesTo_S10240x16x10_S16x10_d0 : S10240x16x10.ReducesTo [0] S16x10
  bcast_S_S16x10 : S_.BroadcastsInDim S16x10 (![] : Fin 0 → Fin S16x10.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  scatter_S10240x10240_S170000x2_S170000_n_01_01_1_wf : ScatterDims.WF S10240x10240 S170000x2 S170000 [] [0, 1] [0, 1] 1
  dot_S163840x10_S10x64_S163840x64_1_0_0_1_n_n_wf : DotDims.WF S163840x10 S10x64 S163840x64 [1] [0] [0] [1] [] []
  dot_S512x512_S512x1024_S512x1024_1_0_0_1_n_n_wf : DotDims.WF S512x512 S512x1024 S512x1024 [1] [0] [0] [1] [] []
  dot_S163840x64_S64x64_S163840x64_1_0_0_1_n_n_wf : DotDims.WF S163840x64 S64x64 S163840x64 [1] [0] [0] [1] [] []
  dot_S163840x64_S64x10_S163840x10_1_0_0_1_n_n_wf : DotDims.WF S163840x64 S64x10 S163840x10 [1] [0] [0] [1] [] []
  dot_S512x512_S512x256_S512x256_1_0_0_1_n_n_wf : DotDims.WF S512x512 S512x256 S512x256 [1] [0] [0] [1] [] []
  hrank0 : 0 < grid0.rank
  k0_mult1_dvd : ∀ i : grid0.Coords, 512 ∣ (k0_mult1 i).toNat
  k0_off1_inb : ∀ i : grid0.Coords, ∀ a, (k0_off1 i) a + S512x1024.size a ≤ S10240x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S10240x10240.size a
  hwx0_0 : ∀ i : grid0.Coords, EltTy.bits .bf16 = 32 ∨ (Rect.block (s := S10240x10240) S512x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10240x1024.size a ≤ S10240x1024.size a
  hwx0_1 : ∀ i : grid0.Coords, EltTy.bits .bf16 = 32 ∨ (Rect.block (s := S10240x1024) S10240x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S10240x1024.size a
  hwx0_3 : ∀ i : grid0.Coords, EltTy.bits .f32 = 32 ∨ (Rect.block (s := S10240x1024) S512x1024.size (cc0_transform_3 i) (hinb0_3 i)).WholeWords (EltTy.packing .f32)
  hrank1 : 0 < grid1.rank
  k1_mult1_dvd : ∀ i : grid1.Coords, 512 ∣ (k1_mult1 i).toNat
  k1_off1_inb : ∀ i : grid1.Coords, ∀ a, (k1_off1 i) a + S512x1024.size a ≤ S10240x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S10240x10240.size a
  hwx1_0 : ∀ i : grid1.Coords, EltTy.bits .bf16 = 32 ∨ (Rect.block (s := S10240x10240) S512x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x1024.size a ≤ S10240x1024.size a
  hwx1_1 : ∀ i : grid1.Coords, EltTy.bits .bf16 = 32 ∨ (Rect.block (s := S10240x1024) S10240x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S10240x1024.size a
  hwx1_3 : ∀ i : grid1.Coords, EltTy.bits .f32 = 32 ∨ (Rect.block (s := S10240x1024) S512x1024.size (cc1_transform_3 i) (hinb1_3 i)).WholeWords (EltTy.packing .f32)
  hrank2 : 0 < grid2.rank
  k2_mult1_dvd : ∀ i : grid2.Coords, 512 ∣ (k2_mult1 i).toNat
  k2_off1_inb : ∀ i : grid2.Coords, ∀ a, (k2_off1 i) a + S512x256.size a ≤ S10240x256.size a
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S10240x10240.size a
  hwx2_0 : ∀ i : grid2.Coords, EltTy.bits .bf16 = 32 ∨ (Rect.block (s := S10240x10240) S512x512.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10240x256.size a ≤ S10240x256.size a
  hwx2_1 : ∀ i : grid2.Coords, EltTy.bits .bf16 = 32 ∨ (Rect.block (s := S10240x256) S10240x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x256.size a ≤ S10240x256.size a
  hwx2_3 : ∀ i : grid2.Coords, EltTy.bits .f32 = 32 ∨ (Rect.block (s := S10240x256) S512x256.size (cc2_transform_3 i) (hinb2_3 i)).WholeWords (EltTy.packing .f32)

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def scatter_S10240x10240_S170000x2_S170000_n_01_01_1 : ScatterDims S10240x10240 S170000x2 S170000 where
  updateWindowDims := []
  insertedWindowDims := [0, 1]
  scatterDimsToOperandDims := [0, 1]
  indexVectorDim := 1
  wf := scatter_S10240x10240_S170000x2_S170000_n_01_01_1_wf
def dot_S163840x10_S10x64_S163840x64_1_0_0_1_n_n : DotDims S163840x10 S10x64 S163840x64 where
  lhsContracting := [1]
  rhsContracting := [0]
  lhsNonContracting := [0]
  rhsNonContracting := [1]
  lhsBatch := []
  rhsBatch := []
  wf := dot_S163840x10_S10x64_S163840x64_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S163840x64_S64x64_S163840x64_1_0_0_1_n_n : DotDims S163840x64 S64x64 S163840x64 where
  lhsContracting := [1]
  rhsContracting := [0]
  lhsNonContracting := [0]
  rhsNonContracting := [1]
  lhsBatch := []
  rhsBatch := []
  wf := dot_S163840x64_S64x64_S163840x64_1_0_0_1_n_n_wf
def dot_S163840x64_S64x10_S163840x10_1_0_0_1_n_n : DotDims S163840x64 S64x10 S163840x10 where
  lhsContracting := [1]
  rhsContracting := [0]
  lhsNonContracting := [0]
  rhsNonContracting := [1]
  lhsBatch := []
  rhsBatch := []
  wf := dot_S163840x64_S64x10_S163840x10_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf

abbrev win0_0 : Pipeline.Window sig grid0 :=
  Pipeline.Window.ofSpec (Memref.whole main_v48) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S10240x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v58) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v59) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v48) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v65) S10240x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v68) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v69) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v48) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v76) S10240x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v80) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S512x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S16x10000x10 : Shape := ⟨3, ![16, 10000, 10]⟩
abbrev S2x160000 : Shape := ⟨2, ![2, 160000]⟩
abbrev S10x64 : Shape := ⟨2, ![10, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x160000 : Shape := ⟨2, ![1, 160000]⟩
abbrev S160000 : Shape := ⟨1, ![160000]⟩
abbrev S10000 : Shape := ⟨1, ![10000]⟩
abbrev S170000 : Shape := ⟨1, ![170000]⟩
abbrev S_ : Shape := ⟨0, ![]⟩
abbrev S170000x1 : Shape := ⟨2, ![170000, 1]⟩
abbrev S16x10000x64 : Shape := ⟨3, ![16, 10000, 64]⟩
abbrev S16x170000x64 : Shape := ⟨3, ![16, 170000, 64]⟩
abbrev S1x170000x1 : Shape := ⟨3, ![1, 170000, 1]⟩
abbrev S1x1x64 : Shape := ⟨3, ![1, 1, 64]⟩
abbrev S16x170000x10 : Shape := ⟨3, ![16, 170000, 10]⟩
abbrev S1x1x10 : Shape := ⟨3, ![1, 1, 10]⟩
abbrev S16x10 : Shape := ⟨2, ![16, 10]⟩

abbrev nBuf : Space → Nat
  | .hbm => 145
  | .vmem => 0
  | .smem => 0
  | _ => 0

abbrev hbmTy0_0 (i : Nat) : BufTy := match i % 128 with
  | 0 => ⟨S16x10000x10, .f32⟩
  | 1 => ⟨S2x160000, .i32⟩
  | 2 => ⟨S10x64, .f32⟩
  | 3 => ⟨S64, .f32⟩
  | 4 => ⟨S64x64, .f32⟩
  | 5 => ⟨S64, .f32⟩
  | 6 => ⟨S64x10, .f32⟩
  | 7 => ⟨S10, .f32⟩
  | 8 => ⟨S1x160000, .i32⟩
  | 9 => ⟨S160000, .i32⟩
  | 10 => ⟨S1x160000, .i32⟩
  | 11 => ⟨S160000, .i32⟩
  | 12 => ⟨S10000, .i32⟩
  | 13 => ⟨S170000, .i32⟩
  | 14 => ⟨S170000, .i32⟩
  | 15 => ⟨S_, .f32⟩
  | 16 => ⟨S10000, .f32⟩
  | 17 => ⟨S_, .i32⟩
  | 18 => ⟨S170000, .i32⟩
  | 19 => ⟨S170000, .i1⟩
  | 20 => ⟨S_, .i32⟩
  | 21 => ⟨S170000, .i32⟩
  | 22 => ⟨S170000, .i32⟩
  | 23 => ⟨S170000, .i32⟩
  | 24 => ⟨S170000x1, .i32⟩
  | 25 => ⟨S_, .f32⟩
  | 26 => ⟨S170000, .f32⟩
  | 27 => ⟨S10000, .f32⟩
  | 28 => ⟨S_, .f32⟩
  | 29 => ⟨S10000, .f32⟩
  | 30 => ⟨S10000, .f32⟩
  | 31 => ⟨S_, .i32⟩
  | 32 => ⟨S170000, .i32⟩
  | 33 => ⟨S170000, .i1⟩
  | 34 => ⟨S_, .i32⟩
  | 35 => ⟨S170000, .i32⟩
  | 36 => ⟨S170000, .i32⟩
  | 37 => ⟨S170000, .i32⟩
  | 38 => ⟨S170000x1, .i32⟩
  | 39 => ⟨S170000, .f32⟩
  | 40 => ⟨S_, .i32⟩
  | 41 => ⟨S170000, .i32⟩
  | 42 => ⟨S170000, .i1⟩
  | 43 => ⟨S_, .i32⟩
  | 44 => ⟨S170000, .i32⟩
  | 45 => ⟨S170000, .i32⟩
  | 46 => ⟨S170000, .i32⟩
  | 47 => ⟨S170000x1, .i32⟩
  | 48 => ⟨S170000, .f32⟩
  | 49 => ⟨S170000, .f32⟩
  | 50 => ⟨S16x10000x64, .f32⟩
  | 51 => ⟨S_, .i32⟩
  | 52 => ⟨S170000, .i32⟩
  | 53 => ⟨S170000, .i1⟩
  | 54 => ⟨S_, .i32⟩
  | 55 => ⟨S170000, .i32⟩
  | 56 => ⟨S170000, .i32⟩
  | 57 => ⟨S170000, .i32⟩
  | 58 => ⟨S170000x1, .i32⟩
  | 59 => ⟨S16x170000x64, .f32⟩
  | 60 => ⟨S1x170000x1, .f32⟩
  | 61 => ⟨S16x170000x64, .f32⟩
  | 62 => ⟨S16x170000x64, .f32⟩
  | 63 => ⟨S_, .f32⟩
  | 64 => ⟨S16x10000x64, .f32⟩
  | 65 => ⟨S_, .i32⟩
  | 66 => ⟨S170000, .i32⟩
  | 67 => ⟨S170000, .i1⟩
  | 68 => ⟨S_, .i32⟩
  | 69 => ⟨S170000, .i32⟩
  | 70 => ⟨S170000, .i32⟩
  | 71 => ⟨S170000, .i32⟩
  | 72 => ⟨S170000x1, .i32⟩
  | 73 => ⟨S16x10000x64, .f32⟩
  | 74 => ⟨S1x1x64, .f32⟩
  | 75 => ⟨S16x10000x64, .f32⟩
  | 76 => ⟨S16x10000x64, .f32⟩
  | 77 => ⟨S_, .f32⟩
  | 78 => ⟨S16x10000x64, .f32⟩
  | 79 => ⟨S16x10000x64, .f32⟩
  | 80 => ⟨S16x10000x64, .f32⟩
  | 81 => ⟨S_, .i32⟩
  | 82 => ⟨S170000, .i32⟩
  | 83 => ⟨S170000, .i1⟩
  | 84 => ⟨S_, .i32⟩
  | 85 => ⟨S170000, .i32⟩
  | 86 => ⟨S170000, .i32⟩
  | 87 => ⟨S170000, .i32⟩
  | 88 => ⟨S170000x1, .i32⟩
  | 89 => ⟨S16x170000x64, .f32⟩
  | 90 => ⟨S1x170000x1, .f32⟩
  | 91 => ⟨S16x170000x64, .f32⟩
  | 92 => ⟨S16x170000x64, .f32⟩
  | 93 => ⟨S_, .f32⟩
  | 94 => ⟨S16x10000x64, .f32⟩
  | 95 => ⟨S_, .i32⟩
  | 96 => ⟨S170000, .i32⟩
  | 97 => ⟨S170000, .i1⟩
  | 98 => ⟨S_, .i32⟩
  | 99 => ⟨S170000, .i32⟩
  | 100 => ⟨S170000, .i32⟩
  | 101 => ⟨S170000, .i32⟩
  | 102 => ⟨S170000x1, .i32⟩
  | 103 => ⟨S16x10000x64, .f32⟩
  | 104 => ⟨S1x1x64, .f32⟩
  | 105 => ⟨S16x10000x64, .f32⟩
  | 106 => ⟨S16x10000x64, .f32⟩
  | 107 => ⟨S_, .f32⟩
  | 108 => ⟨S16x10000x64, .f32⟩
  | 109 => ⟨S16x10000x64, .f32⟩
  | 110 => ⟨S16x10000x10, .f32⟩
  | 111 => ⟨S_, .i32⟩
  | 112 => ⟨S170000, .i32⟩
  | 113 => ⟨S170000, .i1⟩
  | 114 => ⟨S_, .i32⟩
  | 115 => ⟨S170000, .i32⟩
  | 116 => ⟨S170000, .i32⟩
  | 117 => ⟨S170000, .i32⟩
  | 118 => ⟨S170000x1, .i32⟩
  | 119 => ⟨S16x170000x10, .f32⟩
  | 120 => ⟨S1x170000x1, .f32⟩
  | 121 => ⟨S16x170000x10, .f32⟩
  | 122 => ⟨S16x170000x10, .f32⟩
  | 123 => ⟨S_, .f32⟩
  | 124 => ⟨S16x10000x10, .f32⟩
  | 125 => ⟨S_, .i32⟩
  | 126 => ⟨S170000, .i32⟩
  | 127 => ⟨S170000, .i1⟩
  | _ => ⟨S16x10000x10, .f32⟩

abbrev hbmTy0_1 (i : Nat) : BufTy := match i % 128 with
  | 0 => ⟨S_, .i32⟩
  | 1 => ⟨S170000, .i32⟩
  | 2 => ⟨S170000, .i32⟩
  | 3 => ⟨S170000, .i32⟩
  | 4 => ⟨S170000x1, .i32⟩
  | 5 => ⟨S16x10000x10, .f32⟩
  | 6 => ⟨S1x1x10, .f32⟩
  | 7 => ⟨S16x10000x10, .f32⟩
  | 8 => ⟨S16x10000x10, .f32⟩
  | 9 => ⟨S_, .f32⟩
  | 10 => ⟨S16x10000x10, .f32⟩
  | 11 => ⟨S16x10000x10, .f32⟩
  | 12 => ⟨S_, .f32⟩
  | 13 => ⟨S16x10, .f32⟩
  | 14 => ⟨S_, .f32⟩
  | 15 => ⟨S16x10, .f32⟩
  | 16 => ⟨S16x10, .f32⟩
  | _ => ⟨S16x10000x10, .f32⟩

abbrev hbmTy (i : Nat) : BufTy := match i / 128 with
  | 0 => hbmTy0_0 i
  | 1 => hbmTy0_1 i
  | _ => ⟨S16x10000x10, .f32⟩

abbrev bufTy : (tb : Table) → Fin (tcTables nBuf tb) → BufTy
  | .hbm, ⟨i, _⟩ => hbmTy i
  | _, _ => ⟨S16x10000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_c_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_c_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_c_10 : Ref sig .tc := ⟨.hbm, 65, rfl⟩
abbrev main_v45 : Ref sig .tc := ⟨.hbm, 66, rfl⟩
abbrev main_v46 : Ref sig .tc := ⟨.hbm, 67, rfl⟩
abbrev main_c_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_call0_cst : Ref sig .tc := ⟨.hbm, 77, rfl⟩
abbrev main_call0_v0 : Ref sig .tc := ⟨.hbm, 78, rfl⟩
abbrev main_v55 : Ref sig .tc := ⟨.hbm, 79, rfl⟩
abbrev main_v56 : Ref sig .tc := ⟨.hbm, 80, rfl⟩
abbrev main_c_12 : Ref sig .tc := ⟨.hbm, 81, rfl⟩
abbrev main_v57 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_cst_14 : Ref sig .tc := ⟨.hbm, 93, rfl⟩
abbrev main_v67 : Ref sig .tc := ⟨.hbm, 94, rfl⟩
abbrev main_c_15 : Ref sig .tc := ⟨.hbm, 95, rfl⟩
abbrev main_v68 : Ref sig .tc := ⟨.hbm, 96, rfl⟩
abbrev main_v69 : Ref sig .tc := ⟨.hbm, 97, rfl⟩
abbrev main_c_16 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_call1_cst : Ref sig .tc := ⟨.hbm, 107, rfl⟩
abbrev main_call1_v0 : Ref sig .tc := ⟨.hbm, 108, rfl⟩
abbrev main_v78 : Ref sig .tc := ⟨.hbm, 109, rfl⟩
abbrev main_v79 : Ref sig .tc := ⟨.hbm, 110, rfl⟩
abbrev main_c_17 : Ref sig .tc := ⟨.hbm, 111, rfl⟩
abbrev main_v80 : Ref sig .tc := ⟨.hbm, 112, rfl⟩
abbrev main_v81 : Ref sig .tc := ⟨.hbm, 113, rfl⟩
abbrev main_c_18 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_19 : Ref sig .tc := ⟨.hbm, 123, rfl⟩
abbrev main_v90 : Ref sig .tc := ⟨.hbm, 124, rfl⟩
abbrev main_c_20 : Ref sig .tc := ⟨.hbm, 125, rfl⟩
abbrev main_v91 : Ref sig .tc := ⟨.hbm, 126, rfl⟩
abbrev main_v92 : Ref sig .tc := ⟨.hbm, 127, rfl⟩
abbrev main_c_21 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_call2_cst : Ref sig .tc := ⟨.hbm, 137, rfl⟩
abbrev main_call2_v0 : Ref sig .tc := ⟨.hbm, 138, rfl⟩
abbrev main_v101 : Ref sig .tc := ⟨.hbm, 139, rfl⟩
abbrev main_cst_22 : Ref sig .tc := ⟨.hbm, 140, rfl⟩
abbrev main_v102 : Ref sig .tc := ⟨.hbm, 141, rfl⟩
abbrev main_cst_23 : Ref sig .tc := ⟨.hbm, 142, rfl⟩
abbrev main_v103 : Ref sig .tc := ⟨.hbm, 143, rfl⟩
abbrev main_v104 : Ref sig .tc := ⟨.hbm, 144, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  concatenates_S160000_S10000_S170000_d0 : Shape.Concatenates [S160000, S10000] S170000 0
  bcast_S_S10000 : S_.BroadcastsInDim S10000 (![] : Fin 0 → Fin S10000.rank)
  bcast_S_S170000 : S_.BroadcastsInDim S170000 (![] : Fin 0 → Fin S170000.rank)
  bcast_S170000_S170000x1_0 : S170000.BroadcastsInDim S170000x1 (![0] : Fin 1 → Fin S170000x1.rank)
  bcast_S170000_S1x170000x1_1 : S170000.BroadcastsInDim S1x170000x1 (![1] : Fin 1 → Fin S1x170000x1.rank)
  bcast_S1x170000x1_S16x170000x64_0_1_2 : S1x170000x1.BroadcastsInDim S16x170000x64 (![0, 1, 2] : Fin 3 → Fin S16x170000x64.rank)
  bcast_S_S16x10000x64 : S_.BroadcastsInDim S16x10000x64 (![] : Fin 0 → Fin S16x10000x64.rank)
  bcast_S64_S1x1x64_2 : S64.BroadcastsInDim S1x1x64 (![2] : Fin 1 → Fin S1x1x64.rank)
  bcast_S1x1x64_S16x10000x64_0_1_2 : S1x1x64.BroadcastsInDim S16x10000x64 (![0, 1, 2] : Fin 3 → Fin S16x10000x64.rank)
  bcast_S1x170000x1_S16x170000x10_0_1_2 : S1x170000x1.BroadcastsInDim S16x170000x10 (![0, 1, 2] : Fin 3 → Fin S16x170000x10.rank)
  bcast_S_S16x10000x10 : S_.BroadcastsInDim S16x10000x10 (![] : Fin 0 → Fin S16x10000x10.rank)
  bcast_S10_S1x1x10_2 : S10.BroadcastsInDim S1x1x10 (![2] : Fin 1 → Fin S1x1x10.rank)
  bcast_S1x1x10_S16x10000x10_0_1_2 : S1x1x10.BroadcastsInDim S16x10000x10 (![0, 1, 2] : Fin 3 → Fin S16x10000x10.rank)
  reducesTo_S16x10000x10_S16x10_d1 : S16x10000x10.ReducesTo [1] S16x10
  h_S_ : 0 < S_.numel
  bcast_S_S16x10 : S_.BroadcastsInDim S16x10 (![] : Fin 0 → Fin S16x10.rank)
  scatter_S10000_S170000x1_S170000_n_0_0_1_wf : ScatterDims.WF S10000 S170000x1 S170000 [] [0] [0] 1
  gather_S10000_S170000x1_S170000_n_0_n_n_0_1_1_wf : GatherDims.WF S10000 S170000x1 S170000 [] [0] [] [0] [] 1 ![1]
  dot_S16x10000x10_S10x64_S16x10000x64_2_0_01_1_n_n_wf : DotDims.WF S16x10000x10 S10x64 S16x10000x64 [2] [0] [0, 1] [1] [] []
  gather_S16x10000x64_S170000x1_S16x170000x64_02_1_n_n_1_1_16164_wf : GatherDims.WF S16x10000x64 S170000x1 S16x170000x64 [0, 2] [1] [] [1] [] 1 ![16, 1, 64]
  scatter_S16x10000x64_S170000x1_S16x170000x64_02_1_1_1_wf : ScatterDims.WF S16x10000x64 S170000x1 S16x170000x64 [0, 2] [1] [1] 1
  dot_S16x10000x64_S64x64_S16x10000x64_2_0_01_1_n_n_wf : DotDims.WF S16x10000x64 S64x64 S16x10000x64 [2] [0] [0, 1] [1] [] []
  dot_S16x10000x64_S64x10_S16x10000x10_2_0_01_1_n_n_wf : DotDims.WF S16x10000x64 S64x10 S16x10000x10 [2] [0] [0, 1] [1] [] []
  gather_S16x10000x10_S170000x1_S16x170000x10_02_1_n_n_1_1_16110_wf : GatherDims.WF S16x10000x10 S170000x1 S16x170000x10 [0, 2] [1] [] [1] [] 1 ![16, 1, 10]
  scatter_S16x10000x10_S170000x1_S16x170000x10_02_1_1_1_wf : ScatterDims.WF S16x10000x10 S170000x1 S16x170000x10 [0, 2] [1] [1] 1

variable [Facts₀]

def scatter_S10000_S170000x1_S170000_n_0_0_1 : ScatterDims S10000 S170000x1 S170000 where
  updateWindowDims := []
  insertedWindowDims := [0]
  scatterDimsToOperandDims := [0]
  indexVectorDim := 1
  wf := scatter_S10000_S170000x1_S170000_n_0_0_1_wf
def gather_S10000_S170000x1_S170000_n_0_n_n_0_1_1 : GatherDims S10000 S170000x1 S170000 where
  offsetDims := []
  collapsedSliceDims := [0]
  operandBatchingDims := []
  startIndicesBatchingDims := []
  startIndexMap := [0]
  indexVectorDim := 1
  sliceSizes := ![1]
  wf := gather_S10000_S170000x1_S170000_n_0_n_n_0_1_1_wf
def dot_S16x10000x10_S10x64_S16x10000x64_2_0_01_1_n_n : DotDims S16x10000x10 S10x64 S16x10000x64 where
  lhsContracting := [2]
  rhsContracting := [0]
  lhsNonContracting := [0, 1]
  rhsNonContracting := [1]
  lhsBatch := []
  rhsBatch := []
  wf := dot_S16x10000x10_S10x64_S16x10000x64_2_0_01_1_n_n_wf
def gather_S16x10000x64_S170000x1_S16x170000x64_02_1_n_n_1_1_16164 : GatherDims S16x10000x64 S170000x1 S16x170000x64 where
  offsetDims := [0, 2]
  collapsedSliceDims := [1]
  operandBatchingDims := []
  startIndicesBatchingDims := []
  startIndexMap := [1]
  indexVectorDim := 1
  sliceSizes := ![16, 1, 64]
  wf := gather_S16x10000x64_S170000x1_S16x170000x64_02_1_n_n_1_1_16164_wf
def scatter_S16x10000x64_S170000x1_S16x170000x64_02_1_1_1 : ScatterDims S16x10000x64 S170000x1 S16x170000x64 where
  updateWindowDims := [0, 2]
  insertedWindowDims := [1]
  scatterDimsToOperandDims := [1]
  indexVectorDim := 1
  wf := scatter_S16x10000x64_S170000x1_S16x170000x64_02_1_1_1_wf
def dot_S16x10000x64_S64x64_S16x10000x64_2_0_01_1_n_n : DotDims S16x10000x64 S64x64 S16x10000x64 where
  lhsContracting := [2]
  rhsContracting := [0]
  lhsNonContracting := [0, 1]
  rhsNonContracting := [1]
  lhsBatch := []
  rhsBatch := []
  wf := dot_S16x10000x64_S64x64_S16x10000x64_2_0_01_1_n_n_wf
def dot_S16x10000x64_S64x10_S16x10000x10_2_0_01_1_n_n : DotDims S16x10000x64 S64x10 S16x10000x10 where
  lhsContracting := [2]
  rhsContracting := [0]
  lhsNonContracting := [0, 1]
  rhsNonContracting := [1]
  lhsBatch := []
  rhsBatch := []
  wf := dot_S16x10000x64_S64x10_S16x10000x10_2_0_01_1_n_n_wf
def gather_S16x10000x10_S170000x1_S16x170000x10_02_1_n_n_1_1_16110 : GatherDims S16x10000x10 S170000x1 S16x170000x10 where
  offsetDims := [0, 2]
  collapsedSliceDims := [1]
  operandBatchingDims := []
  startIndicesBatchingDims := []
  startIndexMap := [1]
  indexVectorDim := 1
  sliceSizes := ![16, 1, 10]
  wf := gather_S16x10000x10_S170000x1_S16x170000x10_02_1_n_n_1_1_16110_wf
def scatter_S16x10000x10_S170000x1_S16x170000x10_02_1_1_1 : ScatterDims S16x10000x10 S170000x1 S16x170000x10 where
  updateWindowDims := [0, 2]
  insertedWindowDims := [1]
  scatterDimsToOperandDims := [1]
  indexVectorDim := 1
  wf := scatter_S16x10000x10_S170000x1_S16x170000x10_02_1_1_1_wf

class Facts : Prop extends Facts₀ where

variable [Facts]
-- ==== Proof.SameProgram.lean ====
import proofs.«423821_j61503931678798_3_alg».proof.Proof.Gen.Kernel
import proofs.«423821_j61503931678798_3_alg».proof.Proof.Gen.KernelIdeal

set_option maxRecDepth 16384
set_option maxHeartbeats 4000000

noncomputable section

namespace Cert.Kernel.Hand

open Idealize.ShloMosaic Idealize.ShloMosaic.TcCoe Idealize.SL.Sem

variable {F : FTy → Type} [FloatOps F]

-- The idealization rewrote nothing: label by label the two body tables are the same term.
theorem defs₀_eq : Cert.Kernel.defs₀ (F := F) = Cert.KernelIdeal.defs₀ (F := F) :=
  congrArg Defs.onTc (funext fun ℓ => funext fun a => match ℓ, a with
    | 0, (_, _) => rfl | 1, (_, _) => rfl | 2, (_, _) => rfl)

theorem defs_eq : Cert.Kernel.defs (F := F) = Cert.KernelIdeal.defs (F := F) :=
  congrArg (Pipeline.defs Cert.KernelIdeal.pcfgs) defs₀_eq

end Cert.Kernel.Hand

end
-- ==== Proof.KiBody0.lean ====
import proofs.«423821_j61503931678798_3_alg».proof.Proof.Gen.KernelIdeal.Launch
import proofs.«423821_j61503931678798_3_alg».proof.Proof.Gen.KernelIdeal.Skeleton
import proofs.«423821_j61503931678798_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rA0 : Rect S512x512 := Rect.unit (s := S512x512) ![0, 0] S512x512.size inb_S512x512_S512x512_0_0

abbrev rS0 : Rect S512x1024 := Rect.unit (s := S512x1024) ![0, 0] S512x1024.size inb_S512x1024_S512x1024_0_0

abbrev rB0 : Rect S1024 := Rect.unit (s := S1024) ![0] S1024.size inb_S1024_S1024_0

abbrev rH0 (i : grid0.Coords) : Rect S10240x1024 := Rect.unit (s := S10240x1024) (k0_off1 i) S512x1024.size (k0_off1_inb i)

abbrev scM0 : Memref sig .tc .vmem S512x1024 .f32 := Memref.whole cc0_scratch0

abbrev acc0 (i : grid0.Coords) (xa : Vec F S512x512 .bf16) (xh : Vec F S10240x1024 .bf16) (a : Vec F S512x1024 .f32) :
    Vec F S512x1024 .f32 :=
  k0_pay2 (View.ld xh (rH0 i)) a (View.ld xa rA0)

abbrev res0 (i : grid0.Coords) (s : Vec F S512x1024 .f32) (xb : Vec F S1024 .f32) : Vec F S512x1024 .f32 :=
  k0_pay3 i s (View.ld xb rB0)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 20 = 0 :=
  (by decide +kernel : ∀ t : Fin grid0.N, cond0_0 (grid0.coords t) ↔ t.val % 20 = 0)

abbrev cond0_1 (i : grid0.Coords) : Prop := k0_cond2 i = 1#1

theorem hcond0_1 : ∀ t : Fin cfg0.N, cond0_1 (grid0.coords t) ↔ t.val % 20 = 19 :=
  (by decide +kernel : ∀ t : Fin grid0.N, cond0_1 (grid0.coords t) ↔ t.val % 20 = 19)

theorem hz0_2 : (![0, 0] : Fin 2 → Nat) = fun _ => 0 := funext fun a => by fin_cases a <;> rfl
theorem hz0_1 : (![0] : Fin 1 → Nat) = fun _ => 0 := funext fun a => by fin_cases a <;> rfl

variable (c : Dev nD) (E : Set ℕ) (i : grid0.Coords)
    (arg2 : Memref sig .tc .vmem S512x512 .bf16) (harg2 : arg2.IsWhole) (arg3 : Memref sig .tc .vmem S10240x1024 .bf16) (harg3 : arg3.IsWhole)
    (arg4 : Memref sig .tc .vmem S1024 .f32) (harg4 : arg4.IsWhole) (arg5 : Memref sig .tc .vmem S512x1024 .f32) (harg5 : arg5.IsWhole)
    (arg6 : Memref sig .tc .vmem S512x1024 .f32) (harg6 : arg6.IsWhole)
    (xa : Vec F S512x512 .bf16) (xh : Vec F S10240x1024 .bf16) (xb : Vec F S1024 .f32)

set_option maxHeartbeats 4000000 in
theorem sound_kernel0_A (hc0 : cond0_0 i) (hc1 : ¬cond0_1 i) (xo : Vec F S512x1024 .f32) (K : PUnit → sProp 𝕄) :
    iprop(owns (c : Thread nD τ) arg2 fullShare xa ∗ owns (c : Thread nD τ) arg3 fullShare xh ∗ owns (c : Thread nD τ) arg4 fullShare xb
        ∗ owns (c : Thread nD τ) arg5 fullShare xo ∗ (∃ d, owns (c : Thread nD τ) arg6 fullShare d)
        ∗ (iprop(owns (c : Thread nD τ) arg2 fullShare xa ∗ owns (c : Thread nD τ) arg3 fullShare xh ∗ owns (c : Thread nD τ) arg4 fullShare xb
            ∗ owns (c : Thread nD τ) arg5 fullShare xo ∗ owns (c : Thread nD τ) arg6 fullShare (acc0 i xa xh k0_pay1)) -∗ K ⟨⟩))
      ⊢ wp frame (wpE (defs₀ (F := F)) Variants.none c none) E (cc0__agg_kernel i arg2 harg2 arg3 harg3 arg4 harg4 arg5 harg5 arg6 harg6) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try sl_unfold_run_names
  rw [View.read_writes_eq_canon _ _ _ (fun y => ⟨_, List.mem_cons_self .., View.mem_set_unit_zero hz0_2 inb_S512x1024_S512x1024_0_0 y⟩), View.canon_cons_unit_zero hz0_2,
    View.readCov_unit_zero (S := S512x1024) _ hz0_2]
  rfl

set_option maxHeartbeats 4000000 in
theorem sound_kernel0_B (hc0 : ¬cond0_0 i) (hc1 : ¬cond0_1 i) (xo a : Vec F S512x1024 .f32) (K : PUnit → sProp 𝕄) :
    iprop(owns (c : Thread nD τ) arg2 fullShare xa ∗ owns (c : Thread nD τ) arg3 fullShare xh ∗ owns (c : Thread nD τ) arg4 fullShare xb
        ∗ owns (c : Thread nD τ) arg5 fullShare xo ∗ owns (c : Thread nD τ) arg6 fullShare a
        ∗ (iprop(owns (c : Thread nD τ) arg2 fullShare xa ∗ owns (c : Thread nD τ) arg3 fullShare xh ∗ owns (c : Thread nD τ) arg4 fullShare xb
            ∗ owns (c : Thread nD τ) arg5 fullShare xo ∗ owns (c : Thread nD τ) arg6 fullShare (acc0 i xa xh a)) -∗ K ⟨⟩))
      ⊢ wp frame (wpE (defs₀ (F := F)) Variants.none c none) E (cc0__agg_kernel i arg2 harg2 arg3 harg3 arg4 harg4 arg5 harg5 arg6 harg6) K := by
  simp only [cc0__agg_kernel_eq_skeleton]; unfold cc0__agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try sl_unfold_run_names
  rw [View.read_writes_eq_canon _ _ _ (fun y => ⟨_, List.mem_cons_self .., View.mem_set_unit_zero hz0_2 inb_S512x1024_S512x1024_0_0 y⟩), View.canon_cons_unit_zero hz0_2,
    View.readAt_eq_ld arg6.view, View.ld_unit_zero (S := S512x1024) hz0_2]
  rfl

set_option maxHeartbeats 4000000 in
theorem sound_kernel0_C (hc0 : ¬cond0_0 i) (hc1 : cond0_1 i) (a : Vec F S512x1024 .f32) (K : PUnit → sProp 𝕄) :
    iprop(owns (c : Thread nD τ) arg2 fullShare xa ∗ owns (c : Thread nD τ) arg3 fullShare xh ∗ owns (c : Thread nD τ) arg4 fullShare xb
        ∗ (∃ d, owns (c : Thread nD τ) arg5 fullShare d) ∗ owns (c : Thread nD τ) arg6 fullShare a
        ∗ (iprop(owns (c : Thread nD τ) arg2 fullShare xa ∗ owns (c : Thread nD τ) arg3 fullShare xh ∗ owns (c : Thread nD τ) arg4 fullShare xb
            ∗ owns (c : Thread nD τ) arg5 fullShare (res0 i (acc0 i xa xh a) xb) ∗ owns (c : Thread nD τ) arg6 fullShare (acc0 i xa xh a)) -∗ K ⟨⟩))
      ⊢ wp frame (wpE (defs₀ (F := F)) Variants.none c none) E (cc0__agg_kernel i arg2 harg2 arg3 harg3 arg4 harg4 arg5 harg5 arg6 harg6) K := by
  simp only [cc0__agg_kernel_eq_skeleton]; unfold cc0__agg_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_run_names
    rw [View.read_writes_eq_canon _ _ _ (fun y => ⟨_, List.mem_cons_self .., View.mem_set_unit_zero hz0_2 inb_S512x1024_S512x1024_0_0 y⟩), View.canon_cons_unit_zero hz0_2,
      View.readCov_unit_zero (S := S512x1024) _ hz0_2, View.readAt_eq_ld arg6.view, View.ld_unit_zero (S := S512x1024) hz0_2]
    rfl
  iexists _; isplitr
  swap; · iexact H6
  ipureintro
  try sl_unfold_run_names
  rw [View.read_writes_eq_canon _ _ _ (fun y => ⟨_, List.mem_cons_self .., View.mem_set_unit_zero hz0_2 inb_S512x1024_S512x1024_0_0 y⟩), View.canon_cons_unit_zero hz0_2,
    View.readAt_eq_ld arg6.view, View.ld_unit_zero (S := S512x1024) hz0_2]
  rfl

end Cert.KernelIdeal.Hand

end
-- ==== Proof.KiDat0.lean ====
import proofs.«423821_j61503931678798_3_alg».proof.Proof.KiBody0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ablk0 (c : Dev nD) (t : Fin cfg0.N) : Vec F S512x512 .bf16 := iblk0 V c 0 t
abbrev hblk0 (c : Dev nD) (t : Fin cfg0.N) : Vec F S10240x1024 .bf16 := iblk0 V c 1 t
abbrev bblk0 (c : Dev nD) (t : Fin cfg0.N) : Vec F S1024 .f32 := iblk0 V c 2 t

def scr0 (c : Dev nD) : (n : ℕ) → n < cfg0.N → Vec F S512x1024 .f32
  | 0, hn => k0_pay2 (View.ld (hblk0 V c ⟨0, hn⟩) (rH0 (grid0.coords ⟨0, hn⟩))) k0_pay1 (View.ld (ablk0 V c ⟨0, hn⟩) rA0)
  | n + 1, hn =>
    if (n + 1) % 20 = 0 then
      k0_pay2 (View.ld (hblk0 V c ⟨n + 1, hn⟩) (rH0 (grid0.coords ⟨n + 1, hn⟩))) k0_pay1 (View.ld (ablk0 V c ⟨n + 1, hn⟩) rA0)
    else
      k0_pay2 (View.ld (hblk0 V c ⟨n + 1, hn⟩) (rH0 (grid0.coords ⟨n + 1, hn⟩))) (scr0 c n (Nat.lt_of_succ_lt hn)) (View.ld (ablk0 V c ⟨n + 1, hn⟩) rA0)

theorem scr0_first (c : Dev nD) (t : Fin cfg0.N) (h : t.val % 20 = 0) :
    scr0 V c t.val t.isLt = k0_pay2 (View.ld (hblk0 V c t) (rH0 (grid0.coords t))) k0_pay1 (View.ld (ablk0 V c t) rA0) := by
  obtain ⟨n, hn⟩ := t
  cases n with
  | zero => rfl
  | succ n => exact if_pos h

theorem scr0_next (c : Dev nD) (t : Fin cfg0.N) (h : ¬t.val % 20 = 0) :
    scr0 V c t.val t.isLt = k0_pay2 (View.ld (hblk0 V c t) (rH0 (grid0.coords t)))
      (scr0 V c (t.val - 1) (Nat.lt_of_le_of_lt (Nat.sub_le _ _) t.isLt)) (View.ld (ablk0 V c t) rA0) := by
  obtain ⟨n, hn⟩ := t
  cases n with
  | zero => exact absurd (Nat.zero_mod _) h
  | succ n => exact if_neg h

def Phi0 (c : Dev nD) : (n : ℕ) → n ≤ cfg0.N → sProp 𝕄
  | 0, _ => Pipeline.ΦA spec0 c
  | n + 1, hn => iprop((owns (c : Thread nD τ) scM0 fullShare (scr0 V c n hn)
      ∗ Pipeline.scopedRestBut (Ix := Unit) (Name := ℕ) (U := UR sig nD τ) (Lvl := ℕ) (Val := Elt F) spec0 c [cc0_scratch0])
      ∗ (∃ r, prngReg c r))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay3 (grid0.coords t) (scr0 V c t.val t.isLt) (View.ld (bblk0 V c t) rB0)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = k0_pay3 (grid0.coords t) (scr0 V c t.val t.isLt) (View.ld (bblk0 V c t) rB0) := by dsimp only [dat0]

theorem q_eq0 (c : Dev nD) (w : Fin cfg0.W) : (dat0 V c).q w = fullShare := rfl
theorem owed_eq0 (c : Dev nD) (t : Fin (cfg0.N + 1)) : (dat0 V c).owed t = 0 := rfl

theorem Phi0_first (c : Dev nD) : (dat0 V c).Φ 0 = Pipeline.ΦA spec0 c := rfl

theorem Phi0_castSucc (c : Dev nD) (t : Fin cfg0.N) :
    (dat0 V c).Φ t.castSucc = Phi0 V c t.val (Nat.le_of_lt t.isLt) := by
  dsimp only [dat0]; simp only [Fin.coe_castSucc]

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (scr0 V c n hn)
      ∗ Pipeline.scopedRestBut (Ix := Unit) (Name := ℕ) (U := UR sig nD τ) (Lvl := ℕ) (Val := Elt F) spec0 c [cc0_scratch0])
      ∗ (∃ r, prngReg c r)) := rfl

theorem Phi0_pos (c : Dev nD) (n : ℕ) (h : n ≤ cfg0.N) (hz : n ≠ 0) :
    Phi0 V c n h = iprop((owns (c : Thread nD τ) scM0 fullShare (scr0 V c (n - 1) (by omega))
      ∗ Pipeline.scopedRestBut (Ix := Unit) (Name := ℕ) (U := UR sig nD τ) (Lvl := ℕ) (Val := Elt F) spec0 c [cc0_scratch0])
      ∗ (∃ r, prngReg c r)) := by
  cases n with
  | zero => exact absurd rfl hz
  | succ n => rfl

theorem PhiA0_eq (c : Dev nD) :
    (Pipeline.ΦA spec0 c : sProp 𝕄)
      = iprop(((∃ d, owns (c : Thread nD τ) scM0 fullShare d)
          ∗ Pipeline.scopedRestBut (Ix := Unit) (Name := ℕ) (U := UR sig nD τ) (Lvl := ℕ) (Val := Elt F) spec0 c [cc0_scratch0])
          ∗ (∃ r, prngReg c r)) := by
  unfold Pipeline.ΦA
  rw [Pipeline.scopedRest_split_of_list spec0 c [cc0_scratch0] (by decide) (by decide), bigSepL_singleton]
  simp only [scM0, owns_whole]; try rfl

theorem Phi0_last (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 400 := N_0; omega), PhiA0_eq]
  iintro ⟨⟨HS, HR⟩, Hg⟩
  isplitl [HS HR]
  · isplitl [HS]
    · iexists _; iexact HS
    iexact HR
  iexact Hg

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel

theorem liveAt0_3 : ∀ t : Fin cfg0.N, cond0_1 (grid0.coords t) → cfg0.idle 3 (grid0.coords t) = false := by decide +kernel

theorem leaves0_0 (c : Dev nD) (t : Fin cfg0.N) :
    (dat0 V c).leavesExact 0 t = owns (c : Thread nD τ) (st0_0 t) fullShare (iblk0 V c 0 t) := by
  rw [show (dat0 V c).leavesExact 0 t = owns (c : Thread nD τ) (st0_0 t) fullShare ((dat0 V c).after 0 t) from by
    unfold Dat.leavesExact; rw [liveAt0_0 t], after0_0]
theorem leaves0_1 (c : Dev nD) (t : Fin cfg0.N) :
    (dat0 V c).leavesExact 1 t = owns (c : Thread nD τ) (st0_1 t) fullShare (iblk0 V c 1 t) := by
  rw [show (dat0 V c).leavesExact 1 t = owns (c : Thread nD τ) (st0_1 t) fullShare ((dat0 V c).after 1 t) from by
    unfold Dat.leavesExact; rw [liveAt0_1 t], after0_1]
theorem leaves0_2 (c : Dev nD) (t : Fin cfg0.N) :
    (dat0 V c).leavesExact 2 t = owns (c : Thread nD τ) (st0_2 t) fullShare (iblk0 V c 2 t) := by
  rw [show (dat0 V c).leavesExact 2 t = owns (c : Thread nD τ) (st0_2 t) fullShare ((dat0 V c).after 2 t) from by
    unfold Dat.leavesExact; rw [liveAt0_2 t], after0_2]

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = Phi0 V c (t.val + 1) t.isLt from rfl, Phi0_succ]
  rw [leaves0_0, leaves0_1, leaves0_2]
  have hN : t.val < 400 := lt_of_lt_of_eq t.isLt (show cfg0.N = 400 from N_0)
  by_cases h1 : t.val % 20 = 19
  · have h0 : ¬t.val % 20 = 0 := by omega
    have hz : t.val ≠ 0 := by omega
    rw [show (dat0 V c).leavesExact 3 t = owns (c : Thread nD τ) (st0_3 t) fullShare ((dat0 V c).after 3 t) from by
      unfold Dat.leavesExact; rw [liveAt0_3 t ((hcond0_1 t).mpr h1)], after0_3]
    rw [scr0_next V c t h0]
    rw [Phi0_castSucc V c t, Phi0_pos V c _ _ hz]
    iintro ⟨⟨⟨HS, HR⟩, Hg⟩, Ho, ⟨%d0, H0⟩, ⟨%d1, H1⟩, ⟨%d2, H2⟩, ⟨%d3, H3⟩⟩
    iapply (sound_kernel0_C c Set.univ (grid0.coords t) _ _ _ _ _ _ _ _ _ _ (ablk0 V c t) (hblk0 V c t) (bblk0 V c t)
      (fun h => h0 ((hcond0_0 t).mp h)) ((hcond0_1 t).mpr h1) (scr0 V c (t.val - 1) (Nat.lt_of_le_of_lt (Nat.sub_le _ _) t.isLt)) _)
    iframe H0 H1 H2 HS
    isplitl [H3]; · iexists _; iexact H3
    iintro ⟨H0, H1, H2, H3, HS⟩
    iframe
  · rw [Dat.leavesExact_idle (dat0 V c) 3 t (idleAt0_3 t (fun h => h1 ((hcond0_1 t).mp h))) (noFlush0_3 t (fun h => h1 ((hcond0_1 t).mp h)))]
    by_cases h0 : t.val % 20 = 0
    · rw [scr0_first V c t h0]
      by_cases hz : t.val = 0
      · rw [Phi0_castSucc V c t, Phi0_zero V c _ _ hz, PhiA0_eq]
        iintro ⟨⟨⟨HS, HR⟩, Hg⟩, Ho, ⟨%d0, H0⟩, ⟨%d1, H1⟩, ⟨%d2, H2⟩, ⟨%d3, H3⟩⟩
        iapply (sound_kernel0_A c Set.univ (grid0.coords t) _ _ _ _ _ _ _ _ _ _ (ablk0 V c t) (hblk0 V c t) (bblk0 V c t)
          ((hcond0_0 t).mpr h0) (fun h => h1 ((hcond0_1 t).mp h)) ((dat0 V c).before 3 t d3) _)
        iframe H0 H1 H2 H3 HS
        iintro ⟨H0, H1, H2, H3, HS⟩
        iframe HS HR Hg Ho H0 H1 H2
        iexists _; iexact H3
      · rw [Phi0_castSucc V c t, Phi0_pos V c _ _ hz]
        iintro ⟨⟨⟨HS, HR⟩, Hg⟩, Ho, ⟨%d0, H0⟩, ⟨%d1, H1⟩, ⟨%d2, H2⟩, ⟨%d3, H3⟩⟩
        iapply (sound_kernel0_A c Set.univ (grid0.coords t) _ _ _ _ _ _ _ _ _ _ (ablk0 V c t) (hblk0 V c t) (bblk0 V c t)
          ((hcond0_0 t).mpr h0) (fun h => h1 ((hcond0_1 t).mp h)) ((dat0 V c).before 3 t d3) _)
        iframe H0 H1 H2 H3
        isplitl [HS]; · iexists _; iexact HS
        iintro ⟨H0, H1, H2, H3, HS⟩
        iframe HS HR Hg Ho H0 H1 H2
        iexists _; iexact H3
    · have hz : t.val ≠ 0 := fun e => h0 (by rw [e])
      rw [scr0_next V c t h0]
      rw [Phi0_castSucc V c t, Phi0_pos V c _ _ hz]
      iintro ⟨⟨⟨HS, HR⟩, Hg⟩, Ho, ⟨%d0, H0⟩, ⟨%d1, H1⟩, ⟨%d2, H2⟩, ⟨%d3, H3⟩⟩
      iapply (sound_kernel0_B c Set.univ (grid0.coords t) _ _ _ _ _ _ _ _ _ _ (ablk0 V c t) (hblk0 V c t) (bblk0 V c t)
        (fun h => h0 ((hcond0_0 t).mp h)) (fun h => h1 ((hcond0_1 t).mp h)) ((dat0 V c).before 3 t d3) (scr0 V c (t.val - 1) (Nat.lt_of_le_of_lt (Nat.sub_le _ _) t.isLt)) _)
      iframe H0 H1 H2 H3 HS
      iintro ⟨H0, H1, H2, H3, HS⟩
      iframe HS HR Hg Ho H0 H1 H2
      iexists _; iexact H3

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiBody1.lean ====
import proofs.«423821_j61503931678798_3_alg».proof.Proof.Gen.KernelIdeal.Launch
import proofs.«423821_j61503931678798_3_alg».proof.Proof.Gen.KernelIdeal.Skeleton
import proofs.«423821_j61503931678798_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rA1 : Rect S512x512 := Rect.unit (s := S512x512) ![0, 0] S512x512.size inb_S512x512_S512x512_0_0

abbrev rS1 : Rect S512x1024 := Rect.unit (s := S512x1024) ![0, 0] S512x1024.size inb_S512x1024_S512x1024_0_0

abbrev rB1 : Rect S1024 := Rect.unit (s := S1024) ![0] S1024.size inb_S1024_S1024_0

abbrev rH1 (i : grid1.Coords) : Rect S10240x1024 := Rect.unit (s := S10240x1024) (k1_off1 i) S512x1024.size (k1_off1_inb i)

abbrev scM1 : Memref sig .tc .vmem S512x1024 .f32 := Memref.whole cc1_scratch0

abbrev acc1 (i : grid1.Coords) (xa : Vec F S512x512 .bf16) (xh : Vec F S10240x1024 .bf16) (a : Vec F S512x1024 .f32) :
    Vec F S512x1024 .f32 :=
  k1_pay2 (View.ld xh (rH1 i)) a (View.ld xa rA1)

abbrev res1 (i : grid1.Coords) (s : Vec F S512x1024 .f32) (xb : Vec F S1024 .f32) : Vec F S512x1024 .f32 :=
  k1_pay3 i s (View.ld xb rB1)

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 20 = 0 :=
  (by decide +kernel : ∀ t : Fin grid1.N, cond1_0 (grid1.coords t) ↔ t.val % 20 = 0)

abbrev cond1_1 (i : grid1.Coords) : Prop := k1_cond2 i = 1#1

theorem hcond1_1 : ∀ t : Fin cfg1.N, cond1_1 (grid1.coords t) ↔ t.val % 20 = 19 :=
  (by decide +kernel : ∀ t : Fin grid1.N, cond1_1 (grid1.coords t) ↔ t.val % 20 = 19)

theorem hz1_2 : (![0, 0] : Fin 2 → Nat) = fun _ => 0 := funext fun a => by fin_cases a <;> rfl
theorem hz1_1 : (![0] : Fin 1 → Nat) = fun _ => 0 := funext fun a => by fin_cases a <;> rfl

variable (c : Dev nD) (E : Set ℕ) (i : grid1.Coords)
    (arg2 : Memref sig .tc .vmem S512x512 .bf16) (harg2 : arg2.IsWhole) (arg3 : Memref sig .tc .vmem S10240x1024 .bf16) (harg3 : arg3.IsWhole)
    (arg4 : Memref sig .tc .vmem S1024 .f32) (harg4 : arg4.IsWhole) (arg5 : Memref sig .tc .vmem S512x1024 .f32) (harg5 : arg5.IsWhole)
    (arg6 : Memref sig .tc .vmem S512x1024 .f32) (harg6 : arg6.IsWhole)
    (xa : Vec F S512x512 .bf16) (xh : Vec F S10240x1024 .bf16) (xb : Vec F S1024 .f32)

set_option maxHeartbeats 4000000 in
theorem sound_kernel1_A (hc0 : cond1_0 i) (hc1 : ¬cond1_1 i) (xo : Vec F S512x1024 .f32) (K : PUnit → sProp 𝕄) :
    iprop(owns (c : Thread nD τ) arg2 fullShare xa ∗ owns (c : Thread nD τ) arg3 fullShare xh ∗ owns (c : Thread nD τ) arg4 fullShare xb
        ∗ owns (c : Thread nD τ) arg5 fullShare xo ∗ (∃ d, owns (c : Thread nD τ) arg6 fullShare d)
        ∗ (iprop(owns (c : Thread nD τ) arg2 fullShare xa ∗ owns (c : Thread nD τ) arg3 fullShare xh ∗ owns (c : Thread nD τ) arg4 fullShare xb
            ∗ owns (c : Thread nD τ) arg5 fullShare xo ∗ owns (c : Thread nD τ) arg6 fullShare (acc1 i xa xh k1_pay1)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try sl_unfold_run_names
  rw [View.read_writes_eq_canon _ _ _ (fun y => ⟨_, List.mem_cons_self .., View.mem_set_unit_zero hz1_2 inb_S512x1024_S512x1024_0_0 y⟩), View.canon_cons_unit_zero hz1_2,
    View.readCov_unit_zero (S := S512x1024) _ hz1_2]
  rfl

set_option maxHeartbeats 4000000 in
theorem sound_kernel1_B (hc0 : ¬cond1_0 i) (hc1 : ¬cond1_1 i) (xo a : Vec F S512x1024 .f32) (K : PUnit → sProp 𝕄) :
    iprop(owns (c : Thread nD τ) arg2 fullShare xa ∗ owns (c : Thread nD τ) arg3 fullShare xh ∗ owns (c : Thread nD τ) arg4 fullShare xb
        ∗ owns (c : Thread nD τ) arg5 fullShare xo ∗ owns (c : Thread nD τ) arg6 fullShare a
        ∗ (iprop(owns (c : Thread nD τ) arg2 fullShare xa ∗ owns (c : Thread nD τ) arg3 fullShare xh ∗ owns (c : Thread nD τ) arg4 fullShare xb
            ∗ owns (c : Thread nD τ) arg5 fullShare xo ∗ owns (c : Thread nD τ) arg6 fullShare (acc1 i xa xh a)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try sl_unfold_run_names
  rw [View.read_writes_eq_canon _ _ _ (fun y => ⟨_, List.mem_cons_self .., View.mem_set_unit_zero hz1_2 inb_S512x1024_S512x1024_0_0 y⟩), View.canon_cons_unit_zero hz1_2,
    View.readAt_eq_ld arg6.view, View.ld_unit_zero (S := S512x1024) hz1_2]
  rfl

set_option maxHeartbeats 4000000 in
theorem sound_kernel1_C (hc0 : ¬cond1_0 i) (hc1 : cond1_1 i) (a : Vec F S512x1024 .f32) (K : PUnit → sProp 𝕄) :
    iprop(owns (c : Thread nD τ) arg2 fullShare xa ∗ owns (c : Thread nD τ) arg3 fullShare xh ∗ owns (c : Thread nD τ) arg4 fullShare xb
        ∗ (∃ d, owns (c : Thread nD τ) arg5 fullShare d) ∗ owns (c : Thread nD τ) arg6 fullShare a
        ∗ (iprop(owns (c : Thread nD τ) arg2 fullShare xa ∗ owns (c : Thread nD τ) arg3 fullShare xh ∗ owns (c : Thread nD τ) arg4 fullShare xb
            ∗ owns (c : Thread nD τ) arg5 fullShare (res1 i (acc1 i xa xh a) xb) ∗ owns (c : Thread nD τ) arg6 fullShare (acc1 i xa xh a)) -∗ K ⟨⟩))
      ⊢ wp frame (wpE (defs₀ (F := F)) Variants.none c none) E (cc1__agg_kernel i arg2 harg2 arg3 harg3 arg4 harg4 arg5 harg5 arg6 harg6) K := by
  simp only [cc1__agg_kernel_eq_skeleton]; unfold cc1__agg_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_run_names
    rw [View.read_writes_eq_canon _ _ _ (fun y => ⟨_, List.mem_cons_self .., View.mem_set_unit_zero hz1_2 inb_S512x1024_S512x1024_0_0 y⟩), View.canon_cons_unit_zero hz1_2,
      View.readCov_unit_zero (S := S512x1024) _ hz1_2, View.readAt_eq_ld arg6.view, View.ld_unit_zero (S := S512x1024) hz1_2]
    rfl
  iexists _; isplitr
  swap; · iexact H6
  ipureintro
  try sl_unfold_run_names
  rw [View.read_writes_eq_canon _ _ _ (fun y => ⟨_, List.mem_cons_self .., View.mem_set_unit_zero hz1_2 inb_S512x1024_S512x1024_0_0 y⟩), View.canon_cons_unit_zero hz1_2,
    View.readAt_eq_ld arg6.view, View.ld_unit_zero (S := S512x1024) hz1_2]
  rfl

end Cert.KernelIdeal.Hand

end
-- ==== Proof.KiDat1.lean ====
import proofs.«423821_j61503931678798_3_alg».proof.Proof.KiBody1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ablk1 (c : Dev nD) (t : Fin cfg1.N) : Vec F S512x512 .bf16 := iblk1 V c 0 t
abbrev hblk1 (c : Dev nD) (t : Fin cfg1.N) : Vec F S10240x1024 .bf16 := iblk1 V c 1 t
abbrev bblk1 (c : Dev nD) (t : Fin cfg1.N) : Vec F S1024 .f32 := iblk1 V c 2 t

def scr1 (c : Dev nD) : (n : ℕ) → n < cfg1.N → Vec F S512x1024 .f32
  | 0, hn => k1_pay2 (View.ld (hblk1 V c ⟨0, hn⟩) (rH1 (grid1.coords ⟨0, hn⟩))) k1_pay1 (View.ld (ablk1 V c ⟨0, hn⟩) rA1)
  | n + 1, hn =>
    if (n + 1) % 20 = 0 then
      k1_pay2 (View.ld (hblk1 V c ⟨n + 1, hn⟩) (rH1 (grid1.coords ⟨n + 1, hn⟩))) k1_pay1 (View.ld (ablk1 V c ⟨n + 1, hn⟩) rA1)
    else
      k1_pay2 (View.ld (hblk1 V c ⟨n + 1, hn⟩) (rH1 (grid1.coords ⟨n + 1, hn⟩))) (scr1 c n (Nat.lt_of_succ_lt hn)) (View.ld (ablk1 V c ⟨n + 1, hn⟩) rA1)

theorem scr1_first (c : Dev nD) (t : Fin cfg1.N) (h : t.val % 20 = 0) :
    scr1 V c t.val t.isLt = k1_pay2 (View.ld (hblk1 V c t) (rH1 (grid1.coords t))) k1_pay1 (View.ld (ablk1 V c t) rA1) := by
  obtain ⟨n, hn⟩ := t
  cases n with
  | zero => rfl
  | succ n => exact if_pos h

theorem scr1_next (c : Dev nD) (t : Fin cfg1.N) (h : ¬t.val % 20 = 0) :
    scr1 V c t.val t.isLt = k1_pay2 (View.ld (hblk1 V c t) (rH1 (grid1.coords t)))
      (scr1 V c (t.val - 1) (Nat.lt_of_le_of_lt (Nat.sub_le _ _) t.isLt)) (View.ld (ablk1 V c t) rA1) := by
  obtain ⟨n, hn⟩ := t
  cases n with
  | zero => exact absurd (Nat.zero_mod _) h
  | succ n => exact if_neg h

def Phi1 (c : Dev nD) : (n : ℕ) → n ≤ cfg1.N → sProp 𝕄
  | 0, _ => Pipeline.ΦA spec1 c
  | n + 1, hn => iprop((owns (c : Thread nD τ) scM1 fullShare (scr1 V c n hn)
      ∗ Pipeline.scopedRestBut (Ix := Unit) (Name := ℕ) (U := UR sig nD τ) (Lvl := ℕ) (Val := Elt F) spec1 c [cc1_scratch0])
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (grid1.coords t) (scr1 V c t.val t.isLt) (View.ld (bblk1 V c t) rB1)
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (grid1.coords t) (scr1 V c t.val t.isLt) (View.ld (bblk1 V c t) rB1) := by dsimp only [dat1]

theorem q_eq1 (c : Dev nD) (w : Fin cfg1.W) : (dat1 V c).q w = fullShare := rfl
theorem owed_eq1 (c : Dev nD) (t : Fin (cfg1.N + 1)) : (dat1 V c).owed t = 0 := rfl

theorem Phi1_first (c : Dev nD) : (dat1 V c).Φ 0 = Pipeline.ΦA spec1 c := rfl

theorem Phi1_castSucc (c : Dev nD) (t : Fin cfg1.N) :
    (dat1 V c).Φ t.castSucc = Phi1 V c t.val (Nat.le_of_lt t.isLt) := by
  dsimp only [dat1]; simp only [Fin.coe_castSucc]

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop((owns (c : Thread nD τ) scM1 fullShare (scr1 V c n hn)
      ∗ Pipeline.scopedRestBut (Ix := Unit) (Name := ℕ) (U := UR sig nD τ) (Lvl := ℕ) (Val := Elt F) spec1 c [cc1_scratch0])
      ∗ (∃ r, prngReg c r)) := rfl

theorem Phi1_pos (c : Dev nD) (n : ℕ) (h : n ≤ cfg1.N) (hz : n ≠ 0) :
    Phi1 V c n h = iprop((owns (c : Thread nD τ) scM1 fullShare (scr1 V c (n - 1) (by omega))
      ∗ Pipeline.scopedRestBut (Ix := Unit) (Name := ℕ) (U := UR sig nD τ) (Lvl := ℕ) (Val := Elt F) spec1 c [cc1_scratch0])
      ∗ (∃ r, prngReg c r)) := by
  cases n with
  | zero => exact absurd rfl hz
  | succ n => rfl

theorem PhiA1_eq (c : Dev nD) :
    (Pipeline.ΦA spec1 c : sProp 𝕄)
      = iprop(((∃ d, owns (c : Thread nD τ) scM1 fullShare d)
          ∗ Pipeline.scopedRestBut (Ix := Unit) (Name := ℕ) (U := UR sig nD τ) (Lvl := ℕ) (Val := Elt F) spec1 c [cc1_scratch0])
          ∗ (∃ r, prngReg c r)) := by
  unfold Pipeline.ΦA
  rw [Pipeline.scopedRest_split_of_list spec1 c [cc1_scratch0] (by decide) (by decide), bigSepL_singleton]
  simp only [scM1, owns_whole]; try rfl

theorem Phi1_last (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 400 := N_1; omega), PhiA1_eq]
  iintro ⟨⟨HS, HR⟩, Hg⟩
  isplitl [HS HR]
  · isplitl [HS]
    · iexists _; iexact HS
    iexact HR
  iexact Hg

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl

theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel

theorem liveAt1_3 : ∀ t : Fin cfg1.N, cond1_1 (grid1.coords t) → cfg1.idle 3 (grid1.coords t) = false := by decide +kernel

theorem leaves1_0 (c : Dev nD) (t : Fin cfg1.N) :
    (dat1 V c).leavesExact 0 t = owns (c : Thread nD τ) (st1_0 t) fullShare (iblk1 V c 0 t) := by
  rw [show (dat1 V c).leavesExact 0 t = owns (c : Thread nD τ) (st1_0 t) fullShare ((dat1 V c).after 0 t) from by
    unfold Dat.leavesExact; rw [liveAt1_0 t], after1_0]
theorem leaves1_1 (c : Dev nD) (t : Fin cfg1.N) :
    (dat1 V c).leavesExact 1 t = owns (c : Thread nD τ) (st1_1 t) fullShare (iblk1 V c 1 t) := by
  rw [show (dat1 V c).leavesExact 1 t = owns (c : Thread nD τ) (st1_1 t) fullShare ((dat1 V c).after 1 t) from by
    unfold Dat.leavesExact; rw [liveAt1_1 t], after1_1]
theorem leaves1_2 (c : Dev nD) (t : Fin cfg1.N) :
    (dat1 V c).leavesExact 2 t = owns (c : Thread nD τ) (st1_2 t) fullShare (iblk1 V c 2 t) := by
  rw [show (dat1 V c).leavesExact 2 t = owns (c : Thread nD τ) (st1_2 t) fullShare ((dat1 V c).after 2 t) from by
    unfold Dat.leavesExact; rw [liveAt1_2 t], after1_2]

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = Phi1 V c (t.val + 1) t.isLt from rfl, Phi1_succ]
  rw [leaves1_0, leaves1_1, leaves1_2]
  have hN : t.val < 400 := lt_of_lt_of_eq t.isLt (show cfg1.N = 400 from N_1)
  by_cases h1 : t.val % 20 = 19
  · have h0 : ¬t.val % 20 = 0 := by omega
    have hz : t.val ≠ 0 := by omega
    rw [show (dat1 V c).leavesExact 3 t = owns (c : Thread nD τ) (st1_3 t) fullShare ((dat1 V c).after 3 t) from by
      unfold Dat.leavesExact; rw [liveAt1_3 t ((hcond1_1 t).mpr h1)], after1_3]
    rw [scr1_next V c t h0]
    rw [Phi1_castSucc V c t, Phi1_pos V c _ _ hz]
    iintro ⟨⟨⟨HS, HR⟩, Hg⟩, Ho, ⟨%d0, H0⟩, ⟨%d1, H1⟩, ⟨%d2, H2⟩, ⟨%d3, H3⟩⟩
    iapply (sound_kernel1_C c Set.univ (grid1.coords t) _ _ _ _ _ _ _ _ _ _ (ablk1 V c t) (hblk1 V c t) (bblk1 V c t)
      (fun h => h0 ((hcond1_0 t).mp h)) ((hcond1_1 t).mpr h1) (scr1 V c (t.val - 1) (Nat.lt_of_le_of_lt (Nat.sub_le _ _) t.isLt)) _)
    iframe H0 H1 H2 HS
    isplitl [H3]; · iexists _; iexact H3
    iintro ⟨H0, H1, H2, H3, HS⟩
    iframe
  · rw [Dat.leavesExact_idle (dat1 V c) 3 t (idleAt1_3 t (fun h => h1 ((hcond1_1 t).mp h))) (noFlush1_3 t (fun h => h1 ((hcond1_1 t).mp h)))]
    by_cases h0 : t.val % 20 = 0
    · rw [scr1_first V c t h0]
      by_cases hz : t.val = 0
      · rw [Phi1_castSucc V c t, Phi1_zero V c _ _ hz, PhiA1_eq]
        iintro ⟨⟨⟨HS, HR⟩, Hg⟩, Ho, ⟨%d0, H0⟩, ⟨%d1, H1⟩, ⟨%d2, H2⟩, ⟨%d3, H3⟩⟩
        iapply (sound_kernel1_A c Set.univ (grid1.coords t) _ _ _ _ _ _ _ _ _ _ (ablk1 V c t) (hblk1 V c t) (bblk1 V c t)
          ((hcond1_0 t).mpr h0) (fun h => h1 ((hcond1_1 t).mp h)) ((dat1 V c).before 3 t d3) _)
        iframe H0 H1 H2 H3 HS
        iintro ⟨H0, H1, H2, H3, HS⟩
        iframe HS HR Hg Ho H0 H1 H2
        iexists _; iexact H3
      · rw [Phi1_castSucc V c t, Phi1_pos V c _ _ hz]
        iintro ⟨⟨⟨HS, HR⟩, Hg⟩, Ho, ⟨%d0, H0⟩, ⟨%d1, H1⟩, ⟨%d2, H2⟩, ⟨%d3, H3⟩⟩
        iapply (sound_kernel1_A c Set.univ (grid1.coords t) _ _ _ _ _ _ _ _ _ _ (ablk1 V c t) (hblk1 V c t) (bblk1 V c t)
          ((hcond1_0 t).mpr h0) (fun h => h1 ((hcond1_1 t).mp h)) ((dat1 V c).before 3 t d3) _)
        iframe H0 H1 H2 H3
        isplitl [HS]; · iexists _; iexact HS
        iintro ⟨H0, H1, H2, H3, HS⟩
        iframe HS HR Hg Ho H0 H1 H2
        iexists _; iexact H3
    · have hz : t.val ≠ 0 := fun e => h0 (by rw [e])
      rw [scr1_next V c t h0]
      rw [Phi1_castSucc V c t, Phi1_pos V c _ _ hz]
      iintro ⟨⟨⟨HS, HR⟩, Hg⟩, Ho, ⟨%d0, H0⟩, ⟨%d1, H1⟩, ⟨%d2, H2⟩, ⟨%d3, H3⟩⟩
      iapply (sound_kernel1_B c Set.univ (grid1.coords t) _ _ _ _ _ _ _ _ _ _ (ablk1 V c t) (hblk1 V c t) (bblk1 V c t)
        (fun h => h0 ((hcond1_0 t).mp h)) (fun h => h1 ((hcond1_1 t).mp h)) ((dat1 V c).before 3 t d3) (scr1 V c (t.val - 1) (Nat.lt_of_le_of_lt (Nat.sub_le _ _) t.isLt)) _)
      iframe H0 H1 H2 H3 HS
      iintro ⟨H0, H1, H2, H3, HS⟩
      iframe HS HR Hg Ho H0 H1 H2
      iexists _; iexact H3

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KiBody2.lean ====
import proofs.«423821_j61503931678798_3_alg».proof.Proof.Gen.KernelIdeal.Launch
import proofs.«423821_j61503931678798_3_alg».proof.Proof.Gen.KernelIdeal.Skeleton
import proofs.«423821_j61503931678798_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

abbrev rA2 : Rect S512x512 := Rect.unit (s := S512x512) ![0, 0] S512x512.size inb_S512x512_S512x512_0_0

abbrev rS2 : Rect S512x256 := Rect.unit (s := S512x256) ![0, 0] S512x256.size inb_S512x256_S512x256_0_0

abbrev rB2 : Rect S256 := Rect.unit (s := S256) ![0] S256.size inb_S256_S256_0

abbrev rH2 (i : grid2.Coords) : Rect S10240x256 := Rect.unit (s := S10240x256) (k2_off1 i) S512x256.size (k2_off1_inb i)

abbrev scM2 : Memref sig .tc .vmem S512x256 .f32 := Memref.whole cc2_scratch0

abbrev acc2 (i : grid2.Coords) (xa : Vec F S512x512 .bf16) (xh : Vec F S10240x256 .bf16) (a : Vec F S512x256 .f32) :
    Vec F S512x256 .f32 :=
  k2_pay2 (View.ld xh (rH2 i)) a (View.ld xa rA2)

abbrev res2 (i : grid2.Coords) (s : Vec F S512x256 .f32) (xb : Vec F S256 .f32) : Vec F S512x256 .f32 :=
  k2_pay3 i s (View.ld xb rB2)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 20 = 0 :=
  (by decide +kernel : ∀ t : Fin grid2.N, cond2_0 (grid2.coords t) ↔ t.val % 20 = 0)

abbrev cond2_1 (i : grid2.Coords) : Prop := k2_cond2 i = 1#1

theorem hcond2_1 : ∀ t : Fin cfg2.N, cond2_1 (grid2.coords t) ↔ t.val % 20 = 19 :=
  (by decide +kernel : ∀ t : Fin grid2.N, cond2_1 (grid2.coords t) ↔ t.val % 20 = 19)

theorem hz2_2 : (![0, 0] : Fin 2 → Nat) = fun _ => 0 := funext fun a => by fin_cases a <;> rfl
theorem hz2_1 : (![0] : Fin 1 → Nat) = fun _ => 0 := funext fun a => by fin_cases a <;> rfl

variable (c : Dev nD) (E : Set ℕ) (i : grid2.Coords)
    (arg2 : Memref sig .tc .vmem S512x512 .bf16) (harg2 : arg2.IsWhole) (arg3 : Memref sig .tc .vmem S10240x256 .bf16) (harg3 : arg3.IsWhole)
    (arg4 : Memref sig .tc .vmem S256 .f32) (harg4 : arg4.IsWhole) (arg5 : Memref sig .tc .vmem S512x256 .f32) (harg5 : arg5.IsWhole)
    (arg6 : Memref sig .tc .vmem S512x256 .f32) (harg6 : arg6.IsWhole)
    (xa : Vec F S512x512 .bf16) (xh : Vec F S10240x256 .bf16) (xb : Vec F S256 .f32)

set_option maxHeartbeats 4000000 in
theorem sound_kernel2_A (hc0 : cond2_0 i) (hc1 : ¬cond2_1 i) (xo : Vec F S512x256 .f32) (K : PUnit → sProp 𝕄) :
    iprop(owns (c : Thread nD τ) arg2 fullShare xa ∗ owns (c : Thread nD τ) arg3 fullShare xh ∗ owns (c : Thread nD τ) arg4 fullShare xb
        ∗ owns (c : Thread nD τ) arg5 fullShare xo ∗ (∃ d, owns (c : Thread nD τ) arg6 fullShare d)
        ∗ (iprop(owns (c : Thread nD τ) arg2 fullShare xa ∗ owns (c : Thread nD τ) arg3 fullShare xh ∗ owns (c : Thread nD τ) arg4 fullShare xb
            ∗ owns (c : Thread nD τ) arg5 fullShare xo ∗ owns (c : Thread nD τ) arg6 fullShare (acc2 i xa xh k2_pay1)) -∗ K ⟨⟩))
      ⊢ wp frame (wpE (defs₀ (F := F)) Variants.none c none) E (cc2__agg_kernel i arg2 harg2 arg3 harg3 arg4 harg4 arg5 harg5 arg6 harg6) K := by
  simp only [cc2__agg_kernel_eq_skeleton]; unfold cc2__agg_kernel_skel
  unfold owns
  iintro ⟨⟨%f2, %hf2, H2⟩, ⟨%f3, %hf3, H3⟩, ⟨%f4, %hf4, H4⟩, ⟨%f5, %hf5, H5⟩, ⟨%d6, %f6, -, H6⟩, Hk⟩
  subst hf2; subst hf3; subst hf4; subst hf5
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try sl_unfold_run_names
  rw [View.read_writes_eq_canon _ _ _ (fun y => ⟨_, List.mem_cons_self .., View.mem_set_unit_zero hz2_2 inb_S512x256_S512x256_0_0 y⟩), View.canon_cons_unit_zero hz2_2,
    View.readCov_unit_zero (S := S512x256) _ hz2_2]
  rfl

set_option maxHeartbeats 4000000 in
theorem sound_kernel2_B (hc0 : ¬cond2_0 i) (hc1 : ¬cond2_1 i) (xo a : Vec F S512x256 .f32) (K : PUnit → sProp 𝕄) :
    iprop(owns (c : Thread nD τ) arg2 fullShare xa ∗ owns (c : Thread nD τ) arg3 fullShare xh ∗ owns (c : Thread nD τ) arg4 fullShare xb
        ∗ owns (c : Thread nD τ) arg5 fullShare xo ∗ owns (c : Thread nD τ) arg6 fullShare a
        ∗ (iprop(owns (c : Thread nD τ) arg2 fullShare xa ∗ owns (c : Thread nD τ) arg3 fullShare xh ∗ owns (c : Thread nD τ) arg4 fullShare xb
            ∗ owns (c : Thread nD τ) arg5 fullShare xo ∗ owns (c : Thread nD τ) arg6 fullShare (acc2 i xa xh a)) -∗ K ⟨⟩))
      ⊢ wp frame (wpE (defs₀ (F := F)) Variants.none c none) E (cc2__agg_kernel i arg2 harg2 arg3 harg3 arg4 harg4 arg5 harg5 arg6 harg6) K := by
  simp only [cc2__agg_kernel_eq_skeleton]; unfold cc2__agg_kernel_skel
  unfold owns
  iintro ⟨⟨%f2, %hf2, H2⟩, ⟨%f3, %hf3, H3⟩, ⟨%f4, %hf4, H4⟩, ⟨%f5, %hf5, H5⟩, ⟨%f6, %hf6, H6⟩, Hk⟩
  subst hf2; subst hf3; subst hf4; subst hf5; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try sl_unfold_run_names
  rw [View.read_writes_eq_canon _ _ _ (fun y => ⟨_, List.mem_cons_self .., View.mem_set_unit_zero hz2_2 inb_S512x256_S512x256_0_0 y⟩), View.canon_cons_unit_zero hz2_2,
    View.readAt_eq_ld arg6.view, View.ld_unit_zero (S := S512x256) hz2_2]
  rfl

set_option maxHeartbeats 4000000 in
theorem sound_kernel2_C (hc0 : ¬cond2_0 i) (hc1 : cond2_1 i) (a : Vec F S512x256 .f32) (K : PUnit → sProp 𝕄) :
    iprop(owns (c : Thread nD τ) arg2 fullShare xa ∗ owns (c : Thread nD τ) arg3 fullShare xh ∗ owns (c : Thread nD τ) arg4 fullShare xb
        ∗ (∃ d, owns (c : Thread nD τ) arg5 fullShare d) ∗ owns (c : Thread nD τ) arg6 fullShare a
        ∗ (iprop(owns (c : Thread nD τ) arg2 fullShare xa ∗ owns (c : Thread nD τ) arg3 fullShare xh ∗ owns (c : Thread nD τ) arg4 fullShare xb
            ∗ owns (c : Thread nD τ) arg5 fullShare (res2 i (acc2 i xa xh a) xb) ∗ owns (c : Thread nD τ) arg6 fullShare (acc2 i xa xh a)) -∗ K ⟨⟩))
      ⊢ wp frame (wpE (defs₀ (F := F)) Variants.none c none) E (cc2__agg_kernel i arg2 harg2 arg3 harg3 arg4 harg4 arg5 harg5 arg6 harg6) K := by
  simp only [cc2__agg_kernel_eq_skeleton]; unfold cc2__agg_kernel_skel
  unfold owns
  iintro ⟨⟨%f2, %hf2, H2⟩, ⟨%f3, %hf3, H3⟩, ⟨%f4, %hf4, H4⟩, ⟨%d5, %f5, -, H5⟩, ⟨%f6, %hf6, H6⟩, Hk⟩
  subst hf2; subst hf3; subst hf4; subst hf6
  sl_exec (disch := first | exact hc0 | exact hc1)
  sl_step
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    try sl_unfold_run_names
    rw [View.read_writes_eq_canon _ _ _ (fun y => ⟨_, List.mem_cons_self .., View.mem_set_unit_zero hz2_2 inb_S512x256_S512x256_0_0 y⟩), View.canon_cons_unit_zero hz2_2,
      View.readCov_unit_zero (S := S512x256) _ hz2_2, View.readAt_eq_ld arg6.view, View.ld_unit_zero (S := S512x256) hz2_2]
    rfl
  iexists _; isplitr
  swap; · iexact H6
  ipureintro
  try sl_unfold_run_names
  rw [View.read_writes_eq_canon _ _ _ (fun y => ⟨_, List.mem_cons_self .., View.mem_set_unit_zero hz2_2 inb_S512x256_S512x256_0_0 y⟩), View.canon_cons_unit_zero hz2_2,
    View.readAt_eq_ld arg6.view, View.ld_unit_zero (S := S512x256) hz2_2]
  rfl

end Cert.KernelIdeal.Hand

end
-- ==== Proof.KiDat2.lean ====
import proofs.«423821_j61503931678798_3_alg».proof.Proof.KiBody2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ablk2 (c : Dev nD) (t : Fin cfg2.N) : Vec F S512x512 .bf16 := iblk2 V c 0 t
abbrev hblk2 (c : Dev nD) (t : Fin cfg2.N) : Vec F S10240x256 .bf16 := iblk2 V c 1 t
abbrev bblk2 (c : Dev nD) (t : Fin cfg2.N) : Vec F S256 .f32 := iblk2 V c 2 t

def scr2 (c : Dev nD) : (n : ℕ) → n < cfg2.N → Vec F S512x256 .f32
  | 0, hn => k2_pay2 (View.ld (hblk2 V c ⟨0, hn⟩) (rH2 (grid2.coords ⟨0, hn⟩))) k2_pay1 (View.ld (ablk2 V c ⟨0, hn⟩) rA2)
  | n + 1, hn =>
    if (n + 1) % 20 = 0 then
      k2_pay2 (View.ld (hblk2 V c ⟨n + 1, hn⟩) (rH2 (grid2.coords ⟨n + 1, hn⟩))) k2_pay1 (View.ld (ablk2 V c ⟨n + 1, hn⟩) rA2)
    else
      k2_pay2 (View.ld (hblk2 V c ⟨n + 1, hn⟩) (rH2 (grid2.coords ⟨n + 1, hn⟩))) (scr2 c n (Nat.lt_of_succ_lt hn)) (View.ld (ablk2 V c ⟨n + 1, hn⟩) rA2)

theorem scr2_first (c : Dev nD) (t : Fin cfg2.N) (h : t.val % 20 = 0) :
    scr2 V c t.val t.isLt = k2_pay2 (View.ld (hblk2 V c t) (rH2 (grid2.coords t))) k2_pay1 (View.ld (ablk2 V c t) rA2) := by
  obtain ⟨n, hn⟩ := t
  cases n with
  | zero => rfl
  | succ n => exact if_pos h

theorem scr2_next (c : Dev nD) (t : Fin cfg2.N) (h : ¬t.val % 20 = 0) :
    scr2 V c t.val t.isLt = k2_pay2 (View.ld (hblk2 V c t) (rH2 (grid2.coords t)))
      (scr2 V c (t.val - 1) (Nat.lt_of_le_of_lt (Nat.sub_le _ _) t.isLt)) (View.ld (ablk2 V c t) rA2) := by
  obtain ⟨n, hn⟩ := t
  cases n with
  | zero => exact absurd (Nat.zero_mod _) h
  | succ n => exact if_neg h

def Phi2 (c : Dev nD) : (n : ℕ) → n ≤ cfg2.N → sProp 𝕄
  | 0, _ => Pipeline.ΦA spec2 c
  | n + 1, hn => iprop((owns (c : Thread nD τ) scM2 fullShare (scr2 V c n hn)
      ∗ Pipeline.scopedRestBut (Ix := Unit) (Name := ℕ) (U := UR sig nD τ) (Lvl := ℕ) (Val := Elt F) spec2 c [cc2_scratch0])
      ∗ (∃ r, prngReg c r))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (grid2.coords t) (scr2 V c t.val t.isLt) (View.ld (bblk2 V c t) rB2)
  Φ t := Phi2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (grid2.coords t) (scr2 V c t.val t.isLt) (View.ld (bblk2 V c t) rB2) := by dsimp only [dat2]

theorem q_eq2 (c : Dev nD) (w : Fin cfg2.W) : (dat2 V c).q w = fullShare := rfl
theorem owed_eq2 (c : Dev nD) (t : Fin (cfg2.N + 1)) : (dat2 V c).owed t = 0 := rfl

theorem Phi2_first (c : Dev nD) : (dat2 V c).Φ 0 = Pipeline.ΦA spec2 c := rfl

theorem Phi2_castSucc (c : Dev nD) (t : Fin cfg2.N) :
    (dat2 V c).Φ t.castSucc = Phi2 V c t.val (Nat.le_of_lt t.isLt) := by
  dsimp only [dat2]; simp only [Fin.coe_castSucc]

theorem Phi2_zero (c : Dev nD) (n : ℕ) (h : n ≤ cfg2.N) (hz : n = 0) : Phi2 V c n h = Pipeline.ΦA spec2 c := by
  subst hz; rfl

theorem Phi2_succ (c : Dev nD) (n : ℕ) (hn : n < cfg2.N) :
    Phi2 V c (n + 1) hn = iprop((owns (c : Thread nD τ) scM2 fullShare (scr2 V c n hn)
      ∗ Pipeline.scopedRestBut (Ix := Unit) (Name := ℕ) (U := UR sig nD τ) (Lvl := ℕ) (Val := Elt F) spec2 c [cc2_scratch0])
      ∗ (∃ r, prngReg c r)) := rfl

theorem Phi2_pos (c : Dev nD) (n : ℕ) (h : n ≤ cfg2.N) (hz : n ≠ 0) :
    Phi2 V c n h = iprop((owns (c : Thread nD τ) scM2 fullShare (scr2 V c (n - 1) (by omega))
      ∗ Pipeline.scopedRestBut (Ix := Unit) (Name := ℕ) (U := UR sig nD τ) (Lvl := ℕ) (Val := Elt F) spec2 c [cc2_scratch0])
      ∗ (∃ r, prngReg c r)) := by
  cases n with
  | zero => exact absurd rfl hz
  | succ n => rfl

theorem PhiA2_eq (c : Dev nD) :
    (Pipeline.ΦA spec2 c : sProp 𝕄)
      = iprop(((∃ d, owns (c : Thread nD τ) scM2 fullShare d)
          ∗ Pipeline.scopedRestBut (Ix := Unit) (Name := ℕ) (U := UR sig nD τ) (Lvl := ℕ) (Val := Elt F) spec2 c [cc2_scratch0])
          ∗ (∃ r, prngReg c r)) := by
  unfold Pipeline.ΦA
  rw [Pipeline.scopedRest_split_of_list spec2 c [cc2_scratch0] (by decide) (by decide), bigSepL_singleton]
  simp only [scM2, owns_whole]; try rfl

theorem Phi2_last (c : Dev nD) : (dat2 V c).Φ (Fin.last cfg2.N) ⊢ Pipeline.ΦA spec2 c := by
  rw [show (dat2 V c).Φ (Fin.last cfg2.N) = Phi2 V c (Fin.last cfg2.N).val (Nat.le_of_lt_succ (Fin.last cfg2.N).isLt) from rfl,
    Phi2_pos V c _ _ (by rw [Fin.val_last]; have : cfg2.N = 400 := N_2; omega), PhiA2_eq]
  iintro ⟨⟨HS, HR⟩, Hg⟩
  isplitl [HS HR]
  · isplitl [HS]
    · iexists _; iexact HS
    iexact HR
  iexact Hg

theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl

theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel

theorem liveAt2_3 : ∀ t : Fin cfg2.N, cond2_1 (grid2.coords t) → cfg2.idle 3 (grid2.coords t) = false := by decide +kernel

theorem leaves2_0 (c : Dev nD) (t : Fin cfg2.N) :
    (dat2 V c).leavesExact 0 t = owns (c : Thread nD τ) (st2_0 t) fullShare (iblk2 V c 0 t) := by
  rw [show (dat2 V c).leavesExact 0 t = owns (c : Thread nD τ) (st2_0 t) fullShare ((dat2 V c).after 0 t) from by
    unfold Dat.leavesExact; rw [liveAt2_0 t], after2_0]
theorem leaves2_1 (c : Dev nD) (t : Fin cfg2.N) :
    (dat2 V c).leavesExact 1 t = owns (c : Thread nD τ) (st2_1 t) fullShare (iblk2 V c 1 t) := by
  rw [show (dat2 V c).leavesExact 1 t = owns (c : Thread nD τ) (st2_1 t) fullShare ((dat2 V c).after 1 t) from by
    unfold Dat.leavesExact; rw [liveAt2_1 t], after2_1]
theorem leaves2_2 (c : Dev nD) (t : Fin cfg2.N) :
    (dat2 V c).leavesExact 2 t = owns (c : Thread nD τ) (st2_2 t) fullShare (iblk2 V c 2 t) := by
  rw [show (dat2 V c).leavesExact 2 t = owns (c : Thread nD τ) (st2_2 t) fullShare ((dat2 V c).after 2 t) from by
    unfold Dat.leavesExact; rw [liveAt2_2 t], after2_2]

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = Phi2 V c (t.val + 1) t.isLt from rfl, Phi2_succ]
  rw [leaves2_0, leaves2_1, leaves2_2]
  have hN : t.val < 400 := lt_of_lt_of_eq t.isLt (show cfg2.N = 400 from N_2)
  by_cases h1 : t.val % 20 = 19
  · have h0 : ¬t.val % 20 = 0 := by omega
    have hz : t.val ≠ 0 := by omega
    rw [show (dat2 V c).leavesExact 3 t = owns (c : Thread nD τ) (st2_3 t) fullShare ((dat2 V c).after 3 t) from by
      unfold Dat.leavesExact; rw [liveAt2_3 t ((hcond2_1 t).mpr h1)], after2_3]
    rw [scr2_next V c t h0]
    rw [Phi2_castSucc V c t, Phi2_pos V c _ _ hz]
    iintro ⟨⟨⟨HS, HR⟩, Hg⟩, Ho, ⟨%d0, H0⟩, ⟨%d1, H1⟩, ⟨%d2, H2⟩, ⟨%d3, H3⟩⟩
    iapply (sound_kernel2_C c Set.univ (grid2.coords t) _ _ _ _ _ _ _ _ _ _ (ablk2 V c t) (hblk2 V c t) (bblk2 V c t)
      (fun h => h0 ((hcond2_0 t).mp h)) ((hcond2_1 t).mpr h1) (scr2 V c (t.val - 1) (Nat.lt_of_le_of_lt (Nat.sub_le _ _) t.isLt)) _)
    iframe H0 H1 H2 HS
    isplitl [H3]; · iexists _; iexact H3
    iintro ⟨H0, H1, H2, H3, HS⟩
    iframe
  · rw [Dat.leavesExact_idle (dat2 V c) 3 t (idleAt2_3 t (fun h => h1 ((hcond2_1 t).mp h))) (noFlush2_3 t (fun h => h1 ((hcond2_1 t).mp h)))]
    by_cases h0 : t.val % 20 = 0
    · rw [scr2_first V c t h0]
      by_cases hz : t.val = 0
      · rw [Phi2_castSucc V c t, Phi2_zero V c _ _ hz, PhiA2_eq]
        iintro ⟨⟨⟨HS, HR⟩, Hg⟩, Ho, ⟨%d0, H0⟩, ⟨%d1, H1⟩, ⟨%d2, H2⟩, ⟨%d3, H3⟩⟩
        iapply (sound_kernel2_A c Set.univ (grid2.coords t) _ _ _ _ _ _ _ _ _ _ (ablk2 V c t) (hblk2 V c t) (bblk2 V c t)
          ((hcond2_0 t).mpr h0) (fun h => h1 ((hcond2_1 t).mp h)) ((dat2 V c).before 3 t d3) _)
        iframe H0 H1 H2 H3 HS
        iintro ⟨H0, H1, H2, H3, HS⟩
        iframe HS HR Hg Ho H0 H1 H2
        iexists _; iexact H3
      · rw [Phi2_castSucc V c t, Phi2_pos V c _ _ hz]
        iintro ⟨⟨⟨HS, HR⟩, Hg⟩, Ho, ⟨%d0, H0⟩, ⟨%d1, H1⟩, ⟨%d2, H2⟩, ⟨%d3, H3⟩⟩
        iapply (sound_kernel2_A c Set.univ (grid2.coords t) _ _ _ _ _ _ _ _ _ _ (ablk2 V c t) (hblk2 V c t) (bblk2 V c t)
          ((hcond2_0 t).mpr h0) (fun h => h1 ((hcond2_1 t).mp h)) ((dat2 V c).before 3 t d3) _)
        iframe H0 H1 H2 H3
        isplitl [HS]; · iexists _; iexact HS
        iintro ⟨H0, H1, H2, H3, HS⟩
        iframe HS HR Hg Ho H0 H1 H2
        iexists _; iexact H3
    · have hz : t.val ≠ 0 := fun e => h0 (by rw [e])
      rw [scr2_next V c t h0]
      rw [Phi2_castSucc V c t, Phi2_pos V c _ _ hz]
      iintro ⟨⟨⟨HS, HR⟩, Hg⟩, Ho, ⟨%d0, H0⟩, ⟨%d1, H1⟩, ⟨%d2, H2⟩, ⟨%d3, H3⟩⟩
      iapply (sound_kernel2_B c Set.univ (grid2.coords t) _ _ _ _ _ _ _ _ _ _ (ablk2 V c t) (hblk2 V c t) (bblk2 V c t)
        (fun h => h0 ((hcond2_0 t).mp h)) (fun h => h1 ((hcond2_1 t).mp h)) ((dat2 V c).before 3 t d3) (scr2 V c (t.val - 1) (Nat.lt_of_le_of_lt (Nat.sub_le _ _) t.isLt)) _)
      iframe H0 H1 H2 H3 HS
      iintro ⟨H0, H1, H2, H3, HS⟩
      iframe HS HR Hg Ho H0 H1 H2
      iexists _; iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
import proofs.«423821_j61503931678798_3_alg».proof.Proof.Gen.KernelIdeal.Launch
import proofs.«423821_j61503931678798_3_alg».proof.Proof.KiDat0
import proofs.«423821_j61503931678798_3_alg».proof.Proof.KiDat1
import proofs.«423821_j61503931678798_3_alg».proof.Proof.KiDat2
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev W2 : Dev nD → Valuation τ sig (Elt F) := fun c => StableHlo.after hostOps0_1 (W1 m ρ c)

abbrev W3 : Dev nD → Valuation τ sig (Elt F) := fun c => StableHlo.after hostOps0_2 (W2 m ρ c)

abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N

theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w

theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

abbrev V4 : (c : Dev nD) → (b : Ref sig .tc) → Buf (Elt F) ((c : Thread nD τ).loc b) := fun c b => W4 m ρ c b

theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)

abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N

theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w

theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

abbrev V6 : (c : Dev nD) → (b : Ref sig .tc) → Buf (Elt F) ((c : Thread nD τ).loc b) := fun c b => W6 m ρ c b

theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

abbrev W8 : Dev nD → Valuation τ sig (Elt F) := fun c => StableHlo.after hostOps2_1 (W7 m ρ c)

abbrev W9 : Dev nD → Valuation τ sig (Elt F) := fun c => StableHlo.after hostOps2_2 (W8 m ρ c)

abbrev W10 : Dev nD → Valuation τ sig (Elt F) := fun c => StableHlo.after hostOps2_3 (W9 m ρ c)

abbrev W11 : Dev nD → Valuation τ sig (Elt F) := fun c => StableHlo.after hostOps2_4 (W10 m ρ c)

abbrev V11 : (c : Dev nD) → (b : Ref sig .tc) → Buf (Elt F) ((c : Thread nD τ).loc b) := fun c b => W11 m ρ c b

def W12 (c : Dev nD) : Valuation τ sig (Elt F) :=
  Pipeline.withArrays spec2 c (W11 m ρ c) fun w => (dat2 (V11 m ρ) c).arrAt w cfg2.N

theorem W12_arr (c : Dev nD) (w : Fin cfg2.W) :
    W12 m ρ c (Proc.devRef .tc (Pipeline.arrRef spec2 w)) = (dat2 (V11 m ρ) c).arrAt w cfg2.N := by
  unfold W12; exact Pipeline.withArrays_arr spec2 launch2.win.arr_inj c _ _ w

theorem W12_of_ne (c : Dev nD) (b : Ref sig .tc) (hb : ∀ w, Pipeline.arrRef spec2 w ≠ b) :
    W12 m ρ c (Proc.devRef .tc b) = W11 m ρ c (Proc.devRef .tc b) := by
  unfold W12; exact Pipeline.withArrays_of_ne spec2 c _ _ b hb

abbrev V12 : (c : Dev nD) → (b : Ref sig .tc) → Buf (Elt F) ((c : Thread nD τ).loc b) := fun c b => W12 m ρ c b

theorem hF2 (c : Dev nD) (w : Fin cfg2.W) : (dat2 (V11 m ρ) c).arrAt w cfg2.N = V12 m ρ c (Pipeline.arrRef spec2 w) :=
  (W12_arr m ρ c w).symm
theorem hrest2 (c : Dev nD) : ∀ b, b ∉ Finset.univ.image (Pipeline.arrRef spec2) → V12 m ρ c b = V11 m ρ c b :=
  fun b hb => W12_of_ne m ρ c b fun w e => hb (Finset.mem_image.mpr ⟨w, Finset.mem_univ _, e⟩)

abbrev W13 : Dev nD → Valuation τ sig (Elt F) := fun c => StableHlo.after hostOps3 (W12 m ρ c)

abbrev Wlast : Dev nD → Valuation τ sig (Elt F) := W13 m ρ

abbrev writes0 : List (Ref sig .tc) :=
  [main_v0, main_v1, main_v2, main_v3, main_v4, main_v5, main_v6, main_cst, main_v7, main_c, main_v8, main_v9, main_c_0, main_v10, main_v11, main_v12, main_v13, main_cst_1, main_v14, main_v15, main_cst_2, main_v16, main_v17, main_c_3, main_v18, main_v19, main_c_4, main_v20, main_v21, main_v22, main_v23, main_v24, main_c_5, main_v25, main_v26, main_c_6, main_v27, main_v28, main_v29, main_v30, main_v31, main_v32, main_cst_7, main_v33, main_c_8, main_v34, main_v35, main_c_9, main_v36, main_v37, main_v38, main_c_10, main_v39, main_v40, main_c_11, main_v41, main_v42, main_v43, main_v44, main_v45, main_v46, main_v47, main_v48, main_v49, main_c_12]
set_option maxHeartbeats 40000000 in
theorem hostOps0_keep (V : Valuation τ sig (Elt F)) (b : Ref sig .tc) (hb : b ∉ writes0) :
    StableHlo.after hostOps0 V (Proc.devRef .tc b) = V (Proc.devRef .tc b) :=
  StableHlo.after_of_writes_sub hostOps0 V (W := writes0) (by
    simp only [hostOps0, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes0_1 : List (Ref sig .tc) :=
  [main_call0_v0, main_v50]

theorem hostOps0_1_keep (V : Valuation τ sig (Elt F)) (b : Ref sig .tc) (hb : b ∉ writes0_1) :
    StableHlo.after hostOps0_1 V (Proc.devRef .tc b) = V (Proc.devRef .tc b) :=
  StableHlo.after_of_writes_sub hostOps0_1 V (W := writes0_1) (by
    simp only [hostOps0_1, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes0_2 : List (Ref sig .tc) :=
  [main_v51, main_v52, main_v53, main_v54, main_v55, main_v56, main_v57, main_v58]

theorem hostOps0_2_keep (V : Valuation τ sig (Elt F)) (b : Ref sig .tc) (hb : b ∉ writes0_2) :
    StableHlo.after hostOps0_2 V (Proc.devRef .tc b) = V (Proc.devRef .tc b) :=
  StableHlo.after_of_writes_sub hostOps0_2 V (W := writes0_2) (by
    simp only [hostOps0_2, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes1 : List (Ref sig .tc) :=
  [main_v60, main_v61, main_v62, main_v63, main_v64, main_v65, main_v66, main_v67, main_v68]

theorem hostOps1_keep (V : Valuation τ sig (Elt F)) (b : Ref sig .tc) (hb : b ∉ writes1) :
    StableHlo.after hostOps1 V (Proc.devRef .tc b) = V (Proc.devRef .tc b) :=
  StableHlo.after_of_writes_sub hostOps1 V (W := writes1) (by
    simp only [hostOps1, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes2 : List (Ref sig .tc) :=
  [main_v70, main_v71, main_v72, main_v73, main_c_13]

theorem hostOps2_keep (V : Valuation τ sig (Elt F)) (b : Ref sig .tc) (hb : b ∉ writes2) :
    StableHlo.after hostOps2 V (Proc.devRef .tc b) = V (Proc.devRef .tc b) :=
  StableHlo.after_of_writes_sub hostOps2 V (W := writes2) (by
    simp only [hostOps2, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes2_1 : List (Ref sig .tc) :=
  [main_call1_v0, main_v74]

theorem hostOps2_1_keep (V : Valuation τ sig (Elt F)) (b : Ref sig .tc) (hb : b ∉ writes2_1) :
    StableHlo.after hostOps2_1 V (Proc.devRef .tc b) = V (Proc.devRef .tc b) :=
  StableHlo.after_of_writes_sub hostOps2_1 V (W := writes2_1) (by
    simp only [hostOps2_1, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes2_2 : List (Ref sig .tc) :=
  [main_v75, main_v76, main_c_14]

theorem hostOps2_2_keep (V : Valuation τ sig (Elt F)) (b : Ref sig .tc) (hb : b ∉ writes2_2) :
    StableHlo.after hostOps2_2 V (Proc.devRef .tc b) = V (Proc.devRef .tc b) :=
  StableHlo.after_of_writes_sub hostOps2_2 V (W := writes2_2) (by
    simp only [hostOps2_2, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes2_3 : List (Ref sig .tc) :=
  [main_call2_v0, main_v77]

theorem hostOps2_3_keep (V : Valuation τ sig (Elt F)) (b : Ref sig .tc) (hb : b ∉ writes2_3) :
    StableHlo.after hostOps2_3 V (Proc.devRef .tc b) = V (Proc.devRef .tc b) :=
  StableHlo.after_of_writes_sub hostOps2_3 V (W := writes2_3) (by
    simp only [hostOps2_3, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes2_4 : List (Ref sig .tc) :=
  [main_v78, main_v79, main_v80]

theorem hostOps2_4_keep (V : Valuation τ sig (Elt F)) (b : Ref sig .tc) (hb : b ∉ writes2_4) :
    StableHlo.after hostOps2_4 V (Proc.devRef .tc b) = V (Proc.devRef .tc b) :=
  StableHlo.after_of_writes_sub hostOps2_4 V (W := writes2_4) (by
    simp only [hostOps2_4, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev writes3 : List (Ref sig .tc) :=
  [main_v82, main_v83, main_cst_15, main_v84, main_cst_16, main_v85, main_v86]

theorem hostOps3_keep (V : Valuation τ sig (Elt F)) (b : Ref sig .tc) (hb : b ∉ writes3) :
    StableHlo.after hostOps3 V (Proc.devRef .tc b) = V (Proc.devRef .tc b) :=
  StableHlo.after_of_writes_sub hostOps3 V (W := writes3) (by
    simp only [hostOps3, List.Forall, StableHlo.TRef.unary, StableHlo.TRef.binary, StableHlo.TRef.of, StableHlo.nullary_writes, StableHlo.unary_writes, StableHlo.binary_writes, StableHlo.ternary_writes, StableHlo.quaternary_writes, StableHlo.reshape_writes, StableHlo.binaryIndexed_writes, Finset.singleton_subset_iff, List.mem_toFinset]
    repeat' apply And.intro
    all_goals exact List.mem_map_of_mem (by decide)) hb

abbrev args : List (Ref sig .tc) :=
  [main_arg0, main_arg1, main_arg2, main_arg3, main_arg4, main_arg5, main_arg6, main_arg7]

-- No host operation writes an argument array and none is a region's operand: decided over the references.
theorem args_kept : ∀ b ∈ args, (b ∉ writes0 ∧ b ∉ writes0_1 ∧ b ∉ writes0_2 ∧ b ∉ writes1 ∧ b ∉ writes2 ∧ b ∉ writes2_1 ∧ b ∉ writes2_2
    ∧ b ∉ writes2_3 ∧ b ∉ writes2_4 ∧ b ∉ writes3)
    ∧ (∀ w, Pipeline.arrRef spec0 w ≠ b) ∧ (∀ w, Pipeline.arrRef spec1 w ≠ b) ∧ (∀ w, Pipeline.arrRef spec2 w ≠ b) := by decide

section Args

variable (c : Dev nD) (b : Ref sig .tc) (hb : b ∈ args)
include hb

theorem W2_arg : W2 m ρ c (Proc.devRef .tc b) = m ((c : Thread nD τ).loc b) :=
  (hostOps0_1_keep _ b (args_kept b hb).1.2.1).trans (hostOps0_keep _ b (args_kept b hb).1.1)
theorem W4_arg : W4 m ρ c (Proc.devRef .tc b) = m ((c : Thread nD τ).loc b) :=
  (W4_of_ne m ρ c b (args_kept b hb).2.1).trans ((hostOps0_2_keep _ b (args_kept b hb).1.2.2.1).trans (W2_arg m ρ c b hb))
theorem W6_arg : W6 m ρ c (Proc.devRef .tc b) = m ((c : Thread nD τ).loc b) :=
  (W6_of_ne m ρ c b (args_kept b hb).2.2.1).trans ((hostOps1_keep _ b (args_kept b hb).1.2.2.2.1).trans (W4_arg m ρ c b hb))
theorem W9_arg : W9 m ρ c (Proc.devRef .tc b) = m ((c : Thread nD τ).loc b) :=
  (hostOps2_2_keep _ b (args_kept b hb).1.2.2.2.2.2.2.1).trans ((hostOps2_1_keep _ b (args_kept b hb).1.2.2.2.2.2.1).trans
    ((hostOps2_keep _ b (args_kept b hb).1.2.2.2.2.1).trans (W6_arg m ρ c b hb)))
theorem Wlast_arg : Wlast m ρ c (Proc.devRef .tc b) = m ((c : Thread nD τ).loc b) :=
  (hostOps3_keep _ b (args_kept b hb).1.2.2.2.2.2.2.2.2.2).trans ((W12_of_ne m ρ c b (args_kept b hb).2.2.2).trans
    ((hostOps2_4_keep _ b (args_kept b hb).1.2.2.2.2.2.2.2.2.1).trans ((hostOps2_3_keep _ b (args_kept b hb).1.2.2.2.2.2.2.2.1).trans
      (W9_arg m ρ c b hb))))

end Args

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V11 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option maxHeartbeats 40000000 in
theorem hostOps0_fresh : (hostOps0 : List (HloOp τ sig (Elt F))).Forall fun op => op.fresh = ∅ := by
  simp only [List.Forall]; repeat' constructor

theorem hostOps0_1_fresh : (hostOps0_1 : List (HloOp τ sig (Elt F))).Forall fun op => op.fresh = ∅ := by
  simp only [List.Forall]; repeat' constructor

theorem hostOps0_2_fresh : (hostOps0_2 : List (HloOp τ sig (Elt F))).Forall fun op => op.fresh = ∅ := by
  simp only [List.Forall]; repeat' constructor

theorem hostOps1_fresh : (hostOps1 : List (HloOp τ sig (Elt F))).Forall fun op => op.fresh = ∅ := by
  simp only [List.Forall]; repeat' constructor

theorem hostOps2_fresh : (hostOps2 : List (HloOp τ sig (Elt F))).Forall fun op => op.fresh = ∅ := by
  simp only [List.Forall]; repeat' constructor

theorem hostOps2_1_fresh : (hostOps2_1 : List (HloOp τ sig (Elt F))).Forall fun op => op.fresh = ∅ := by
  simp only [List.Forall]; repeat' constructor

theorem hostOps2_2_fresh : (hostOps2_2 : List (HloOp τ sig (Elt F))).Forall fun op => op.fresh = ∅ := by
  simp only [List.Forall]; repeat' constructor

theorem hostOps2_3_fresh : (hostOps2_3 : List (HloOp τ sig (Elt F))).Forall fun op => op.fresh = ∅ := by
  simp only [List.Forall]; repeat' constructor

theorem hostOps2_4_fresh : (hostOps2_4 : List (HloOp τ sig (Elt F))).Forall fun op => op.fresh = ∅ := by
  simp only [List.Forall]; repeat' constructor

theorem hostOps3_fresh : (hostOps3 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (Wlast m ρ c) ∗ ∃ r, prngReg c r)

theorem last_step (c : Dev nD) :
    iprop(StableHlo.held (c : Thread nD τ) (Pipeline.ucRefs τ sig) (W13 m ρ c) ∗ R c)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

-- The three aggregation regions differ only in their proof data and boundary contents: one segment serves all.
set_option backward.isDefEq.respectTransparency.types false in
def regSeg (p : Fin 3) (hw : Pipeline.WinFacts (Pipeline.pin (pcfgs (F := F)) adm p).spec) (hbp : ∀ w, 0 < ((Pipeline.pin (pcfgs (F := F)) adm p).spec w).block.numel)
    (harr : ∀ w, ((Pipeline.pin (pcfgs (F := F)) adm p).spec w).arr.IsWhole) (hst : ∀ w s, (((Pipeline.pin (pcfgs (F := F)) adm p).spec w).stage s).IsWhole)
    (Win Wout : Dev nD → Valuation τ sig (Elt F))
    (hbody : ∀ c, BodyObligation (pdats m ρ p c) (defs₀ (F := F)) Variants.none () Set.univ)
    (howed : ∀ c t, (pdats m ρ p c).owed t = 0) (hrec : ∀ c t, (pdats m ρ p c).recorded t = Set.univ) (hq : ∀ c w, (pdats m ρ p c).q w = fullShare)
    (hA : ∀ c w, (pdats m ρ p c).A w = Win c (Proc.devRef .tc (Pipeline.arrRef (Pipeline.pin (pcfgs (F := F)) adm p).spec w)))
    (hΦ0 : ∀ c, (pdats m ρ p c).Φ 0 = Pipeline.ΦA (Pipeline.pin (pcfgs (F := F)) adm p).spec c)
    (hΦN : ∀ c, (pdats m ρ p c).Φ (Fin.last (Pipeline.pin (pcfgs (F := F)) adm p).N) ⊢ Pipeline.ΦA (Pipeline.pin (pcfgs (F := F)) adm p).spec c)
    (hF : ∀ c w, (pdats m ρ p c).arrAt w (Pipeline.pin (pcfgs (F := F)) adm p).N = Wout c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) → Wout c (Proc.devRef .tc b) = Win c (Proc.devRef .tc b)) :
    Pipeline.RegionSeg (pcfgs (F := F)) adm (pdats m ρ) () defs₀ 𝒱₀ L lv p where
  win := hw.to₀
  block_pos := hbp
  stage_whole := hst
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c b)
  hentry c := by
    rw [Pipeline.ownSems0_none]
    have hsplit := Pipeline.arrays_of_unscopedBufs (p := p) (pcfgs (F := F)) adm (pdats m ρ) hw harr c
      ((pdats m ρ p c).share_full (hq c)) (fun b => Win c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun _ _ => Or.inl (by rw [hrec c]; trivial)
      iexact HO
    isplitl [Hp]; · iexact Hp
    iexact Hrest
  hin c := by
    rw [hΦ0 c]; unfold Pipeline.ΦA
    iintro ⟨Hp, -, Hr⟩
    isplitl [Hr]; · iexact Hr
    iexact Hp
  hout c := by
    rw [Pipeline.ownSems0_none]
    refine BIBase.Entails.trans (hΦN c) ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      hw harr c (pdats m ρ) ((pdats m ρ p c).share_full (hq c))
      (fun b => Win c b) (fun b => Wout c b) ((pdats m ρ p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

set_option backward.isDefEq.respectTransparency.types false in
abbrev reg0 := regSeg m ρ 0 launch0.win launch0.block_pos launch0.arr_whole launch0.stage_whole (W3 m ρ) (W4 m ρ)
  (fun c => body_obligation0 (V3 m ρ) c) (fun c t => owed_eq0 (V3 m ρ) c t) (fun _ _ => rfl) (fun c w => q_eq0 (V3 m ρ) c w) (fun c w => A_eq0 (V3 m ρ) c w)
  (fun c => Phi0_first (V3 m ρ) c) (fun c => Phi0_last (V3 m ρ) c) (hF0 m ρ) (hrest0 m ρ)
set_option backward.isDefEq.respectTransparency.types false in
abbrev reg1 := regSeg m ρ 1 launch1.win launch1.block_pos launch1.arr_whole launch1.stage_whole (W5 m ρ) (W6 m ρ)
  (fun c => body_obligation1 (V5 m ρ) c) (fun c t => owed_eq1 (V5 m ρ) c t) (fun _ _ => rfl) (fun c w => q_eq1 (V5 m ρ) c w) (fun c w => A_eq1 (V5 m ρ) c w)
  (fun c => Phi1_first (V5 m ρ) c) (fun c => Phi1_last (V5 m ρ) c) (hF1 m ρ) (hrest1 m ρ)
set_option backward.isDefEq.respectTransparency.types false in
abbrev reg2 := regSeg m ρ 2 launch2.win launch2.block_pos launch2.arr_whole launch2.stage_whole (W11 m ρ) (W12 m ρ)
  (fun c => body_obligation2 (V11 m ρ) c) (fun c t => owed_eq2 (V11 m ρ) c t) (fun _ _ => rfl) (fun c w => q_eq2 (V11 m ρ) c w) (fun c w => A_eq2 (V11 m ρ) c w)
  (fun c => Phi2_first (V11 m ρ) c) (fun c => Phi2_last (V11 m ρ) c) (hF2 m ρ) (hrest2 m ρ)

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .host (hseg hostOps2_1 hostOps2_1_sub hostOps2_1_fresh (W7 m ρ)),
    .host (hseg hostOps2_2 hostOps2_2_sub hostOps2_2_fresh (W8 m ρ)),
    .host (hseg hostOps2_3 hostOps2_3_sub hostOps2_3_fresh (W9 m ρ)),
    .host (hseg hostOps2_4 hostOps2_4_sub hostOps2_4_fresh (W10 m ρ)),
    .region (reg2 m ρ),
    .host (hseg hostOps3 hostOps3_sub hostOps3_fresh (W12 m ρ)) ]

theorem main_run (c : Dev nD) : main (F := F) c = Pipeline.Seg.run (segs m ρ) := (main_chain c).trans (by chain_rfl)

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = Wlast m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_step m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wlast m ρ c b)
    (hfin := fun c s' => by
      iintro ⟨⟨Hh, -⟩, HSI⟩
      unfold StableHlo.held
      imodintro
      iapply (pointsTo_read_all (Pipeline.ucRefs τ sig) (fun b => (((c : Thread nD τ)).1, b)) (Wlast m ρ c) s')
      isplitl [Hh] <;> iassumption)
    (hQ := fun s h => h)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (Wlast_arg m ρ c main_arg0 (by decide)),
     (h c _ (mem_uc main_arg1 (by decide))).trans (Wlast_arg m ρ c main_arg1 (by decide)),
     (h c _ (mem_uc main_arg2 (by decide))).trans (Wlast_arg m ρ c main_arg2 (by decide)),
     (h c _ (mem_uc main_arg3 (by decide))).trans (Wlast_arg m ρ c main_arg3 (by decide)),
     (h c _ (mem_uc main_arg4 (by decide))).trans (Wlast_arg m ρ c main_arg4 (by decide)),
     (h c _ (mem_uc main_arg5 (by decide))).trans (Wlast_arg m ρ c main_arg5 (by decide)),
     (h c _ (mem_uc main_arg6 (by decide))).trans (Wlast_arg m ρ c main_arg6 (by decide)),
     (h c _ (mem_uc main_arg7 (by decide))).trans (Wlast_arg m ρ c main_arg7 (by decide))⟩) (run_all m ρ)

end Cert.KernelIdeal.Hand

end
-- ==== Proof.Spec.lean ====
import Idealize.ShloMosaic.PureOps.Ideal
import Mathlib.Algebra.BigOperators.Group.Finset.Basic
import Mathlib.Data.EReal.Operations

noncomputable section

namespace Cert.Gcn

open Idealize.ShloMosaic

abbrev zeroE : EReal := Ideal.ofBits .f32 0x00000000#32
abbrev oneE : EReal := Ideal.ofBits .f32 0x3F800000#32
abbrev mhalfE : EReal := Ideal.ofBits .f32 0xBF000000#32
abbrev tenKE : EReal := Ideal.ofBits .f32 0x461C4000#32

variable (s d : Fin 170000 → Fin 10000)

def deg (n : Fin 10000) : EReal := zeroE + ∑ e ∈ Finset.univ.filter (fun e => d e = n), oneE

def dinv (n : Fin 10000) : EReal := Ideal.pow (deg d n) mhalfE

def weight (e : Fin 170000) : EReal := dinv d (s e) * dinv d (d e)

def lin {fi fo : Nat} (h : Fin fi → EReal) (W : Fin fi → Fin fo → EReal) (o : Fin fo) : EReal := ∑ f, h f * W f o

def sparseLayer {fi fo : Nat} (h : Fin 16 → Fin 10000 → Fin fi → EReal) (W : Fin fi → Fin fo → EReal) (bias : Fin fo → EReal)
    (b : Fin 16) (n : Fin 10000) (o : Fin fo) : EReal :=
  max ((zeroE + ∑ e ∈ Finset.univ.filter (fun e => d e = n), lin (h b (s e)) W o * weight s d e) + bias o) zeroE

def adj (n m : Fin 10240) : EReal :=
  zeroE + ∑ e ∈ Finset.univ.filter (fun e => (d e).val = n.val ∧ (s e).val = m.val), weight s d e

def denseLayer {fi fo : Nat} (h : Fin 10240 → Fin 16 → Fin fi → EReal) (W : Fin fi → Fin fo → EReal) (bias : Fin fo → EReal)
    (n : Fin 10240) (b : Fin 16) (o : Fin fo) : EReal :=
  if n.val < 10000 then max ((∑ m : Fin 10240, adj s d n m * lin (h m b) W o) + bias o) zeroE else zeroE

def sparseNet (x : Fin 16 → Fin 10000 → Fin 10 → EReal)
    (W1 : Fin 10 → Fin 64 → EReal) (b1 : Fin 64 → EReal) (W2 : Fin 64 → Fin 64 → EReal) (b2 : Fin 64 → EReal)
    (W3 : Fin 64 → Fin 10 → EReal) (b3 : Fin 10 → EReal) (b : Fin 16) (o : Fin 10) : EReal :=
  Ideal.div (zeroE + ∑ n : Fin 10000,
    sparseLayer s d (sparseLayer s d (sparseLayer s d x W1 b1) W2 b2) W3 b3 b n o) tenKE

def padInput (x : Fin 16 → Fin 10000 → Fin 10 → EReal) (n : Fin 10240) (b : Fin 16) (f : Fin 10) : EReal :=
  if h : n.val < 10000 then x b ⟨n.val, h⟩ f else zeroE

def denseNet (x : Fin 16 → Fin 10000 → Fin 10 → EReal)
    (W1 : Fin 10 → Fin 64 → EReal) (b1 : Fin 64 → EReal) (W2 : Fin 64 → Fin 64 → EReal) (b2 : Fin 64 → EReal)
    (W3 : Fin 64 → Fin 10 → EReal) (b3 : Fin 10 → EReal) (b : Fin 16) (o : Fin 10) : EReal :=
  Ideal.div (zeroE + ∑ n : Fin 10240,
    denseLayer s d (denseLayer s d (denseLayer s d (padInput x) W1 b1) W2 b2) W3 b3 n b o) tenKE

theorem zeroE_eq : zeroE = 0 := by
  show Ideal.ofBits .f32 0x00000000#32 = 0
  simp [Ideal.ofBits, Ideal.ieee]

theorem oneE_eq : oneE = 1 := by
  show Ideal.ofBits .f32 0x3F800000#32 = 1
  simp [Ideal.ofBits, Ideal.ieee, -EReal.coe_mul]; norm_num

theorem mhalfE_eq : mhalfE = ((-(1 / 2) : ℝ) : EReal) := by
  show Ideal.ofBits .f32 0xBF000000#32 = ((-(1 / 2) : ℝ) : EReal)
  simp [Ideal.ofBits, Ideal.ieee, -EReal.coe_mul]; norm_num

theorem deg_eq (n : Fin 10000) :
    deg d n = (((Finset.univ.filter (fun e => d e = n)).card : ℝ) : EReal) := by
  unfold deg
  rw [zeroE_eq, oneE_eq, zero_add, Finset.sum_const, EReal.nsmul_eq_mul, mul_one]
  rfl

theorem dinv_nonneg (n : Fin 10000) : 0 ≤ dinv d n := by
  unfold dinv
  rw [deg_eq, mhalfE_eq, Ideal.pow_coe_coe]
  exact EReal.coe_nonneg.mpr (Real.rpow_nonneg (Nat.cast_nonneg _) _)

theorem weight_nonneg (e : Fin 170000) : 0 ≤ weight s d e :=
  mul_nonneg (dinv_nonneg d _) (dinv_nonneg d _)

theorem sum_mul_of_nonneg {ι : Type} (S : Finset ι) (a : ι → EReal) (ha : ∀ i ∈ S, 0 ≤ a i) (c : EReal) :
    (∑ i ∈ S, a i) * c = ∑ i ∈ S, a i * c := by
  classical
  induction S using Finset.induction_on with
  | empty => rw [Finset.sum_empty, Finset.sum_empty, zero_mul]
  | insert i S hi ih =>
    rw [Finset.sum_insert hi, Finset.sum_insert hi,
      EReal.right_distrib_of_nonneg (ha i (Finset.mem_insert_self i S))
        (Finset.sum_nonneg fun j hj => ha j (Finset.mem_insert_of_mem hj)),
      ih fun j hj => ha j (Finset.mem_insert_of_mem hj)]

theorem le_pad : 10000 ≤ 10240 := by norm_num

theorem adj_row_sum (n : Fin 10240) (L : Fin 10240 → EReal) :
    ∑ m : Fin 10240, adj s d n m * L m
      = ∑ e ∈ Finset.univ.filter (fun e => (d e).val = n.val),
          weight s d e * L (Fin.castLE le_pad (s e)) := by
  have h1 : ∀ m : Fin 10240, adj s d n m * L m
      = ∑ e ∈ (Finset.univ.filter (fun e => (d e).val = n.val)).filter
            (fun e => Fin.castLE le_pad (s e) = m),
          weight s d e * L (Fin.castLE le_pad (s e)) := by
    intro m
    unfold adj
    rw [zeroE_eq, zero_add, sum_mul_of_nonneg _ _ (fun e _ => weight_nonneg s d e), Finset.filter_filter]
    refine Finset.sum_congr ?_ ?_
    · ext e
      simp only [Finset.mem_filter, Finset.mem_univ, true_and, Fin.ext_iff, Fin.coe_castLE]
    · intro e he
      rw [(Finset.mem_filter.mp he).2.2]
  rw [Finset.sum_congr rfl (fun m _ => h1 m)]
  exact Finset.sum_fiberwise _ _ _

theorem denseLayer_eq {fi fo : Nat} (hd : Fin 10240 → Fin 16 → Fin fi → EReal)
    (hs : Fin 16 → Fin 10000 → Fin fi → EReal) (W : Fin fi → Fin fo → EReal) (bias : Fin fo → EReal)
    (hag : ∀ (m : Fin 10000) (b : Fin 16), hd (Fin.castLE le_pad m) b = hs b m)
    (n : Fin 10000) (b : Fin 16) (o : Fin fo) :
    denseLayer s d hd W bias (Fin.castLE le_pad n) b o = sparseLayer s d hs W bias b n o := by
  have key : ∑ e ∈ Finset.univ.filter (fun e => (d e).val = (Fin.castLE le_pad n).val),
        weight s d e * lin (hd (Fin.castLE le_pad (s e)) b) W o
      = ∑ e ∈ Finset.univ.filter (fun e => d e = n), lin (hs b (s e)) W o * weight s d e := by
    refine Finset.sum_congr ?_ ?_
    · ext e
      simp only [Finset.mem_filter, Finset.mem_univ, true_and, Fin.ext_iff, Fin.coe_castLE]
    · intro e _
      rw [hag (s e) b, mul_comm]
  unfold denseLayer sparseLayer
  rw [if_pos (show (Fin.castLE le_pad n).val < 10000 from n.isLt),
    adj_row_sum s d (Fin.castLE le_pad n) (fun m => lin (hd m b) W o), key, zeroE_eq, zero_add]

theorem denseLayer_pad {fi fo : Nat} (hd : Fin 10240 → Fin 16 → Fin fi → EReal)
    (W : Fin fi → Fin fo → EReal) (bias : Fin fo → EReal)
    (n : Fin 10240) (hn : 10000 ≤ n.val) (b : Fin 16) (o : Fin fo) :
    denseLayer s d hd W bias n b o = 0 := by
  unfold denseLayer
  rw [if_neg (by omega), zeroE_eq]

theorem padInput_eq (x : Fin 16 → Fin 10000 → Fin 10 → EReal) (m : Fin 10000) (b : Fin 16) :
    padInput x (Fin.castLE le_pad m) b = x b m := by
  funext f
  unfold padInput
  rw [dif_pos (show (Fin.castLE le_pad m).val < 10000 from m.isLt)]
  rfl

theorem sum_pad (D : Fin 10240 → EReal) (S : Fin 10000 → EReal)
    (h1 : ∀ n : Fin 10000, D (Fin.castLE le_pad n) = S n)
    (h2 : ∀ n : Fin 10240, 10000 ≤ n.val → D n = 0) :
    ∑ n : Fin 10240, D n = ∑ n : Fin 10000, S n := by
  have e1 : ∑ n : Fin 10000, S n = ∑ m ∈ Finset.univ.map (Fin.castLEEmb le_pad), D m := by
    rw [Finset.sum_map]
    exact Finset.sum_congr rfl (fun n _ => (h1 n).symm)
  rw [e1]
  symm
  refine Finset.sum_subset (Finset.subset_univ _) ?_
  intro m _ hm
  apply h2
  by_contra hlt
  apply hm
  rw [Finset.mem_map]
  exact ⟨⟨m.val, by omega⟩, Finset.mem_univ _, Fin.ext rfl⟩

theorem denseNet_eq_sparseNet (x : Fin 16 → Fin 10000 → Fin 10 → EReal)
    (W1 : Fin 10 → Fin 64 → EReal) (b1 : Fin 64 → EReal) (W2 : Fin 64 → Fin 64 → EReal) (b2 : Fin 64 → EReal)
    (W3 : Fin 64 → Fin 10 → EReal) (b3 : Fin 10 → EReal) :
    denseNet s d x W1 b1 W2 b2 W3 b3 = sparseNet s d x W1 b1 W2 b2 W3 b3 := by
  funext b o
  have a1 : ∀ (m : Fin 10000) (b : Fin 16),
      denseLayer s d (padInput x) W1 b1 (Fin.castLE le_pad m) b = sparseLayer s d x W1 b1 b m :=
    fun m b => funext fun o => denseLayer_eq s d _ _ W1 b1 (padInput_eq x) m b o
  have a2 : ∀ (m : Fin 10000) (b : Fin 16),
      denseLayer s d (denseLayer s d (padInput x) W1 b1) W2 b2 (Fin.castLE le_pad m) b
        = sparseLayer s d (sparseLayer s d x W1 b1) W2 b2 b m :=
    fun m b => funext fun o => denseLayer_eq s d _ _ W2 b2 a1 m b o
  unfold denseNet sparseNet
  rw [sum_pad _ _ (fun n => denseLayer_eq s d _ _ W3 b3 a2 n b o)
    (fun n hn => denseLayer_pad s d _ W3 b3 n hn b o)]

end Cert.Gcn

end
-- ==== Proof.LibPlainDot.lean ====
import Idealize.ShloMosaic.Lib.ValueIdx
import Idealize.ShloMosaic.PureOps.Ideal.Laws

noncomputable section

namespace Cert.PlainDot

open Idealize.ShloMosaic Idealize.ShloMosaic.ValueIdx

-- In a rows × contraction by contraction × columns product the operand indices at output (p, c) are (p, k) and (k, c).
theorem sum_apply {α : Type} [AddCommMonoid α] (M K N : ℕ)
    (f : (⟨2, ![M, K]⟩ : Shape).Idx → (⟨2, ![K, N]⟩ : Shape).Idx → α) (p : Fin M) (c : Fin N) :
    ∑ k : (DotDims.plain M K N).contr.Idx, f ((DotDims.plain M K N).lhsIdx (ix2 p c) k) ((DotDims.plain M K N).rhsIdx (ix2 p c) k)
      = ∑ k : Fin K, f (ix2 p k) (ix2 k c) := by
  rw [← Equiv.sum_comp (contrEquiv1 (DotDims.plain M K N) K rfl rfl).symm]
  refine Finset.sum_congr rfl fun k _ => ?_
  have hk := contrEquiv1_symm_val (DotDims.plain M K N) K rfl rfl k
  congr 1 <;> funext a <;> apply Fin.ext
  · match a with
    | ⟨0, _⟩ => rfl
    | ⟨1, _⟩ => exact hk
  · match a with
    | ⟨0, _⟩ => exact hk
    | ⟨1, _⟩ => rfl

variable {φ₁ φ₂ : FTy}

theorem dotGeneral_apply (M K N : ℕ) (l : FVec Ideal ⟨2, ![M, K]⟩ φ₁) (r : FVec Ideal ⟨2, ![K, N]⟩ φ₂) (p : Fin M) (c : Fin N) :
    Host.dotGeneral (F := Ideal) (DotDims.plain M K N) none l r (ix2 p c) = ∑ k : Fin K, l (ix2 p k) * r (ix2 k c) := by
  simp only [Host.dotGeneral]
  rw [Ideal.dotGeneral_apply]
  exact sum_apply M K N (fun x y => l x * r y) p c

theorem matmul_zero_apply (M K N : ℕ) (l : FVec Ideal ⟨2, ![M, K]⟩ φ₁) (r : FVec Ideal ⟨2, ![K, N]⟩ φ₂) (p : Fin M) (c : Fin N) :
    matmul (F := Ideal) (DotDims.plain M K N) none l r (constant ⟨2, ![M, N]⟩ .f32 0x00000000#32) (ix2 p c)
      = ∑ k : Fin K, l (ix2 p k) * r (ix2 k c) := by
  simp only [matmul]
  rw [Ideal.matmul_constant_zero_apply]
  exact sum_apply M K N (fun x y => l x * r y) p c

end Cert.PlainDot

end
-- ==== Proof.KiHostLin.lean ====
import proofs.«423821_j61503931678798_3_alg».proof.Proof.Gen.KernelIdeal.Launch
import proofs.«423821_j61503931678798_3_alg».proof.Proof.Spec
import proofs.«423821_j61503931678798_3_alg».proof.Proof.LibPlainDot
import Idealize.ShloMosaic.Lib.Pipeline.Value
import Idealize.ShloMosaic.Lib.ValueIdx
import Idealize.ShloMosaic.PureOps.Ideal.Laws
import Idealize.ShloMosaic.Lib.KernelVsHost

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Gcn

def nodeMajor (x : FVec Ideal S16x10000x10 .f32) : FVec Ideal S10000x16x10 .f32 :=
  transpose S10000x16x10 [1, 0, 2] x transposes_S16x10000x10_S10000x16x10_1_0_2

theorem hostOps0_v49 (W : Valuation τ sig (Elt Ideal)) :
    StableHlo.after (hostOps0 (F := Ideal)) W (Proc.devRef .tc main_v49) = nodeMajor (W (Proc.devRef .tc main_arg0)) := by
  show StableHlo.after hostOps0 W (Proc.devRef .tc main_v49) = _
  after_results
  rfl

theorem hostOps0_c12 (W : Valuation τ sig (Elt Ideal)) :
    StableHlo.after (hostOps0 (F := Ideal)) W (Proc.devRef .tc main_c_12) = (constantI S_ 32 0#32 : IVec S_ 32) := by
  show StableHlo.after hostOps0 W (Proc.devRef .tc main_c_12) = _
  after_results

theorem nodeMajor_apply (x : FVec Ideal S16x10000x10 .f32) (n : Fin 10000) (b : Fin 16) (f : Fin 10) :
    nodeMajor x (ix3 n b f) = x (ix3 b n f) := by
  unfold nodeMajor
  exact transpose_apply [1, 0, 2] x transposes_S16x10000x10_S10000x16x10_1_0_2 (ix3 n b f) (ix3 b n f) (fun a => match a with
    | ⟨0, _⟩ => rfl
    | ⟨1, _⟩ => rfl
    | ⟨2, _⟩ => rfl)

theorem sitofp_zero_ix0 : (sitofp (F := Ideal) .f32 (constantI S_ 32 0#32 : IVec S_ 32) : FVec Ideal S_ .f32) ix0 = zeroE := by
  show (Scalar.sitofp .f32 0#32 : Ideal .f32) = Ideal.ofBits .f32 0x00000000#32
  rw [sitofp_zero]
  simp [Ideal.ofBits, Ideal.ieee]

def padRows (x : FVec Ideal S10000x16x10 .f32) (v : FVec Ideal S_ .f32) : FVec Ideal S10240x16x10 .f32 :=
  pad S10240x16x10 ![0, 0, 0] ![240, 0, 0] ![0, 0, 0] x v pads_S10000x16x10_S10240x16x10_02400_000_000 h_S_

theorem hostOps0_1_v50 (W : Valuation τ sig (Elt Ideal)) :
    StableHlo.after (hostOps0_1 (F := Ideal)) W (Proc.devRef .tc main_v50)
      = padRows (W (Proc.devRef .tc main_v49)) (sitofp (F := Ideal) .f32 (W (Proc.devRef .tc main_c_12) : IVec S_ 32)) := by
  show StableHlo.after hostOps0_1 W (Proc.devRef .tc main_v50) = _
  after_results
  rfl

theorem padRows_apply (x : FVec Ideal S10000x16x10 .f32) (v : FVec Ideal S_ .f32) (n : Fin 10240) (b : Fin 16) (f : Fin 10) :
    padRows x v (ix3 n b f) = if h : n.val < 10000 then x (ix3 ⟨n.val, h⟩ b f) else v ix0 := by
  unfold padRows
  by_cases h : n.val < 10000
  · rw [dif_pos h]
    exact pad_apply_of_inside ![0, 0, 0] ![240, 0, 0] ![0, 0, 0] x v pads_S10000x16x10_S10240x16x10_02400_000_000 h_S_ (ix3 n b f) (ix3 ⟨n.val, h⟩ b f) (fun a => match a with
      | ⟨0, _⟩ => by show n.val = 0 + n.val * (0 + 1); omega
      | ⟨1, _⟩ => by show b.val = 0 + b.val * (0 + 1); omega
      | ⟨2, _⟩ => by show f.val = 0 + f.val * (0 + 1); omega)
  · rw [dif_neg h]
    refine (pad_apply_of_not_inside ![0, 0, 0] ![240, 0, 0] ![0, 0, 0] x v pads_S10000x16x10_S10240x16x10_02400_000_000 h_S_ (ix3 n b f) 0 (fun hc => h ?_)).trans (congrArg v (eq_ix0 _))
    have h3 : (n.val - 0) / (0 + 1) < 10000 := hc.2.2
    omega

def lin1 (h : FVec Ideal S10240x16x10 .f32) (w : FVec Ideal S10x64 .f32) : FVec Ideal S10240x1024 .bf16 :=
  truncf (F := Ideal) .bf16
    (shapeCast S10240x1024
      (shapeCast S10240x16x64
        (Host.dotGeneral (F := Ideal) dot_S163840x10_S10x64_S163840x64_1_0_0_1_n_n none (shapeCast S163840x10 h shapeCasts_S10240x16x10_S163840x10) w)
        shapeCasts_S163840x64_S10240x16x64)
      shapeCasts_S10240x16x64_S10240x1024)
    bitsLt_bf16_f32

def tile64 (v : FVec Ideal S64 .f32) : FVec Ideal S1024 .f32 :=
  shapeCast S1024 (broadcastInDim S16x64 ![0, 1] bcast_S1x64_S16x64_0_1 (shapeCast S1x64 v shapeCasts_S64_S1x64)) shapeCasts_S16x64_S1024

theorem hostOps0_2_v55 (W : Valuation τ sig (Elt Ideal)) :
    StableHlo.after (hostOps0_2 (F := Ideal)) W (Proc.devRef .tc main_v55)
      = lin1 (W (Proc.devRef .tc main_v50)) (W (Proc.devRef .tc main_arg2)) := by
  show StableHlo.after hostOps0_2 W (Proc.devRef .tc main_v55) = _
  after_results
  rfl

theorem hostOps0_2_v58 (W : Valuation τ sig (Elt Ideal)) :
    StableHlo.after (hostOps0_2 (F := Ideal)) W (Proc.devRef .tc main_v58) = tile64 (W (Proc.devRef .tc main_arg3)) := by
  show StableHlo.after hostOps0_2 W (Proc.devRef .tc main_v58) = _
  after_results
  rfl

theorem lin1_apply (h : FVec Ideal S10240x16x10 .f32) (w : FVec Ideal S10x64 .f32) (n : Fin 10240) (b : Fin 16) (o : Fin 64) :
    lin1 h w (ix2 n ⟨64 * b.val + o.val, by omega⟩) = Cert.Gcn.lin (fun f => h (ix3 n b f)) (fun f o => w (ix2 f o)) o := by
  unfold lin1 Cert.Gcn.lin
  refine (truncf_apply (ψ := .bf16) _ bitsLt_bf16_f32 _).trans ?_
  refine (shapeCast_apply _ shapeCasts_S10240x16x64_S10240x1024 _ (ix3 n b o)
    (by rewrite [Shape.rowMajor_val_three, Shape.rowMajor_val_two]; show (n.val * 16 + b.val) * 64 + o.val = n.val * 1024 + (64 * b.val + o.val); omega)).trans ?_
  refine (shapeCast_apply _ shapeCasts_S163840x64_S10240x16x64 _ (ix2 ⟨16 * n.val + b.val, by omega⟩ o)
    (by rewrite [Shape.rowMajor_val_two, Shape.rowMajor_val_three]; show (16 * n.val + b.val) * 64 + o.val = (n.val * 16 + b.val) * 64 + o.val; omega)).trans ?_
  refine (Cert.PlainDot.dotGeneral_apply 163840 10 64 _ _ _ _).trans ?_
  refine Finset.sum_congr rfl fun k _ => ?_
  refine congrArg (· * _) ?_
  exact shapeCast_apply h shapeCasts_S10240x16x10_S163840x10 _ (ix3 n b k)
    (by rewrite [Shape.rowMajor_val_three, Shape.rowMajor_val_two]; show (n.val * 16 + b.val) * 10 + k.val = (16 * n.val + b.val) * 10 + k.val; omega)

theorem tile64_apply (v : FVec Ideal S64 .f32) (b : Fin 16) (o : Fin 64) :
    tile64 v (ix1 ⟨64 * b.val + o.val, by omega⟩) = v (ix1 o) := by
  unfold tile64
  refine (shapeCast_apply _ shapeCasts_S16x64_S1024 _ (ix2 b o)
    (by rewrite [Shape.rowMajor_val_two, Shape.rowMajor_val_one]; show b.val * 64 + o.val = 64 * b.val + o.val; omega)).trans ?_
  refine (broadcastInDim_apply _ bcast_S1x64_S16x64_0_1 _ _ (ix2 (0 : Fin 1) o) (fun a => match a with
    | ⟨0, _⟩ => rfl
    | ⟨1, _⟩ => rfl)).trans ?_
  exact shapeCast_apply v shapeCasts_S64_S1x64 _ (ix1 o)
    (by rewrite [Shape.rowMajor_val_one, Shape.rowMajor_val_two]; show o.val = 0 * 64 + o.val; omega)

def rows64 (y : FVec Ideal S10240x1024 .f32) : FVec Ideal S163840x64 .f32 :=
  shapeCast S163840x64 (shapeCast S10240x16x64 y shapeCasts_S10240x1024_S10240x16x64) shapeCasts_S10240x16x64_S163840x64

theorem rows64_apply (y : FVec Ideal S10240x1024 .f32) (n : Fin 10240) (b : Fin 16) (f : Fin 64) :
    rows64 y (ix2 ⟨16 * n.val + b.val, by omega⟩ f) = y (ix2 n ⟨64 * b.val + f.val, by omega⟩) := by
  unfold rows64
  refine (shapeCast_apply _ shapeCasts_S10240x16x64_S163840x64 _ (ix3 n b f)
    (by rewrite [Shape.rowMajor_val_three, Shape.rowMajor_val_two]; show (n.val * 16 + b.val) * 64 + f.val = (16 * n.val + b.val) * 64 + f.val; omega)).trans ?_
  exact shapeCast_apply y shapeCasts_S10240x1024_S10240x16x64 _ (ix2 n ⟨64 * b.val + f.val, by omega⟩)
    (by rewrite [Shape.rowMajor_val_two, Shape.rowMajor_val_three]; show n.val * 1024 + (64 * b.val + f.val) = (n.val * 16 + b.val) * 64 + f.val; omega)

def lin2 (y : FVec Ideal S10240x1024 .f32) (w : FVec Ideal S64x64 .f32) : FVec Ideal S10240x1024 .bf16 :=
  truncf (F := Ideal) .bf16
    (shapeCast S10240x1024
      (shapeCast S10240x16x64
        (Host.dotGeneral (F := Ideal) dot_S163840x64_S64x64_S163840x64_1_0_0_1_n_n none (rows64 y) w)
        shapeCasts_S163840x64_S10240x16x64)
      shapeCasts_S10240x16x64_S10240x1024)
    bitsLt_bf16_f32

theorem hostOps1_v65 (W : Valuation τ sig (Elt Ideal)) :
    StableHlo.after (hostOps1 (F := Ideal)) W (Proc.devRef .tc main_v65)
      = lin2 (W (Proc.devRef .tc main_v59)) (W (Proc.devRef .tc main_arg4)) := by
  show StableHlo.after hostOps1 W (Proc.devRef .tc main_v65) = _
  after_results
  rfl

theorem hostOps1_v68 (W : Valuation τ sig (Elt Ideal)) :
    StableHlo.after (hostOps1 (F := Ideal)) W (Proc.devRef .tc main_v68) = tile64 (W (Proc.devRef .tc main_arg5)) := by
  show StableHlo.after hostOps1 W (Proc.devRef .tc main_v68) = _
  after_results
  rfl

theorem lin2_apply (y : FVec Ideal S10240x1024 .f32) (w : FVec Ideal S64x64 .f32) (n : Fin 10240) (b : Fin 16) (o : Fin 64) :
    lin2 y w (ix2 n ⟨64 * b.val + o.val, by omega⟩)
      = Cert.Gcn.lin (fun f : Fin 64 => y (ix2 n ⟨64 * b.val + f.val, by omega⟩)) (fun f o => w (ix2 f o)) o := by
  unfold lin2 Cert.Gcn.lin
  refine (truncf_apply (ψ := .bf16) _ bitsLt_bf16_f32 _).trans ?_
  refine (shapeCast_apply _ shapeCasts_S10240x16x64_S10240x1024 _ (ix3 n b o)
    (by rewrite [Shape.rowMajor_val_three, Shape.rowMajor_val_two]; show (n.val * 16 + b.val) * 64 + o.val = n.val * 1024 + (64 * b.val + o.val); omega)).trans ?_
  refine (shapeCast_apply _ shapeCasts_S163840x64_S10240x16x64 _ (ix2 ⟨16 * n.val + b.val, by omega⟩ o)
    (by rewrite [Shape.rowMajor_val_two, Shape.rowMajor_val_three]; show (16 * n.val + b.val) * 64 + o.val = (n.val * 16 + b.val) * 64 + o.val; omega)).trans ?_
  refine (Cert.PlainDot.dotGeneral_apply 163840 64 64 _ _ _ _).trans ?_
  refine Finset.sum_congr rfl fun k _ => ?_
  exact congrArg (· * _) (rows64_apply y n b k)

def lin3 (y : FVec Ideal S10240x1024 .f32) (w : FVec Ideal S64x10 .f32) : FVec Ideal S10240x16x10 .f32 :=
  shapeCast S10240x16x10
    (Host.dotGeneral (F := Ideal) dot_S163840x64_S64x10_S163840x10_1_0_0_1_n_n none (rows64 y) w)
    shapeCasts_S163840x10_S10240x16x10

def padFeat (x : FVec Ideal S10240x16x10 .f32) (v : FVec Ideal S_ .f32) : FVec Ideal S10240x16x16 .f32 :=
  pad S10240x16x16 ![0, 0, 0] ![0, 0, 6] ![0, 0, 0] x v pads_S10240x16x10_S10240x16x16_000_000_060 h_S_

def flat16 (x : FVec Ideal S10240x16x16 .f32) : FVec Ideal S10240x256 .bf16 :=
  truncf (F := Ideal) .bf16 (shapeCast S10240x256 x shapeCasts_S10240x16x16_S10240x256) bitsLt_bf16_f32

def padBias (x : FVec Ideal S10 .f32) (v : FVec Ideal S_ .f32) : FVec Ideal S16 .f32 :=
  pad S16 ![0] ![6] ![0] x v pads_S10_S16_060 h_S_

def tile16 (v : FVec Ideal S16 .f32) : FVec Ideal S256 .f32 :=
  shapeCast S256 (broadcastInDim S16x16 ![0, 1] bcast_S1x16_S16x16_0_1 (shapeCast S1x16 v shapeCasts_S16_S1x16)) shapeCasts_S16x16_S256

theorem hostOps2_v73 (W : Valuation τ sig (Elt Ideal)) :
    StableHlo.after (hostOps2 (F := Ideal)) W (Proc.devRef .tc main_v73)
      = lin3 (W (Proc.devRef .tc main_v69)) (W (Proc.devRef .tc main_arg6)) := by
  show StableHlo.after hostOps2 W (Proc.devRef .tc main_v73) = _
  after_results
  rfl

theorem hostOps2_c13 (W : Valuation τ sig (Elt Ideal)) :
    StableHlo.after (hostOps2 (F := Ideal)) W (Proc.devRef .tc main_c_13) = (constantI S_ 32 0#32 : IVec S_ 32) := by
  show StableHlo.after hostOps2 W (Proc.devRef .tc main_c_13) = _
  after_results

theorem hostOps2_1_v74 (W : Valuation τ sig (Elt Ideal)) :
    StableHlo.after (hostOps2_1 (F := Ideal)) W (Proc.devRef .tc main_v74)
      = padFeat (W (Proc.devRef .tc main_v73)) (sitofp (F := Ideal) .f32 (W (Proc.devRef .tc main_c_13) : IVec S_ 32)) := by
  show StableHlo.after hostOps2_1 W (Proc.devRef .tc main_v74) = _
  after_results
  rfl

theorem hostOps2_2_v76 (W : Valuation τ sig (Elt Ideal)) :
    StableHlo.after (hostOps2_2 (F := Ideal)) W (Proc.devRef .tc main_v76) = flat16 (W (Proc.devRef .tc main_v74)) := by
  show StableHlo.after hostOps2_2 W (Proc.devRef .tc main_v76) = _
  after_results
  rfl

theorem hostOps2_2_c14 (W : Valuation τ sig (Elt Ideal)) :
    StableHlo.after (hostOps2_2 (F := Ideal)) W (Proc.devRef .tc main_c_14) = (constantI S_ 32 0#32 : IVec S_ 32) := by
  show StableHlo.after hostOps2_2 W (Proc.devRef .tc main_c_14) = _
  after_results

theorem hostOps2_3_v77 (W : Valuation τ sig (Elt Ideal)) :
    StableHlo.after (hostOps2_3 (F := Ideal)) W (Proc.devRef .tc main_v77)
      = padBias (W (Proc.devRef .tc main_arg7)) (sitofp (F := Ideal) .f32 (W (Proc.devRef .tc main_c_14) : IVec S_ 32)) := by
  show StableHlo.after hostOps2_3 W (Proc.devRef .tc main_v77) = _
  after_results
  rfl

theorem hostOps2_4_v80 (W : Valuation τ sig (Elt Ideal)) :
    StableHlo.after (hostOps2_4 (F := Ideal)) W (Proc.devRef .tc main_v80) = tile16 (W (Proc.devRef .tc main_v77)) := by
  show StableHlo.after hostOps2_4 W (Proc.devRef .tc main_v80) = _
  after_results
  rfl

theorem lin3_apply (y : FVec Ideal S10240x1024 .f32) (w : FVec Ideal S64x10 .f32) (n : Fin 10240) (b : Fin 16) (o : Fin 10) :
    lin3 y w (ix3 n b o)
      = Cert.Gcn.lin (fun f : Fin 64 => y (ix2 n ⟨64 * b.val + f.val, by omega⟩)) (fun f o => w (ix2 f o)) o := by
  unfold lin3 Cert.Gcn.lin
  refine (shapeCast_apply _ shapeCasts_S163840x10_S10240x16x10 _ (ix2 ⟨16 * n.val + b.val, by omega⟩ o)
    (by rewrite [Shape.rowMajor_val_two, Shape.rowMajor_val_three]; show (16 * n.val + b.val) * 10 + o.val = (n.val * 16 + b.val) * 10 + o.val; omega)).trans ?_
  refine (Cert.PlainDot.dotGeneral_apply 163840 64 10 _ _ _ _).trans ?_
  refine Finset.sum_congr rfl fun k _ => ?_
  exact congrArg (· * _) (rows64_apply y n b k)

theorem padFeat_apply (x : FVec Ideal S10240x16x10 .f32) (v : FVec Ideal S_ .f32) (n : Fin 10240) (b : Fin 16) (o : Fin 16) :
    padFeat x v (ix3 n b o) = if h : o.val < 10 then x (ix3 n b ⟨o.val, h⟩) else v ix0 := by
  unfold padFeat
  by_cases h : o.val < 10
  · rw [dif_pos h]
    exact pad_apply_of_inside ![0, 0, 0] ![0, 0, 6] ![0, 0, 0] x v pads_S10240x16x10_S10240x16x16_000_000_060 h_S_ (ix3 n b o) (ix3 n b ⟨o.val, h⟩) (fun a => match a with
      | ⟨0, _⟩ => by show n.val = 0 + n.val * (0 + 1); omega
      | ⟨1, _⟩ => by show b.val = 0 + b.val * (0 + 1); omega
      | ⟨2, _⟩ => by show o.val = 0 + o.val * (0 + 1); omega)
  · rw [dif_neg h]
    refine (pad_apply_of_not_inside ![0, 0, 0] ![0, 0, 6] ![0, 0, 0] x v pads_S10240x16x10_S10240x16x16_000_000_060 h_S_ (ix3 n b o) 2 (fun hc => h ?_)).trans (congrArg v (eq_ix0 _))
    have h3 : (o.val - 0) / (0 + 1) < 10 := hc.2.2
    omega

theorem flat16_apply (x : FVec Ideal S10240x16x16 .f32) (n : Fin 10240) (b : Fin 16) (o : Fin 16) :
    flat16 x (ix2 n ⟨16 * b.val + o.val, by omega⟩) = x (ix3 n b o) := by
  unfold flat16
  refine (truncf_apply (ψ := .bf16) _ bitsLt_bf16_f32 _).trans ?_
  exact shapeCast_apply x shapeCasts_S10240x16x16_S10240x256 _ (ix3 n b o)
    (by rewrite [Shape.rowMajor_val_three, Shape.rowMajor_val_two]; show (n.val * 16 + b.val) * 16 + o.val = n.val * 256 + (16 * b.val + o.val); omega)

theorem padBias_apply (x : FVec Ideal S10 .f32) (v : FVec Ideal S_ .f32) (o : Fin 16) :
    padBias x v (ix1 o) = if h : o.val < 10 then x (ix1 ⟨o.val, h⟩) else v ix0 := by
  unfold padBias
  by_cases h : o.val < 10
  · rw [dif_pos h]
    exact pad_apply_of_inside ![0] ![6] ![0] x v pads_S10_S16_060 h_S_ (ix1 o) (ix1 ⟨o.val, h⟩) (fun a => match a with
      | ⟨0, _⟩ => by show o.val = 0 + o.val * (0 + 1); omega)
  · rw [dif_neg h]
    refine (pad_apply_of_not_inside ![0] ![6] ![0] x v pads_S10_S16_060 h_S_ (ix1 o) 0 (fun hc => h ?_)).trans (congrArg v (eq_ix0 _))
    have h3 : (o.val - 0) / (0 + 1) < 10 := hc.2.2
    omega

theorem tile16_apply (v : FVec Ideal S16 .f32) (b : Fin 16) (o : Fin 16) :
    tile16 v (ix1 ⟨16 * b.val + o.val, by omega⟩) = v (ix1 o) := by
  unfold tile16
  refine (shapeCast_apply _ shapeCasts_S16x16_S256 _ (ix2 b o)
    (by rewrite [Shape.rowMajor_val_two, Shape.rowMajor_val_one]; show b.val * 16 + o.val = 16 * b.val + o.val; omega)).trans ?_
  refine (broadcastInDim_apply _ bcast_S1x16_S16x16_0_1 _ _ (ix2 (0 : Fin 1) o) (fun a => match a with
    | ⟨0, _⟩ => rfl
    | ⟨1, _⟩ => rfl)).trans ?_
  exact shapeCast_apply v shapeCasts_S16_S1x16 _ (ix1 o)
    (by rewrite [Shape.rowMajor_val_one, Shape.rowMajor_val_two]; show o.val = 0 * 16 + o.val; omega)

end Cert.KernelIdeal.Hand

end
-- ==== Proof.KiHostTail.lean ====
import proofs.«423821_j61503931678798_3_alg».proof.Proof.Gen.KernelIdeal.Launch
import proofs.«423821_j61503931678798_3_alg».proof.Proof.Spec
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Gcn

def tail3 (y : (⟨S10240x256, .f32⟩ : BufTy).Contents (Elt Ideal)) : (⟨S16x10, .f32⟩ : BufTy).Contents (Elt Ideal) :=
  Host.divf
    (Host.reduceAdd
      (extractStridedSlice S10240x16x10 ![0, 0, 0] (shapeCast S10240x16x16 y shapeCasts_S10240x256_S10240x16x16) slices_S10240x16x16_S10240x16x10_0_0_0)
      (constant (F := Ideal) S_ .f32 0x00000000#32) reducesTo_S10240x16x10_S16x10_d0 h_S_)
    (broadcastInDim S16x10 ![] bcast_S_S16x10 (constant (F := Ideal) S_ .f32 0x461C4000#32))

theorem hostOps3_v86 (W : Valuation τ sig (Elt Ideal)) :
    StableHlo.after (hostOps3 (F := Ideal)) W (Proc.devRef .tc main_v86) = tail3 (W (Proc.devRef .tc main_v81)) := by
  show StableHlo.after hostOps3 W (Proc.devRef .tc main_v86) = _
  after_results
  rfl

theorem tail3_apply (y : (⟨S10240x256, .f32⟩ : BufTy).Contents (Elt Ideal)) (b : Fin 16) (o : Fin 10) :
    tail3 y (ix2 b o) = Ideal.div (zeroE + ∑ n : Fin 10240, y (ix2 n ⟨16 * b.val + o.val, by omega⟩)) tenKE := by
  have hden : (broadcastInDim S16x10 ![] bcast_S_S16x10 (constant (F := Ideal) S_ .f32 0x461C4000#32)) (ix2 b o) = tenKE := rfl
  have hnum : Host.reduceAdd
      (extractStridedSlice S10240x16x10 ![0, 0, 0] (shapeCast S10240x16x16 y shapeCasts_S10240x256_S10240x16x16) slices_S10240x16x16_S10240x16x10_0_0_0)
      (constant (F := Ideal) S_ .f32 0x00000000#32) reducesTo_S10240x16x10_S16x10_d0 h_S_ (ix2 b o)
      = zeroE + ∑ n : Fin 10240, y (ix2 n ⟨16 * b.val + o.val, by omega⟩) := by
    simp only [Host.reduceAdd, Ideal.hostReduceAdd_def]
    rw [Ideal.hostReduceAdd_single reducesTo_S10240x16x10_S16x10_d0 (by decide)]
    refine congrArg (_ + ·) (Finset.sum_congr rfl fun (k : Fin 10240) _ => ?_)
    refine (extractStridedSlice_apply ![0, 0, 0] _ slices_S10240x16x16_S10240x16x10_0_0_0 _ (ix3 k b ⟨o.val, by omega⟩) (fun a => match a with
      | ⟨0, _⟩ => by show k.val = 0 + k.val; omega
      | ⟨1, _⟩ => by show b.val = 0 + b.val; omega
      | ⟨2, _⟩ => by show o.val = 0 + o.val; omega)).trans ?_
    exact shapeCast_apply y shapeCasts_S10240x256_S10240x16x16 _ (ix2 k ⟨16 * b.val + o.val, by omega⟩)
      (by rewrite [Shape.rowMajor_val_two, Shape.rowMajor_val_three]; show k.val * 256 + (16 * b.val + o.val) = (k.val * 16 + b.val) * 16 + o.val; omega)
  exact congrArg₂ Ideal.div hnum hden

end Cert.KernelIdeal.Hand

end
-- ==== Proof.Edges.lean ====
import Idealize.ShloMosaic.Lib.ReduceAll
import Idealize.ShloMosaic.Lib.StableHlo.Predicate
import Idealize.ShloMosaic.Lib.ValueIdx
import Idealize.ShloMosaic.Lib.Pipeline.Value
import proofs.«423821_j61503931678798_3_alg».proof.Pre_finite_inputs
import proofs.«423821_j61503931678798_3_alg».proof.Proof.Gen.Pre_finite_inputs

noncomputable section

namespace Cert.Edges

open Idealize.ShloMosaic Idealize.ShloMosaic.ValueIdx

theorem toNat_lt_of_toInt {a : BitVec 32} (h0 : 0 ≤ a.toInt) (h1 : a.toInt < 10000) : a.toNat < 10000 := by
  have h2 : 2 * a.toNat < 2 ^ 32 := BitVec.toInt_pos_iff.1 h0
  rw [BitVec.toInt_eq_toNat_of_lt h2] at h1
  omega

theorem toInt_eq_of_lt {a : BitVec 32} (h : a.toNat < 10000) : a.toInt = (a.toNat : Int) :=
  BitVec.toInt_eq_toNat_of_lt (by omega)

theorem wrap_word {v : BitVec 32} (K : BitVec 32) (hv : v.toNat < 10000) :
    Scalar.select (IntOp.cmpi .slt v 0#32) (IntOp.addi v K) v = v := by
  have hn : ¬ IntOp.cmpi .slt v 0#32 = 1#1 := by
    rw [IntOp.cmpi_slt, toInt_eq_of_lt hv, show (0#32 : BitVec 32).toInt = 0 from by decide]
    omega
  unfold Scalar.select
  exact if_neg hn

theorem signed_range_of_part2 {F : FTy → Type} [FloatOps F] [Cert.Pre_finite_inputs.Facts]
    (ei : IVec ⟨2, ![2, 160000]⟩ 32) (v : IVec ⟨0, ![]⟩ 1)
    (h : Cert.Pre_finite_inputs.fn_part2 (F := F) ei v ix0 = 1#1) (i : (⟨2, ![2, 160000]⟩ : Shape).Idx) :
    0 ≤ (ei i).toInt ∧ (ei i).toInt < 10000 := by
  haveI : Subsingleton (⟨0, ![]⟩ : Shape).Idx := ⟨fun a b => funext fun d => d.elim0⟩
  unfold Cert.Pre_finite_inputs.fn_part2 at h
  obtain ⟨h37, h40⟩ := IntOp.andi_eq_one.1 h
  obtain ⟨-, h36⟩ := IntOp.andi_eq_one.1 h37
  have g0 := Host.reduce_andi_all _ _ _ _ _ h36 i
  have g1 := Host.reduce_andi_all _ _ _ _ _ h40 i
  have e0 : (0#32 : BitVec 32).toInt ≤ (ei i).toInt := IntOp.cmpi_sge.1 g0
  have e1 : (ei i).toInt < (10000#32 : BitVec 32).toInt := IntOp.cmpi_slt.1 g1
  rw [show (0#32 : BitVec 32).toInt = 0 from by decide] at e0
  rw [show (10000#32 : BitVec 32).toInt = 10000 from by decide] at e1
  exact ⟨e0, e1⟩

theorem signed_range_of_pre {F : FTy → Type} [FloatOps F] [Cert.Pre_finite_inputs.Facts]
    (x : FVec F Cert.Pre_finite_inputs.S16x10000x10 .f32) (ei : IVec ⟨2, ![2, 160000]⟩ 32)
    (W1 : FVec F Cert.Pre_finite_inputs.S10x64 .f32) (b1 : FVec F Cert.Pre_finite_inputs.S64 .f32)
    (W2 : FVec F Cert.Pre_finite_inputs.S64x64 .f32) (b2 : FVec F Cert.Pre_finite_inputs.S64 .f32)
    (W3 : FVec F Cert.Pre_finite_inputs.S64x10 .f32) (b3 : FVec F Cert.Pre_finite_inputs.S10 .f32)
    (h : Cert.Pre_finite_inputs.fn (F := F) x ei W1 b1 W2 b2 W3 b3 = (fun _ => 1#1))
    (r : Fin 2) (e : Fin 160000) : 0 ≤ (ei (ix2 r e)).toInt ∧ (ei (ix2 r e)).toInt < 10000 :=
  signed_range_of_part2 (F := F) ei _ (congrFun h ix0) (ix2 r e)

theorem range_of_pre {F : FTy → Type} [FloatOps F] [Cert.Pre_finite_inputs.Facts]
    (x : FVec F Cert.Pre_finite_inputs.S16x10000x10 .f32) (ei : IVec ⟨2, ![2, 160000]⟩ 32)
    (W1 : FVec F Cert.Pre_finite_inputs.S10x64 .f32) (b1 : FVec F Cert.Pre_finite_inputs.S64 .f32)
    (W2 : FVec F Cert.Pre_finite_inputs.S64x64 .f32) (b2 : FVec F Cert.Pre_finite_inputs.S64 .f32)
    (W3 : FVec F Cert.Pre_finite_inputs.S64x10 .f32) (b3 : FVec F Cert.Pre_finite_inputs.S10 .f32)
    (h : Cert.Pre_finite_inputs.fn (F := F) x ei W1 b1 W2 b2 W3 b3 = (fun _ => 1#1)) :
    ∀ (r : Fin 2) (e : Fin 160000), (ei (ix2 r e)).toNat < 10000 := fun r e =>
  toNat_lt_of_toInt (signed_range_of_pre x ei W1 b1 W2 b2 W3 b3 h r e).1 (signed_range_of_pre x ei W1 b1 W2 b2 W3 b3 h r e).2

def node (ei : IVec ⟨2, ![2, 160000]⟩ 32) (hr : ∀ (r : Fin 2) (e : Fin 160000), (ei (ix2 r e)).toNat < 10000)
    (r : Fin 2) (e : Fin 170000) : Fin 10000 :=
  if h : e.val < 160000 then ⟨(ei (ix2 r ⟨e.val, h⟩)).toNat, hr r ⟨e.val, h⟩⟩
  else ⟨e.val - 160000, by have := e.isLt; omega⟩

def src2 (ei : IVec ⟨2, ![2, 160000]⟩ 32) (hr : ∀ (r : Fin 2) (e : Fin 160000), (ei (ix2 r e)).toNat < 10000) : Fin 170000 → Fin 10000 :=
  node ei hr 0

def dst2 (ei : IVec ⟨2, ![2, 160000]⟩ 32) (hr : ∀ (r : Fin 2) (e : Fin 160000), (ei (ix2 r e)).toNat < 10000) : Fin 170000 → Fin 10000 :=
  node ei hr 1

theorem node_val_of_lt (ei : IVec ⟨2, ![2, 160000]⟩ 32) (hr : ∀ (r : Fin 2) (e : Fin 160000), (ei (ix2 r e)).toNat < 10000)
    (r : Fin 2) (e : Fin 170000) (h : e.val < 160000) : (node ei hr r e).val = (ei (ix2 r ⟨e.val, h⟩)).toNat := by
  unfold node; rw [dif_pos h]

theorem node_val_of_ge (ei : IVec ⟨2, ![2, 160000]⟩ 32) (hr : ∀ (r : Fin 2) (e : Fin 160000), (ei (ix2 r e)).toNat < 10000)
    (r : Fin 2) (e : Fin 170000) (h : 160000 ≤ e.val) : (node ei hr r e).val = e.val - 160000 := by
  unfold node; rw [dif_neg (by omega)]

-- One row of the edge array with the self-loops 0 … 9999 appended.
abbrev cat (ei : IVec ⟨2, ![2, 160000]⟩ 32) (off : Fin 2 → Nat) (hs : (⟨2, ![2, 160000]⟩ : Shape).Slices off ⟨2, ![1, 160000]⟩)
    (hc : (⟨2, ![1, 160000]⟩ : Shape).ShapeCasts ⟨1, ![160000]⟩)
    (hcat : Shape.Concatenates [⟨1, ![160000]⟩, ⟨1, ![10000]⟩] ⟨1, ![170000]⟩ 0) : IVec ⟨1, ![170000]⟩ 32 :=
  concatenate (α := BitVec 32) ⟨1, ![170000]⟩ 0 [⟨⟨1, ![160000]⟩, shapeCast ⟨1, ![160000]⟩ (extractStridedSlice ⟨2, ![1, 160000]⟩ off ei hs) hc⟩, ⟨⟨1, ![10000]⟩, iotaInDim ⟨1, ![10000]⟩ 32 0⟩] hcat

-- Negative entries moved up by K.
abbrev wrap (v : IVec ⟨1, ![170000]⟩ 32) (hb : (⟨0, ![]⟩ : Shape).BroadcastsInDim ⟨1, ![170000]⟩ ![]) (K : BitVec 32) : IVec ⟨1, ![170000]⟩ 32 :=
  select (cmpi .slt v (broadcastInDim ⟨1, ![170000]⟩ ![] hb (constantI ⟨0, ![]⟩ 32 0#32))) (addi v (broadcastInDim ⟨1, ![170000]⟩ ![] hb (constantI ⟨0, ![]⟩ 32 K))) v

theorem cat_apply (ei : IVec ⟨2, ![2, 160000]⟩ 32) (r : Fin 2) (off : Fin 2 → Nat) (hoff : off = ![r.val, 0])
    (hs : (⟨2, ![2, 160000]⟩ : Shape).Slices off ⟨2, ![1, 160000]⟩) (hc : (⟨2, ![1, 160000]⟩ : Shape).ShapeCasts ⟨1, ![160000]⟩)
    (hcat : Shape.Concatenates [⟨1, ![160000]⟩, ⟨1, ![10000]⟩] ⟨1, ![170000]⟩ 0) (j : (⟨1, ![170000]⟩ : Shape).Idx) :
    (cat ei off hs hc hcat) j
      = if h : (j 0).val < 160000 then ei (ix2 r ⟨(j 0).val, h⟩) else BitVec.ofNat 32 ((j 0).val - 160000) := by
  subst hoff
  by_cases h : (j 0).val < 160000
  · rw [dif_pos h]
    refine (concatenate_pair_apply_left (0 : Fin (⟨1, ![170000]⟩ : Shape).rank) _ _ hcat j rfl (ix1 ⟨(j 0).val, h⟩) ?_).trans ?_
    · intro b; match b with | ⟨0, _⟩ => rfl
    · refine (shapeCast_apply _ hc _ (ix2 (0 : Fin 1) ⟨(j 0).val, h⟩) ?_).trans ?_
      · rw [Shape.rowMajor_val_two, Shape.rowMajor_val_one]
        show 0 * _ + (j 0).val = (j 0).val
        omega
      · exact extractStridedSlice_apply _ ei hs _ (ix2 r ⟨(j 0).val, h⟩)
          (fun a => match a with
            | ⟨0, _⟩ => by show r.val = r.val + 0; omega
            | ⟨1, _⟩ => by show (j 0).val = 0 + (j 0).val; omega)
  · rw [dif_neg h]
    have hj : (j 0).val < 170000 := (j 0).isLt
    refine (concatenate_pair_apply_right (0 : Fin (⟨1, ![170000]⟩ : Shape).rank) _ _ hcat j rfl rfl
      (ix1 ⟨(j 0).val - 160000, by omega⟩) ?_ ?_).trans rfl
    · intro b hb; exact absurd (Subsingleton.elim _ _) hb
    · show (j 0).val - 160000 + 160000 = (j 0).val; omega

theorem cat_toNat (ei : IVec ⟨2, ![2, 160000]⟩ 32) (hr : ∀ (r : Fin 2) (e : Fin 160000), (ei (ix2 r e)).toNat < 10000)
    (r : Fin 2) (off : Fin 2 → Nat) (hoff : off = ![r.val, 0])
    (hs : (⟨2, ![2, 160000]⟩ : Shape).Slices off ⟨2, ![1, 160000]⟩) (hc : (⟨2, ![1, 160000]⟩ : Shape).ShapeCasts ⟨1, ![160000]⟩)
    (hcat : Shape.Concatenates [⟨1, ![160000]⟩, ⟨1, ![10000]⟩] ⟨1, ![170000]⟩ 0) (j : (⟨1, ![170000]⟩ : Shape).Idx) :
    ((cat ei off hs hc hcat) j).toNat = (node ei hr r (j 0)).val := by
  rw [cat_apply ei r off hoff hs hc hcat j]
  by_cases h : (j 0).val < 160000
  · rw [dif_pos h, node_val_of_lt ei hr r (j 0) h]
  · have hj : (j 0).val < 170000 := (j 0).isLt
    rw [dif_neg h, node_val_of_ge ei hr r (j 0) (by omega), BitVec.toNat_ofNat]
    exact Nat.mod_eq_of_lt (by omega)

theorem wrap_cat_apply (ei : IVec ⟨2, ![2, 160000]⟩ 32) (hr : ∀ (r : Fin 2) (e : Fin 160000), (ei (ix2 r e)).toNat < 10000)
    (r : Fin 2) (off : Fin 2 → Nat) (hoff : off = ![r.val, 0])
    (hs : (⟨2, ![2, 160000]⟩ : Shape).Slices off ⟨2, ![1, 160000]⟩) (hc : (⟨2, ![1, 160000]⟩ : Shape).ShapeCasts ⟨1, ![160000]⟩)
    (hcat : Shape.Concatenates [⟨1, ![160000]⟩, ⟨1, ![10000]⟩] ⟨1, ![170000]⟩ 0)
    (hb : (⟨0, ![]⟩ : Shape).BroadcastsInDim ⟨1, ![170000]⟩ ![]) (K : BitVec 32) (j : (⟨1, ![170000]⟩ : Shape).Idx) :
    (wrap (cat ei off hs hc hcat) hb K) j = BitVec.ofNat 32 (node ei hr r (j 0)).val := by
  have hn := cat_toNat ei hr r off hoff hs hc hcat j
  have hlt : ((cat ei off hs hc hcat) j).toNat < 10000 := by rw [hn]; exact (node ei hr r (j 0)).isLt
  refine (wrap_word K hlt).trans (BitVec.eq_of_toNat_eq ?_)
  rw [hn, BitVec.toNat_ofNat]
  exact (Nat.mod_eq_of_lt (by have := (node ei hr r (j 0)).isLt; omega)).symm

theorem col_apply {α : Type} (hb1 : (⟨1, ![170000]⟩ : Shape).BroadcastsInDim ⟨2, ![170000, 1]⟩ ![0]) (v : (⟨1, ![170000]⟩ : Shape).Idx → α)
    (j : (⟨2, ![170000, 1]⟩ : Shape).Idx) : broadcastInDim ⟨2, ![170000, 1]⟩ ![0] hb1 v j = v (ix1 (j 0)) :=
  broadcastInDim_apply ![0] hb1 v j (ix1 (j 0)) (fun a => match a with
    | ⟨0, _⟩ => by
      show (j 0).val = if (170000 : Nat) = 1 then 0 else (j 0).val
      rw [if_neg (by omega)])

theorem col_wrap_cat_apply (ei : IVec ⟨2, ![2, 160000]⟩ 32) (hr : ∀ (r : Fin 2) (e : Fin 160000), (ei (ix2 r e)).toNat < 10000)
    (r : Fin 2) (off : Fin 2 → Nat) (hoff : off = ![r.val, 0])
    (hs : (⟨2, ![2, 160000]⟩ : Shape).Slices off ⟨2, ![1, 160000]⟩) (hc : (⟨2, ![1, 160000]⟩ : Shape).ShapeCasts ⟨1, ![160000]⟩)
    (hcat : Shape.Concatenates [⟨1, ![160000]⟩, ⟨1, ![10000]⟩] ⟨1, ![170000]⟩ 0)
    (hb : (⟨0, ![]⟩ : Shape).BroadcastsInDim ⟨1, ![170000]⟩ ![]) (K : BitVec 32)
    (hb1 : (⟨1, ![170000]⟩ : Shape).BroadcastsInDim ⟨2, ![170000, 1]⟩ ![0]) (e : Fin 170000) :
    (broadcastInDim ⟨2, ![170000, 1]⟩ ![0] hb1 (wrap (cat ei off hs hc hcat) hb K)) (ix2 e (0 : Fin 1)) = BitVec.ofNat 32 (node ei hr r e).val :=
  (col_apply hb1 _ (ix2 e (0 : Fin 1))).trans (wrap_cat_apply ei hr r off hoff hs hc hcat hb K (ix1 e))

theorem col_wrap_cat_toNat (ei : IVec ⟨2, ![2, 160000]⟩ 32) (hr : ∀ (r : Fin 2) (e : Fin 160000), (ei (ix2 r e)).toNat < 10000)
    (r : Fin 2) (off : Fin 2 → Nat) (hoff : off = ![r.val, 0])
    (hs : (⟨2, ![2, 160000]⟩ : Shape).Slices off ⟨2, ![1, 160000]⟩) (hc : (⟨2, ![1, 160000]⟩ : Shape).ShapeCasts ⟨1, ![160000]⟩)
    (hcat : Shape.Concatenates [⟨1, ![160000]⟩, ⟨1, ![10000]⟩] ⟨1, ![170000]⟩ 0)
    (hb : (⟨0, ![]⟩ : Shape).BroadcastsInDim ⟨1, ![170000]⟩ ![]) (K : BitVec 32)
    (hb1 : (⟨1, ![170000]⟩ : Shape).BroadcastsInDim ⟨2, ![170000, 1]⟩ ![0]) (e : Fin 170000) :
    ((broadcastInDim ⟨2, ![170000, 1]⟩ ![0] hb1 (wrap (cat ei off hs hc hcat) hb K)) (ix2 e (0 : Fin 1))).toNat = (node ei hr r e).val := by
  rw [col_wrap_cat_apply ei hr r off hoff hs hc hcat hb K hb1 e, BitVec.toNat_ofNat]
  exact Nat.mod_eq_of_lt (by have := (node ei hr r e).isLt; omega)

theorem col_wrap_cat_toInt (ei : IVec ⟨2, ![2, 160000]⟩ 32) (hr : ∀ (r : Fin 2) (e : Fin 160000), (ei (ix2 r e)).toNat < 10000)
    (r : Fin 2) (off : Fin 2 → Nat) (hoff : off = ![r.val, 0])
    (hs : (⟨2, ![2, 160000]⟩ : Shape).Slices off ⟨2, ![1, 160000]⟩) (hc : (⟨2, ![1, 160000]⟩ : Shape).ShapeCasts ⟨1, ![160000]⟩)
    (hcat : Shape.Concatenates [⟨1, ![160000]⟩, ⟨1, ![10000]⟩] ⟨1, ![170000]⟩ 0)
    (hb : (⟨0, ![]⟩ : Shape).BroadcastsInDim ⟨1, ![170000]⟩ ![]) (K : BitVec 32)
    (hb1 : (⟨1, ![170000]⟩ : Shape).BroadcastsInDim ⟨2, ![170000, 1]⟩ ![0]) (e : Fin 170000) :
    ((broadcastInDim ⟨2, ![170000, 1]⟩ ![0] hb1 (wrap (cat ei off hs hc hcat) hb K)) (ix2 e (0 : Fin 1))).toInt = ((node ei hr r e).val : Int) := by
  rw [col_wrap_cat_apply ei hr r off hoff hs hc hcat hb K hb1 e]
  exact StableHlo.Predicate.toInt_ofNat_small _ (by have := (node ei hr r e).isLt; omega)

end Cert.Edges

end
-- ==== Proof.LibScatterGather1.lean ====
import Idealize.ShloMosaic.PureOps.Ideal
import Idealize.ShloMosaic.PureOps.ShapeOps
import Idealize.ShloMosaic.PureOps.Contract
import Idealize.ShloMosaic.Lib.ValueIdx
import Idealize.ShloMosaic.Lib.StableHlo.Predicate

noncomputable section

namespace Cert.LibScatterGather1

open Idealize.ShloMosaic Idealize.ShloMosaic.ValueIdx

section Scatter

variable {N M w : Nat}

def idxEquiv1 {n : Nat} : (⟨1, ![n]⟩ : Shape).Idx ≃ Fin n where
  toFun i := i 0
  invFun := ix1
  left_inv i := (eq_ix1 i).symm
  right_inv _ := rfl

theorem start_add_window (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (a : Fin 1) :
    d.start j idx a + (d.window j a : ℤ) = (idx (ix2 (n0 := M) (n1 := 1) (j 0) 0)).toInt := by
  obtain rfl : a = 0 := Subsingleton.elim _ _
  have hwin : d.window j 0 = 0 := by
    unfold ScatterDims.window
    rw [dif_neg]
    simp [ScatterDims.sKept, Shape.kept, hiw]
  have hm : (0 : Fin 1) ∈ d.scatterDimsToOperandDims := by rw [hsd]; exact List.mem_singleton.mpr rfl
  have hsi : d.siIdx j ⟨d.scatterDimsToOperandDims.idxOf 0, List.idxOf_lt_length_iff.2 hm⟩
      = ix2 (n0 := M) (n1 := 1) (j 0) 0 := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, (j X).val = (j 0).val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : d.start j idx 0 = (idx (ix2 (n0 := M) (n1 := 1) (j 0) 0)).toInt := by
    unfold ScatterDims.start
    rw [dif_pos hm, hsi]
  rw [hstart, hwin]; simp

theorem resultIdx?_iff (d : ScatterDims ⟨1, ![N]⟩ ⟨2, ![M, 1]⟩ ⟨1, ![M]⟩)
    (hiw : d.insertedWindowDims = [0]) (hsd : d.scatterDimsToOperandDims = [0]) (hivd : d.indexVectorDim = 1)
    (idx : IVec ⟨2, ![M, 1]⟩ w) (j : (⟨1, ![M]⟩ : Shape).Idx) (i : (⟨1, ![N]⟩ : Shape).Idx) :
    d.resultIdx? j idx = some i ↔ (idx (ix2 (n0 := M) (n1 := 1) (j 0) 0)).toInt = ((i 0).val : ℤ) := by
  have hT := start_add_window d hiw hsd hivd idx j
  unfold ScatterDims.resultIdx?
  constructor
  · intro h
    split at h
    · rename_i hc
      have hf := Option.some.inj h
      have h0 : (d.start j idx 0 + (d.window j 0 : ℤ)).toNat = (i 0).val := congrArg (fun f => (f 0).val) hf
      have hc0 := (hc 0).1
      rw [hT 0] at hc0 h0
      omega
    · exact absurd h (by simp)
  · intro h
    have hi : (i 0).val < N := (i 0).isLt
    have hc : ∀ a : Fin 1, 0 ≤ d.start j idx a + (d.window j a : ℤ)
        ∧ d.start j idx a + (d.window j a : ℤ) < ((⟨1, ![N]⟩ : Shape).size a : ℤ) := by
      intro a
      obtain rfl : a = 0 := Subsingleton.elim _ _
      rw [hT 0, h]
      refine ⟨by omega, ?_⟩
      show ((i 0).val : ℤ) < (N : ℤ)
      omega
    rw [dif_pos hc]
    refine congrArg some ?_
    funext a
    obtain rfl : a = 0 := Subsingleton.elim _ _
    apply Fin.ext
    show (d.start j idx 0 + (d.window j 0 : ℤ)).toNat = (i 0).val
    rw [hT 0, h]; simp

theorem scatterAdd_apply {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ)
    (i : (⟨1, ![N]⟩ : Shape).Idx) :
    Host.scatterAdd (F := Ideal) d x idx upd i
      = x i + ∑ j ∈ Finset.univ.filter (fun j : (⟨1, ![M]⟩ : Shape).Idx =>
          (idx (ix2 (n0 := M) (n1 := 1) (j 0) 0)).toInt = ((i 0).val : ℤ)), upd j := by
  show Ideal.hostScatterAdd d x idx upd i = _
  unfold Ideal.hostScatterAdd
  refine congrArg (x i + ·) ?_
  refine Finset.sum_congr ?_ (fun _ _ => rfl)
  ext j
  simp only [Finset.mem_filter, Finset.mem_univ, true_and]
  exact resultIdx?_iff d hiw hsd hivd idx j i

theorem scatterAdd_apply_fin {φ : FTy} (d : ScatterDims ⟨1, ![N]⟩ ⟨2, ![M, 1]⟩ ⟨1, ![M]⟩)
    (hiw : d.insertedWindowDims = [0]) (hsd : d.scatterDimsToOperandDims = [0]) (hivd : d.indexVectorDim = 1)
    (x : FVec Ideal ⟨1, ![N]⟩ φ) (idx : IVec ⟨2, ![M, 1]⟩ w) (upd : FVec Ideal ⟨1, ![M]⟩ φ) (u : Fin N) :
    Host.scatterAdd (F := Ideal) d x idx upd (ix1 u)
      = x (ix1 u) + ∑ j ∈ Finset.univ.filter (fun j : Fin M => (idx (ix2 j (0 : Fin 1))).toInt = (u.val : ℤ)),
          upd (ix1 j) := by
  rw [scatterAdd_apply d hiw hsd hivd]
  refine congrArg (x (ix1 u) + ·) ?_
  rw [Finset.sum_filter, Finset.sum_filter]
  exact (Equiv.sum_comp (idxEquiv1 (n := M)).symm _).symm

end Scatter

section Gather

variable {α : Type} {N M w : Nat}

theorem gather_apply_clamp (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M) (hN : 0 < N) :
    Host.gather d x idx (ix1 j)
      = x (ix1 ⟨min (idx (ix2 j (0 : Fin 1))).toInt.toNat (N - 1), by omega⟩) := by
  have h1 : ∀ {n : Nat} (k : Fin n), Shape.Idx.ofFin k = ix1 k := fun k => by
    funext a; obtain rfl : a = 0 := Subsingleton.elim _ _; exact Fin.ext rfl
  have h2 : StableHlo.Predicate.ixP j = ix2 j (0 : Fin 1) := by
    funext b; match b with | ⟨0, _⟩ => rfl | ⟨1, _⟩ => rfl
  rw [← h1 j, StableHlo.Predicate.gather_take d hcoll hob hsim hivd x idx j hN, h1]
  refine congrArg x (congrArg ix1 (Fin.ext ?_))
  show min (idx (StableHlo.Predicate.ixP j)).toInt.toNat (N - 1) = min (idx (ix2 j (0 : Fin 1))).toInt.toNat (N - 1)
  rw [h2]

theorem gather_apply (d : GatherDims ⟨1, ![N]⟩ ⟨2, ![M, 1]⟩ ⟨1, ![M]⟩)
    (hcoll : d.collapsedSliceDims = [0]) (hob : d.operandBatchingDims = []) (hsim : d.startIndexMap = [0])
    (hivd : d.indexVectorDim = 1)
    (x : (⟨1, ![N]⟩ : Shape).Idx → α) (idx : IVec ⟨2, ![M, 1]⟩ w) (j : Fin M)
    (hN : 2 * N ≤ 2 ^ w) (h : (idx (ix2 j (0 : Fin 1))).toNat < N) :
    Host.gather d x idx (ix1 j) = x (ix1 ⟨(idx (ix2 j (0 : Fin 1))).toNat, h⟩) := by
  have hN0 : 0 < N := by omega
  rw [gather_apply_clamp d hcoll hob hsim hivd x idx j hN0]
  refine congrArg x (congrArg ix1 (Fin.ext ?_))
  show min (idx (ix2 j (0 : Fin 1))).toInt.toNat (N - 1) = (idx (ix2 j (0 : Fin 1))).toNat
  rw [BitVec.toInt_eq_toNat_of_lt (by omega), Int.toNat_natCast]
  omega

end Gather

end Cert.LibScatterGather1

end
-- ==== Proof.Weights.lean ====
import Idealize.ShloMosaic.PureOps.Ideal
import Idealize.ShloMosaic.PureOps.ShapeOps
import Idealize.ShloMosaic.PureOps.Contract
import Idealize.ShloMosaic.Lib.ValueIdx
import proofs.«423821_j61503931678798_3_alg».proof.Proof.Spec
import proofs.«423821_j61503931678798_3_alg».proof.Proof.LibScatterGather1

noncomputable section

namespace Cert.Weights

open Idealize.ShloMosaic Idealize.ShloMosaic.ValueIdx

variable (sd : ScatterDims ⟨1, ![10000]⟩ ⟨2, ![170000, 1]⟩ ⟨1, ![170000]⟩)
  (gd : GatherDims ⟨1, ![10000]⟩ ⟨2, ![170000, 1]⟩ ⟨1, ![170000]⟩)
  (hb0 : (⟨0, ![]⟩ : Shape).BroadcastsInDim ⟨1, ![10000]⟩ ![])
  (hb1 : (⟨0, ![]⟩ : Shape).BroadcastsInDim ⟨1, ![170000]⟩ ![])
  (idxS idxD : IVec ⟨2, ![170000, 1]⟩ 32)
  (s d : Fin 170000 → Fin 10000)

theorem degT_apply
    (hiw : sd.insertedWindowDims = [0]) (hsd : sd.scatterDimsToOperandDims = [0]) (hivd : sd.indexVectorDim = 1)
    (hD : ∀ e, (idxD (ix2 e (0 : Fin 1))).toNat = (d e).val) (n : Fin 10000) :
    Host.scatterAdd (F := Ideal) sd
        (broadcastInDim ⟨1, ![10000]⟩ ![] hb0 (constant ⟨0, ![]⟩ .f32 0x00000000#32))
        idxD
        (broadcastInDim ⟨1, ![170000]⟩ ![] hb1 (constant ⟨0, ![]⟩ .f32 0x3F800000#32))
        (ix1 n)
      = Cert.Gcn.deg d n := by
  rw [Cert.LibScatterGather1.scatterAdd_apply_fin sd hiw hsd hivd]
  unfold Cert.Gcn.deg
  refine congrArg₂ (· + ·) rfl (Finset.sum_congr ?_ (fun _ _ => rfl))
  ext e
  simp only [Finset.mem_filter, Finset.mem_univ, true_and]
  have h1 : (idxD (ix2 e (0 : Fin 1))).toInt = ((d e).val : ℤ) := by
    rw [BitVec.toInt_eq_toNat_of_lt (by rw [hD e]; have := (d e).isLt; omega), hD e]
  rw [h1, Fin.ext_iff]
  omega

theorem dinvT_apply
    (hiw : sd.insertedWindowDims = [0]) (hsd : sd.scatterDimsToOperandDims = [0]) (hivd : sd.indexVectorDim = 1)
    (hD : ∀ e, (idxD (ix2 e (0 : Fin 1))).toNat = (d e).val) (n : Fin 10000) :
    Host.powf (F := Ideal)
        (Host.scatterAdd (F := Ideal) sd
          (broadcastInDim ⟨1, ![10000]⟩ ![] hb0 (constant ⟨0, ![]⟩ .f32 0x00000000#32))
          idxD
          (broadcastInDim ⟨1, ![170000]⟩ ![] hb1 (constant ⟨0, ![]⟩ .f32 0x3F800000#32)))
        (broadcastInDim ⟨1, ![10000]⟩ ![] hb0 (constant ⟨0, ![]⟩ .f32 0xBF000000#32))
        (ix1 n)
      = Cert.Gcn.dinv d n := by
  have h := degT_apply sd hb0 hb1 idxD d hiw hsd hivd hD n
  have hB : (broadcastInDim ⟨1, ![10000]⟩ ![] hb0 (constant (F := Ideal) ⟨0, ![]⟩ .f32 0xBF000000#32)) (ix1 n)
      = Cert.Gcn.mhalfE := rfl
  unfold Host.powf Cert.Gcn.dinv
  rw [h, Ideal.hostPowf_def, hB]

theorem weightT_apply
    (hiw : sd.insertedWindowDims = [0]) (hsd : sd.scatterDimsToOperandDims = [0]) (hivd : sd.indexVectorDim = 1)
    (hcoll : gd.collapsedSliceDims = [0]) (hob : gd.operandBatchingDims = []) (hsim : gd.startIndexMap = [0])
    (hgivd : gd.indexVectorDim = 1)
    (hS : ∀ e, (idxS (ix2 e (0 : Fin 1))).toNat = (s e).val)
    (hD : ∀ e, (idxD (ix2 e (0 : Fin 1))).toNat = (d e).val) (e : Fin 170000) :
    mulf (F := Ideal)
        (Host.gather gd
          (Host.powf (F := Ideal)
            (Host.scatterAdd (F := Ideal) sd
              (broadcastInDim ⟨1, ![10000]⟩ ![] hb0 (constant ⟨0, ![]⟩ .f32 0x00000000#32))
              idxD
              (broadcastInDim ⟨1, ![170000]⟩ ![] hb1 (constant ⟨0, ![]⟩ .f32 0x3F800000#32)))
            (broadcastInDim ⟨1, ![10000]⟩ ![] hb0 (constant ⟨0, ![]⟩ .f32 0xBF000000#32)))
          idxS)
        (Host.gather gd
          (Host.powf (F := Ideal)
            (Host.scatterAdd (F := Ideal) sd
              (broadcastInDim ⟨1, ![10000]⟩ ![] hb0 (constant ⟨0, ![]⟩ .f32 0x00000000#32))
              idxD
              (broadcastInDim ⟨1, ![170000]⟩ ![] hb1 (constant ⟨0, ![]⟩ .f32 0x3F800000#32)))
            (broadcastInDim ⟨1, ![10000]⟩ ![] hb0 (constant ⟨0, ![]⟩ .f32 0xBF000000#32)))
          idxD)
        (ix1 e)
      = Cert.Gcn.weight s d e := by
  have hs : (idxS (ix2 e (0 : Fin 1))).toNat < 10000 := by rw [hS e]; exact (s e).isLt
  have hd : (idxD (ix2 e (0 : Fin 1))).toNat < 10000 := by rw [hD e]; exact (d e).isLt
  have es : (⟨(idxS (ix2 e (0 : Fin 1))).toNat, hs⟩ : Fin 10000) = s e := Fin.ext (hS e)
  have ed : (⟨(idxD (ix2 e (0 : Fin 1))).toNat, hd⟩ : Fin 10000) = d e := Fin.ext (hD e)
  rw [mulf_apply,
    Cert.LibScatterGather1.gather_apply gd hcoll hob hsim hgivd _ idxS e (by norm_num) hs,
    Cert.LibScatterGather1.gather_apply gd hcoll hob hsim hgivd _ idxD e (by norm_num) hd,
    es, ed, dinvT_apply sd hb0 hb1 idxD d hiw hsd hivd hD, dinvT_apply sd hb0 hb1 idxD d hiw hsd hivd hD]
  rfl

end Cert.Weights

end
-- ==== Proof.LibScatterGather3.lean ====
import Idealize.ShloMosaic.PureOps.Ideal
import Idealize.ShloMosaic.PureOps.ShapeOps
import Idealize.ShloMosaic.PureOps.Contract
import Idealize.ShloMosaic.Lib.ValueIdx
import Idealize.ShloMosaic.Lib.StableHlo.Predicate

noncomputable section

namespace Cert.LibScatterGather3

open Idealize.ShloMosaic Idealize.ShloMosaic.ValueIdx

section Gather

variable {α : Type} {B N C M w : Nat}

theorem gather_rows_apply_clamp (d : GatherDims ⟨3, ![B, N, C]⟩ ⟨2, ![M, 1]⟩ ⟨3, ![B, M, C]⟩)
    (hoff : d.offsetDims = [0, 2]) (hcoll : d.collapsedSliceDims = [1]) (hob : d.operandBatchingDims = [])
    (hsim : d.startIndexMap = [1]) (hivd : d.indexVectorDim = 1)
    (x : (⟨3, ![B, N, C]⟩ : Shape).Idx → α) (idx : IVec ⟨2, ![M, 1]⟩ w) (b : Fin B) (e : Fin M) (o : Fin C)
    (hN : 0 < N) :
    Host.gather d x idx (ix3 b e o)
      = x (ix3 b ⟨min (idx (ix2 e (0 : Fin 1))).toInt.toNat (N - 1), by omega⟩ o) := by
  have hsl : d.sliceSizes 1 = 1 := d.slice_collapsed 1 (by rw [hcoll]; exact List.mem_singleton.mpr rfl)
  obtain ⟨od, cd, ob, sb, sm, iv, ss, wf⟩ := d
  dsimp only at hoff hcoll hob hsim hivd hsl
  subst hoff hcoll hob hsim hivd
  unfold Host.gather
  congr 1
  funext a
  match a with
  | ⟨0, _⟩ =>
    apply Fin.ext
    show 0 + 0 + b.val = b.val
    omega
  | ⟨1, _⟩ =>
    apply Fin.ext
    show min (idx _).toInt.toNat (N - ss 1) + 0 + 0 = min (idx (ix2 e (0 : Fin 1))).toInt.toNat (N - 1)
    rw [hsl]
    show min (idx _).toInt.toNat (N - 1) = min (idx (ix2 e (0 : Fin 1))).toInt.toNat (N - 1)
    congr 3
    congr 1
    funext c
    match c with
    | ⟨0, _⟩ => rfl
    | ⟨1, _⟩ => rfl
  | ⟨2, _⟩ =>
    apply Fin.ext
    show 0 + 0 + o.val = o.val
    omega

theorem gather_rows_apply (d : GatherDims ⟨3, ![B, N, C]⟩ ⟨2, ![M, 1]⟩ ⟨3, ![B, M, C]⟩)
    (hoff : d.offsetDims = [0, 2]) (hcoll : d.collapsedSliceDims = [1]) (hob : d.operandBatchingDims = [])
    (hsim : d.startIndexMap = [1]) (hivd : d.indexVectorDim = 1)
    (x : (⟨3, ![B, N, C]⟩ : Shape).Idx → α) (idx : IVec ⟨2, ![M, 1]⟩ w) (b : Fin B) (e : Fin M) (o : Fin C)
    (hN : 2 * N ≤ 2 ^ w) (h : (idx (ix2 e (0 : Fin 1))).toNat < N) :
    Host.gather d x idx (ix3 b e o) = x (ix3 b ⟨(idx (ix2 e (0 : Fin 1))).toNat, h⟩ o) := by
  have hN0 : 0 < N := by omega
  rw [gather_rows_apply_clamp d hoff hcoll hob hsim hivd x idx b e o hN0]
  refine congrArg x (congrArg (fun n => ix3 b n o) (Fin.ext ?_))
  show min (idx (ix2 e (0 : Fin 1))).toInt.toNat (N - 1) = (idx (ix2 e (0 : Fin 1))).toNat
  rw [BitVec.toInt_eq_toNat_of_lt (by omega), Int.toNat_natCast]
  omega

end Gather

section RowScatter

variable {B N C M w : Nat}

theorem rows_start_add_window (d : ScatterDims ⟨3, ![B, N, C]⟩ ⟨2, ![M, 1]⟩ ⟨3, ![B, M, C]⟩)
    (huw : d.updateWindowDims = [0, 2]) (hiw : d.insertedWindowDims = [1])
    (hsd : d.scatterDimsToOperandDims = [1]) (hivd : d.indexVectorDim = 1)
    (idx : IVec ⟨2, ![M, 1]⟩ w) (j : (⟨3, ![B, M, C]⟩ : Shape).Idx) :
    (d.start j idx 0 + (d.window j 0 : ℤ) = ((j 0).val : ℤ)) ∧
    (d.start j idx 1 + (d.window j 1 : ℤ) = (idx (ix2 (j 1) (0 : Fin 1))).toInt) ∧
    (d.start j idx 2 + (d.window j 2 : ℤ) = ((j 2).val : ℤ)) := by
  obtain ⟨uw, iw, sd, iv, wf⟩ := d
  dsimp only at huw hiw hsd hivd
  subst huw hiw hsd hivd
  refine ⟨?_, ?_, ?_⟩
  · have h1 : ScatterDims.start ⟨[0, 2], [1], [1], 1, wf⟩ j idx 0 = 0 := rfl
    have h2 : ScatterDims.window ⟨[0, 2], [1], [1], 1, wf⟩ j 0 = (j 0).val := rfl
    rw [h1, h2]; simp
  · have h1 : ScatterDims.window ⟨[0, 2], [1], [1], 1, wf⟩ j 1 = 0 := rfl
    have h2 : ScatterDims.start ⟨[0, 2], [1], [1], 1, wf⟩ j idx 1 = (idx (ix2 (j 1) (0 : Fin 1))).toInt := by
      show (idx _).toInt = _
      congr 2
      funext b
      match b with
      | ⟨0, _⟩ => rfl
      | ⟨1, _⟩ => rfl
    rw [h1, h2]; simp
  · have h1 : ScatterDims.start ⟨[0, 2], [1], [1], 1, wf⟩ j idx 2 = 0 := rfl
    have h2 : ScatterDims.window ⟨[0, 2], [1], [1], 1, wf⟩ j 2 = (j 2).val := rfl
    rw [h1, h2]; simp

theorem rows_resultIdx?_iff (d : ScatterDims ⟨3, ![B, N, C]⟩ ⟨2, ![M, 1]⟩ ⟨3, ![B, M, C]⟩)
    (huw : d.updateWindowDims = [0, 2]) (hiw : d.insertedWindowDims = [1])
    (hsd : d.scatterDimsToOperandDims = [1]) (hivd : d.indexVectorDim = 1)
    (idx : IVec ⟨2, ![M, 1]⟩ w) (j : (⟨3, ![B, M, C]⟩ : Shape).Idx) (b : Fin B) (n : Fin N) (o : Fin C) :
    d.resultIdx? j idx = some (ix3 b n o)
      ↔ ((j 0).val = b.val ∧ (idx (ix2 (j 1) (0 : Fin 1))).toInt = (n.val : ℤ) ∧ (j 2).val = o.val) := by
  obtain ⟨h0, h1, h2⟩ := rows_start_add_window d huw hiw hsd hivd idx j
  unfold ScatterDims.resultIdx?
  constructor
  · intro h
    split at h
    · rename_i hc
      have hf := Option.some.inj h
      have e0 : (d.start j idx 0 + (d.window j 0 : ℤ)).toNat = b.val := congrArg (fun f => (f 0).val) hf
      have e1 : (d.start j idx 1 + (d.window j 1 : ℤ)).toNat = n.val := congrArg (fun f => (f 1).val) hf
      have e2 : (d.start j idx 2 + (d.window j 2 : ℤ)).toNat = o.val := congrArg (fun f => (f 2).val) hf
      have c1 := (hc 1).1
      rw [h0] at e0
      rw [h1] at e1 c1
      rw [h2] at e2
      refine ⟨by omega, by omega, by omega⟩
    · exact absurd h (by simp)
  · rintro ⟨e0, e1, e2⟩
    have hb : b.val < B := b.isLt
    have hn : n.val < N := n.isLt
    have ho : o.val < C := o.isLt
    have hc : ∀ a : Fin 3, 0 ≤ d.start j idx a + (d.window j a : ℤ)
        ∧ d.start j idx a + (d.window j a : ℤ) < ((⟨3, ![B, N, C]⟩ : Shape).size a : ℤ) := by
      intro a
      match a with
      | ⟨0, _⟩ =>
        show 0 ≤ d.start j idx 0 + (d.window j 0 : ℤ) ∧ d.start j idx 0 + (d.window j 0 : ℤ) < (B : ℤ)
        rw [h0]; omega
      | ⟨1, _⟩ =>
        show 0 ≤ d.start j idx 1 + (d.window j 1 : ℤ) ∧ d.start j idx 1 + (d.window j 1 : ℤ) < (N : ℤ)
        rw [h1, e1]; omega
      | ⟨2, _⟩ =>
        show 0 ≤ d.start j idx 2 + (d.window j 2 : ℤ) ∧ d.start j idx 2 + (d.window j 2 : ℤ) < (C : ℤ)
        rw [h2]; omega
    rw [dif_pos hc]
    refine congrArg some ?_
    funext a
    match a with
    | ⟨0, _⟩ =>
      apply Fin.ext
      show (d.start j idx 0 + (d.window j 0 : ℤ)).toNat = b.val
      rw [h0]; omega
    | ⟨1, _⟩ =>
      apply Fin.ext
      show (d.start j idx 1 + (d.window j 1 : ℤ)).toNat = n.val
      rw [h1, e1]; omega
    | ⟨2, _⟩ =>
      apply Fin.ext
      show (d.start j idx 2 + (d.window j 2 : ℤ)).toNat = o.val
      rw [h2]; omega

theorem scatterAdd_rows_apply {φ : FTy} (d : ScatterDims ⟨3, ![B, N, C]⟩ ⟨2, ![M, 1]⟩ ⟨3, ![B, M, C]⟩)
    (huw : d.updateWindowDims = [0, 2]) (hiw : d.insertedWindowDims = [1])
    (hsd : d.scatterDimsToOperandDims = [1]) (hivd : d.indexVectorDim = 1)
    (x : FVec Ideal ⟨3, ![B, N, C]⟩ φ) (idx : IVec ⟨2, ![M, 1]⟩ w) (upd : FVec Ideal ⟨3, ![B, M, C]⟩ φ)
    (b : Fin B) (n : Fin N) (o : Fin C) :
    Host.scatterAdd (F := Ideal) d x idx upd (ix3 b n o)
      = x (ix3 b n o) + ∑ e ∈ Finset.univ.filter (fun e : Fin M => (idx (ix2 e (0 : Fin 1))).toInt = (n.val : ℤ)),
          upd (ix3 b e o) := by
  show Ideal.hostScatterAdd d x idx upd (ix3 b n o) = _
  unfold Ideal.hostScatterAdd
  refine congrArg (x (ix3 b n o) + ·) ?_
  have hiff := fun j => rows_resultIdx?_iff d huw hiw hsd hivd idx j b n o

  have hback : ∀ j : (⟨3, ![B, M, C]⟩ : Shape).Idx, d.resultIdx? j idx = some (ix3 b n o) → ix3 b (j 1) o = j := by
    intro j hj
    obtain ⟨e0, _, e2⟩ := (hiff j).1 hj
    funext a
    match a with
    | ⟨0, _⟩ => exact Fin.ext e0.symm
    | ⟨1, _⟩ => rfl
    | ⟨2, _⟩ => exact Fin.ext e2.symm
  refine Finset.sum_bij' (fun j _ => j 1) (fun e _ => ix3 b e o) ?_ ?_ ?_ ?_ ?_
  · intro j hj
    exact Finset.mem_filter.2 ⟨Finset.mem_univ _, ((hiff j).1 (Finset.mem_filter.1 hj).2).2.1⟩
  · intro e he
    exact Finset.mem_filter.2 ⟨Finset.mem_univ _, (hiff (ix3 b e o)).2 ⟨rfl, (Finset.mem_filter.1 he).2, rfl⟩⟩
  · intro j hj
    exact hback j (Finset.mem_filter.1 hj).2
  · intro e _
    rfl
  · intro j hj
    exact (congrArg upd (hback j (Finset.mem_filter.1 hj).2)).symm

end RowScatter

section PointScatter

variable {P Q M w : Nat}

theorem points_start_add_window (d : ScatterDims ⟨2, ![P, Q]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (j : (⟨1, ![M]⟩ : Shape).Idx) :
    (d.start j idx 0 + (d.window j 0 : ℤ) = (idx (ix2 (j 0) (0 : Fin 2))).toInt) ∧
    (d.start j idx 1 + (d.window j 1 : ℤ) = (idx (ix2 (j 0) (1 : Fin 2))).toInt) := by
  obtain ⟨uw, iw, sd, iv, wf⟩ := d
  dsimp only at huw hiw hsd hivd
  subst huw hiw hsd hivd
  refine ⟨?_, ?_⟩
  · have h1 : ScatterDims.window ⟨[], [0, 1], [0, 1], 1, wf⟩ j 0 = 0 := rfl
    have h2 : ScatterDims.start ⟨[], [0, 1], [0, 1], 1, wf⟩ j idx 0 = (idx (ix2 (j 0) (0 : Fin 2))).toInt := by
      show (idx _).toInt = _
      congr 2
      funext b
      match b with
      | ⟨0, _⟩ => rfl
      | ⟨1, _⟩ => rfl
    rw [h1, h2]; simp
  · have h1 : ScatterDims.window ⟨[], [0, 1], [0, 1], 1, wf⟩ j 1 = 0 := rfl
    have h2 : ScatterDims.start ⟨[], [0, 1], [0, 1], 1, wf⟩ j idx 1 = (idx (ix2 (j 0) (1 : Fin 2))).toInt := by
      show (idx _).toInt = _
      congr 2
      funext b
      match b with
      | ⟨0, _⟩ => rfl
      | ⟨1, _⟩ => rfl
    rw [h1, h2]; simp

theorem points_resultIdx?_iff (d : ScatterDims ⟨2, ![P, Q]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (idx : IVec ⟨2, ![M, 2]⟩ w) (j : (⟨1, ![M]⟩ : Shape).Idx) (p : Fin P) (q : Fin Q) :
    d.resultIdx? j idx = some (ix2 p q)
      ↔ ((idx (ix2 (j 0) (0 : Fin 2))).toInt = (p.val : ℤ) ∧ (idx (ix2 (j 0) (1 : Fin 2))).toInt = (q.val : ℤ)) := by
  obtain ⟨h0, h1⟩ := points_start_add_window d huw hiw hsd hivd idx j
  unfold ScatterDims.resultIdx?
  constructor
  · intro h
    split at h
    · rename_i hc
      have hf := Option.some.inj h
      have e0 : (d.start j idx 0 + (d.window j 0 : ℤ)).toNat = p.val := congrArg (fun f => (f 0).val) hf
      have e1 : (d.start j idx 1 + (d.window j 1 : ℤ)).toNat = q.val := congrArg (fun f => (f 1).val) hf
      have c0 := (hc 0).1
      have c1 := (hc 1).1
      rw [h0] at e0 c0
      rw [h1] at e1 c1
      refine ⟨by omega, by omega⟩
    · exact absurd h (by simp)
  · rintro ⟨e0, e1⟩
    have hp : p.val < P := p.isLt
    have hq : q.val < Q := q.isLt
    have hc : ∀ a : Fin 2, 0 ≤ d.start j idx a + (d.window j a : ℤ)
        ∧ d.start j idx a + (d.window j a : ℤ) < ((⟨2, ![P, Q]⟩ : Shape).size a : ℤ) := by
      intro a
      match a with
      | ⟨0, _⟩ =>
        show 0 ≤ d.start j idx 0 + (d.window j 0 : ℤ) ∧ d.start j idx 0 + (d.window j 0 : ℤ) < (P : ℤ)
        rw [h0, e0]; omega
      | ⟨1, _⟩ =>
        show 0 ≤ d.start j idx 1 + (d.window j 1 : ℤ) ∧ d.start j idx 1 + (d.window j 1 : ℤ) < (Q : ℤ)
        rw [h1, e1]; omega
    rw [dif_pos hc]
    refine congrArg some ?_
    funext a
    match a with
    | ⟨0, _⟩ =>
      apply Fin.ext
      show (d.start j idx 0 + (d.window j 0 : ℤ)).toNat = p.val
      rw [h0, e0]; omega
    | ⟨1, _⟩ =>
      apply Fin.ext
      show (d.start j idx 1 + (d.window j 1 : ℤ)).toNat = q.val
      rw [h1, e1]; omega

theorem scatterAdd_points_apply {φ : FTy} (d : ScatterDims ⟨2, ![P, Q]⟩ ⟨2, ![M, 2]⟩ ⟨1, ![M]⟩)
    (huw : d.updateWindowDims = []) (hiw : d.insertedWindowDims = [0, 1])
    (hsd : d.scatterDimsToOperandDims = [0, 1]) (hivd : d.indexVectorDim = 1)
    (x : FVec Ideal ⟨2, ![P, Q]⟩ φ) (idx : IVec ⟨2, ![M, 2]⟩ w) (upd : FVec Ideal ⟨1, ![M]⟩ φ)
    (p : Fin P) (q : Fin Q) :
    Host.scatterAdd (F := Ideal) d x idx upd (ix2 p q)
      = x (ix2 p q) + ∑ e ∈ Finset.univ.filter (fun e : Fin M =>
          (idx (ix2 e (0 : Fin 2))).toInt = (p.val : ℤ) ∧ (idx (ix2 e (1 : Fin 2))).toInt = (q.val : ℤ)),
          upd (ix1 e) := by
  show Ideal.hostScatterAdd d x idx upd (ix2 p q) = _
  unfold Ideal.hostScatterAdd
  refine congrArg (x (ix2 p q) + ·) ?_
  have hiff := fun j => points_resultIdx?_iff d huw hiw hsd hivd idx j p q

  refine Finset.sum_bij' (fun j _ => j 0) (fun e _ => ix1 e) ?_ ?_ ?_ ?_ ?_
  · intro j hj
    exact Finset.mem_filter.2 ⟨Finset.mem_univ _, (hiff j).1 (Finset.mem_filter.1 hj).2⟩
  · intro e he
    exact Finset.mem_filter.2 ⟨Finset.mem_univ _, (hiff (ix1 e)).2 (Finset.mem_filter.1 he).2⟩
  · intro j _
    exact (eq_ix1 j).symm
  · intro e _
    rfl
  · intro j _
    exact congrArg upd (eq_ix1 j)

end PointScatter

end Cert.LibScatterGather3

end
-- ==== Proof.KiHostAdj.lean ====
import proofs.«423821_j61503931678798_3_alg».proof.Proof.Gen.KernelIdeal.Launch
import proofs.«423821_j61503931678798_3_alg».proof.Proof.Spec
import proofs.«423821_j61503931678798_3_alg».proof.Proof.Edges
import proofs.«423821_j61503931678798_3_alg».proof.Proof.Weights
import proofs.«423821_j61503931678798_3_alg».proof.Proof.LibScatterGather3
import Idealize.ShloMosaic.Lib.Pipeline.Value
import Idealize.ShloMosaic.Lib.ValueIdx
import Idealize.ShloMosaic.PureOps.Ideal.Laws

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Gcn

def srcVec (ei : IVec S2x160000 32) : IVec S170000 32 :=
  concatenate S170000 0 [⟨S160000, shapeCast S160000 (extractStridedSlice S1x160000 ![0, 0] ei slices_S2x160000_S1x160000_0_0) shapeCasts_S1x160000_S160000⟩, ⟨S10000, iotaInDim S10000 32 0⟩] concatenates_S160000_S10000_S170000_d0

def dstVec (ei : IVec S2x160000 32) : IVec S170000 32 :=
  concatenate S170000 0 [⟨S160000, shapeCast S160000 (extractStridedSlice S1x160000 ![1, 0] ei slices_S2x160000_S1x160000_1_0) shapeCasts_S1x160000_S160000⟩, ⟨S10000, iotaInDim S10000 32 0⟩] concatenates_S160000_S10000_S170000_d0

def wrapCol (K : BitVec 32) (v : IVec S170000 32) : IVec S170000x1 32 :=
  broadcastInDim S170000x1 ![0] bcast_S170000_S170000x1_0
    (select (cmpi .slt v (broadcastInDim S170000 ![] bcast_S_S170000 (constantI S_ 32 0#32)))
      (addi v (broadcastInDim S170000 ![] bcast_S_S170000 (constantI S_ 32 K))) v)

def dinvT (ei : IVec S2x160000 32) : FVec Ideal S10000 .f32 :=
  Host.powf (F := Ideal)
    (Host.scatterAdd (F := Ideal) scatter_S10000_S170000x1_S170000_n_0_0_1
      (broadcastInDim S10000 ![] bcast_S_S10000 (constant (F := Ideal) S_ .f32 0x00000000#32))
      (wrapCol 10000#32 (dstVec ei))
      (broadcastInDim S170000 ![] bcast_S_S170000 (constant (F := Ideal) S_ .f32 0x3F800000#32)))
    (broadcastInDim S10000 ![] bcast_S_S10000 (constant (F := Ideal) S_ .f32 0xBF000000#32))

def weightT (ei : IVec S2x160000 32) : FVec Ideal S170000 .f32 :=
  mulf (F := Ideal)
    (Host.gather gather_S10000_S170000x1_S170000_n_0_n_n_0_1_1 (dinvT ei) (wrapCol 10000#32 (srcVec ei)))
    (Host.gather gather_S10000_S170000x1_S170000_n_0_n_n_0_1_1 (dinvT ei) (wrapCol 10000#32 (dstVec ei)))

def adjT (ei : (⟨S2x160000, .i32⟩ : BufTy).Contents (Elt Ideal)) : (⟨S10240x10240, .bf16⟩ : BufTy).Contents (Elt Ideal) :=
  truncf .bf16
    (Host.scatterAdd (F := Ideal) scatter_S10240x10240_S170000x2_S170000_n_01_01_1
      (broadcastInDim S10240x10240 ![] bcast_S_S10240x10240 (constant (F := Ideal) S_ .f32 0x00000000#32))
      (concatenate S170000x2 1 [⟨S170000x1, wrapCol 10240#32 (dstVec ei)⟩, ⟨S170000x1, wrapCol 10240#32 (srcVec ei)⟩]
        concatenates_S170000x1_S170000x1_S170000x2_d1)
      (weightT ei))
    bitsLt_bf16_f32

set_option maxRecDepth 8192 in
set_option maxHeartbeats 54800000 in
theorem hostOps0_v48 (W : Valuation τ sig (Elt Ideal)) :
    StableHlo.after (hostOps0 (F := Ideal)) W (Proc.devRef .tc main_v48) = adjT (W (Proc.devRef .tc main_arg1)) := by
  show StableHlo.after hostOps0 W (Proc.devRef .tc main_v48) = _
  after_results_simp
  rfl

section AtAnEdge

variable (ei : IVec S2x160000 32) (hr : ∀ (r : Fin 2) (e : Fin 160000), (ei (ix2 r e)).toNat < 10000)

theorem wrapCol_src_toNat (K : BitVec 32) (e : Fin 170000) :
    (wrapCol K (srcVec ei) (ix2 e (0 : Fin 1))).toNat = (Cert.Edges.src2 ei hr e).val :=
  Cert.Edges.col_wrap_cat_toNat ei hr 0 ![0, 0] rfl slices_S2x160000_S1x160000_0_0 shapeCasts_S1x160000_S160000
    concatenates_S160000_S10000_S170000_d0 bcast_S_S170000 K bcast_S170000_S170000x1_0 e

theorem wrapCol_src_toInt (K : BitVec 32) (e : Fin 170000) :
    (wrapCol K (srcVec ei) (ix2 e (0 : Fin 1))).toInt = ((Cert.Edges.src2 ei hr e).val : ℤ) :=
  Cert.Edges.col_wrap_cat_toInt ei hr 0 ![0, 0] rfl slices_S2x160000_S1x160000_0_0 shapeCasts_S1x160000_S160000
    concatenates_S160000_S10000_S170000_d0 bcast_S_S170000 K bcast_S170000_S170000x1_0 e

theorem wrapCol_dst_toNat (K : BitVec 32) (e : Fin 170000) :
    (wrapCol K (dstVec ei) (ix2 e (0 : Fin 1))).toNat = (Cert.Edges.dst2 ei hr e).val :=
  Cert.Edges.col_wrap_cat_toNat ei hr 1 ![1, 0] rfl slices_S2x160000_S1x160000_1_0 shapeCasts_S1x160000_S160000
    concatenates_S160000_S10000_S170000_d0 bcast_S_S170000 K bcast_S170000_S170000x1_0 e

theorem wrapCol_dst_toInt (K : BitVec 32) (e : Fin 170000) :
    (wrapCol K (dstVec ei) (ix2 e (0 : Fin 1))).toInt = ((Cert.Edges.dst2 ei hr e).val : ℤ) :=
  Cert.Edges.col_wrap_cat_toInt ei hr 1 ![1, 0] rfl slices_S2x160000_S1x160000_1_0 shapeCasts_S1x160000_S160000
    concatenates_S160000_S10000_S170000_d0 bcast_S_S170000 K bcast_S170000_S170000x1_0 e

theorem weightT_apply (e : Fin 170000) :
    weightT ei (ix1 e) = weight (Cert.Edges.src2 ei hr) (Cert.Edges.dst2 ei hr) e :=
  Cert.Weights.weightT_apply scatter_S10000_S170000x1_S170000_n_0_0_1 gather_S10000_S170000x1_S170000_n_0_n_n_0_1_1
    bcast_S_S10000 bcast_S_S170000 (wrapCol 10000#32 (srcVec ei)) (wrapCol 10000#32 (dstVec ei))
    (Cert.Edges.src2 ei hr) (Cert.Edges.dst2 ei hr) rfl rfl rfl rfl rfl rfl rfl
    (wrapCol_src_toNat ei hr 10000#32) (wrapCol_dst_toNat ei hr 10000#32) e

end AtAnEdge

theorem pair_col0 (a b : IVec S170000x1 32) (e : Fin 170000) :
    concatenate S170000x2 1 [⟨S170000x1, a⟩, ⟨S170000x1, b⟩] concatenates_S170000x1_S170000x1_S170000x2_d1 (ix2 e (0 : Fin 2))
      = a (ix2 e (0 : Fin 1)) :=
  concatenate_pair_apply_left (1 : Fin S170000x2.rank) a b concatenates_S170000x1_S170000x1_S170000x2_d1 (ix2 e (0 : Fin 2)) rfl
    (ix2 e (0 : Fin 1)) (fun c => match c with
      | ⟨0, _⟩ => rfl
      | ⟨1, _⟩ => rfl)

theorem pair_col1 (a b : IVec S170000x1 32) (e : Fin 170000) :
    concatenate S170000x2 1 [⟨S170000x1, a⟩, ⟨S170000x1, b⟩] concatenates_S170000x1_S170000x1_S170000x2_d1 (ix2 e (1 : Fin 2))
      = b (ix2 e (0 : Fin 1)) :=
  concatenate_pair_apply_right (1 : Fin S170000x2.rank) a b concatenates_S170000x1_S170000x1_S170000x2_d1 (ix2 e (1 : Fin 2)) rfl rfl
    (ix2 e (0 : Fin 1)) (fun c hc => match c, hc with
      | ⟨0, _⟩, _ => rfl
      | ⟨1, _⟩, hc => absurd (Fin.ext rfl) hc)
    (by show 0 + 1 = 1; rfl)

theorem adjT_apply (ei : IVec S2x160000 32) (hr : ∀ (r : Fin 2) (e : Fin 160000), (ei (ix2 r e)).toNat < 10000)
    (n m : Fin 10240) :
    adjT ei (ix2 n m) = adj (Cert.Edges.src2 ei hr) (Cert.Edges.dst2 ei hr) n m := by
  unfold adjT
  rw [truncf_apply,
    Cert.LibScatterGather3.scatterAdd_points_apply scatter_S10240x10240_S170000x2_S170000_n_01_01_1 rfl rfl rfl rfl]
  unfold adj
  refine congrArg₂ (· + ·) rfl (Finset.sum_congr ?_ (fun e _ => weightT_apply ei hr e))
  ext e
  simp only [Finset.mem_filter, Finset.mem_univ, true_and]
  rw [pair_col0, pair_col1, wrapCol_dst_toInt ei hr, wrapCol_src_toInt ei hr]
  omega

theorem hostOps0_v48_apply (W : Valuation τ sig (Elt Ideal))
    (hr : ∀ (r : Fin 2) (e : Fin 160000),
      ((W (Proc.devRef .tc main_arg1) : (⟨S2x160000, .i32⟩ : BufTy).Contents (Elt Ideal)) (ix2 r e)).toNat < 10000)
    (n m : Fin 10240) :
    (StableHlo.after (hostOps0 (F := Ideal)) W (Proc.devRef .tc main_v48)
        : (⟨S10240x10240, .bf16⟩ : BufTy).Contents (Elt Ideal)) (ix2 n m)
      = adj (Cert.Edges.src2 (W (Proc.devRef .tc main_arg1)) hr) (Cert.Edges.dst2 (W (Proc.devRef .tc main_arg1)) hr) n m :=
  (congrFun (hostOps0_v48 W) (ix2 n m)).trans (adjT_apply (W (Proc.devRef .tc main_arg1)) hr n m)

end Cert.KernelIdeal.Hand

end
-- ==== Proof.KiCarry.lean ====
import proofs.«423821_j61503931678798_3_alg».proof.Proof.KiRun
import proofs.«423821_j61503931678798_3_alg».proof.Proof.KiHostLin
import proofs.«423821_j61503931678798_3_alg».proof.Proof.KiHostTail

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Gcn

variable (m : (ℓ : Loc nD τ sig) → Buf (Elt Ideal) ℓ) (ρ : Dev nD → PrngReg) (c : Dev nD)

theorem W11_keep (b : Ref sig .tc) (h2 : b ∉ writes2) (h21 : b ∉ writes2_1) (h22 : b ∉ writes2_2) (h23 : b ∉ writes2_3)
    (h24 : b ∉ writes2_4) : W11 m ρ c (Proc.devRef .tc b) = W6 m ρ c (Proc.devRef .tc b) :=
  (hostOps2_4_keep _ b h24).trans ((hostOps2_3_keep _ b h23).trans ((hostOps2_2_keep _ b h22).trans
    ((hostOps2_1_keep _ b h21).trans (hostOps2_keep _ b h2))))

theorem W4_in (w : Fin cfg0.W) (hin : (cfg0.win w).isOut = false) :
    W4 m ρ c (Proc.devRef .tc (Pipeline.arrRef spec0 w)) = W3 m ρ c (Proc.devRef .tc (Pipeline.arrRef spec0 w)) :=
  (W4_arr m ρ c w).trans (((dat0 (V3 m ρ) c).arrAt_in w hin cfg0.N).trans (A_eq0 (V3 m ρ) c w))
theorem W6_in (w : Fin cfg1.W) (hin : (cfg1.win w).isOut = false) :
    W6 m ρ c (Proc.devRef .tc (Pipeline.arrRef spec1 w)) = W5 m ρ c (Proc.devRef .tc (Pipeline.arrRef spec1 w)) :=
  (W6_arr m ρ c w).trans (((dat1 (V5 m ρ) c).arrAt_in w hin cfg1.N).trans (A_eq1 (V5 m ρ) c w))
theorem W1_v49 : W1 m ρ c (Proc.devRef .tc main_v49) = nodeMajor (m ((c : Thread nD τ).loc main_arg0)) := hostOps0_v49 _
theorem W1_c12 : W1 m ρ c (Proc.devRef .tc main_c_12) = (constantI S_ 32 0#32 : IVec S_ 32) := hostOps0_c12 _

theorem W2_v50 : W2 m ρ c (Proc.devRef .tc main_v50) = padRows (nodeMajor (m ((c : Thread nD τ).loc main_arg0))) (sitofp (F := Ideal) .f32 (constantI S_ 32 0#32 : IVec S_ 32)) :=
  (hostOps0_1_v50 _).trans (congrArg₂ padRows (W1_v49 m ρ c)
    (congrArg (fun z : IVec S_ 32 => (sitofp (F := Ideal) .f32 z : FVec Ideal S_ .f32)) (W1_c12 m ρ c)))
theorem W3_v55 : W3 m ρ c (Proc.devRef .tc main_v55) = lin1 (padRows (nodeMajor (m ((c : Thread nD τ).loc main_arg0))) (sitofp (F := Ideal) .f32 (constantI S_ 32 0#32 : IVec S_ 32))) (m ((c : Thread nD τ).loc main_arg2)) :=
  (hostOps0_2_v55 _).trans (congrArg₂ lin1 (W2_v50 m ρ c) (W2_arg m ρ c main_arg2 (by decide)))

theorem W3_v58 : W3 m ρ c (Proc.devRef .tc main_v58) = tile64 (m ((c : Thread nD τ).loc main_arg3)) :=
  (hostOps0_2_v58 _).trans (congrArg tile64 (W2_arg m ρ c main_arg3 (by decide)))

theorem W4_v59 : W4 m ρ c (Proc.devRef .tc main_v59) = (dat0 (V3 m ρ) c).arrAt 3 cfg0.N := W4_arr m ρ c 3

theorem W5_v65 : W5 m ρ c (Proc.devRef .tc main_v65) = lin2 (W4 m ρ c (Proc.devRef .tc main_v59)) (m ((c : Thread nD τ).loc main_arg4)) :=
  (hostOps1_v65 _).trans (congrArg (lin2 (W4 m ρ c (Proc.devRef .tc main_v59))) (W4_arg m ρ c main_arg4 (by decide)))

theorem W5_v68 : W5 m ρ c (Proc.devRef .tc main_v68) = tile64 (m ((c : Thread nD τ).loc main_arg5)) :=
  (hostOps1_v68 _).trans (congrArg tile64 (W4_arg m ρ c main_arg5 (by decide)))

theorem W6_v69 : W6 m ρ c (Proc.devRef .tc main_v69) = (dat1 (V5 m ρ) c).arrAt 3 cfg1.N := W6_arr m ρ c 3

theorem W7_v73 : W7 m ρ c (Proc.devRef .tc main_v73) = lin3 (W6 m ρ c (Proc.devRef .tc main_v69)) (m ((c : Thread nD τ).loc main_arg6)) :=
  (hostOps2_v73 _).trans (congrArg (lin3 (W6 m ρ c (Proc.devRef .tc main_v69))) (W6_arg m ρ c main_arg6 (by decide)))
theorem W7_c13 : W7 m ρ c (Proc.devRef .tc main_c_13) = (constantI S_ 32 0#32 : IVec S_ 32) := hostOps2_c13 _
theorem W8_v74 : W8 m ρ c (Proc.devRef .tc main_v74) = padFeat (lin3 (W6 m ρ c (Proc.devRef .tc main_v69)) (m ((c : Thread nD τ).loc main_arg6))) (sitofp (F := Ideal) .f32 (constantI S_ 32 0#32 : IVec S_ 32)) :=
  (hostOps2_1_v74 _).trans (congrArg₂ padFeat (W7_v73 m ρ c)
    (congrArg (fun z : IVec S_ 32 => (sitofp (F := Ideal) .f32 z : FVec Ideal S_ .f32)) (W7_c13 m ρ c)))
theorem W9_v76 : W9 m ρ c (Proc.devRef .tc main_v76) = flat16 (padFeat (lin3 (W6 m ρ c (Proc.devRef .tc main_v69)) (m ((c : Thread nD τ).loc main_arg6))) (sitofp (F := Ideal) .f32 (constantI S_ 32 0#32 : IVec S_ 32))) :=
  (hostOps2_2_v76 _).trans (congrArg flat16 (W8_v74 m ρ c))
theorem W9_c14 : W9 m ρ c (Proc.devRef .tc main_c_14) = (constantI S_ 32 0#32 : IVec S_ 32) := hostOps2_2_c14 _
theorem W10_v77 : W10 m ρ c (Proc.devRef .tc main_v77) = padBias (m ((c : Thread nD τ).loc main_arg7)) (sitofp (F := Ideal) .f32 (constantI S_ 32 0#32 : IVec S_ 32)) :=
  (hostOps2_3_v77 _).trans (congrArg₂ padBias (W9_arg m ρ c main_arg7 (by decide))
    (congrArg (fun z : IVec S_ 32 => (sitofp (F := Ideal) .f32 z : FVec Ideal S_ .f32)) (W9_c14 m ρ c)))

theorem W11_v76 : W11 m ρ c (Proc.devRef .tc main_v76) = flat16 (padFeat (lin3 (W6 m ρ c (Proc.devRef .tc main_v69)) (m ((c : Thread nD τ).loc main_arg6))) (sitofp (F := Ideal) .f32 (constantI S_ 32 0#32 : IVec S_ 32))) :=
  (hostOps2_4_keep _ main_v76 (by decide)).trans ((hostOps2_3_keep _ main_v76 (by decide)).trans (W9_v76 m ρ c))

theorem W11_v80 : W11 m ρ c (Proc.devRef .tc main_v80) = tile16 (padBias (m ((c : Thread nD τ).loc main_arg7)) (sitofp (F := Ideal) .f32 (constantI S_ 32 0#32 : IVec S_ 32))) :=
  (hostOps2_4_v80 _).trans (congrArg tile16 (W10_v77 m ρ c))

theorem W12_v81 : W12 m ρ c (Proc.devRef .tc main_v81) = (dat2 (V11 m ρ) c).arrAt 3 cfg2.N := W12_arr m ρ c 3

theorem Wlast_v86 : Wlast m ρ c (Proc.devRef .tc main_v86) = tail3 (W12 m ρ c (Proc.devRef .tc main_v81)) := hostOps3_v86 _

theorem V3_v55 : V3 m ρ c main_v55 = lin1 (padRows (nodeMajor (m ((c : Thread nD τ).loc main_arg0))) (sitofp (F := Ideal) .f32 (constantI S_ 32 0#32 : IVec S_ 32))) (m ((c : Thread nD τ).loc main_arg2)) := W3_v55 m ρ c
theorem V3_v58 : V3 m ρ c main_v58 = tile64 (m ((c : Thread nD τ).loc main_arg3)) := W3_v58 m ρ c
theorem V5_v65 : V5 m ρ c main_v65 = lin2 (W4 m ρ c (Proc.devRef .tc main_v59)) (m ((c : Thread nD τ).loc main_arg4)) := W5_v65 m ρ c
theorem V5_v68 : V5 m ρ c main_v68 = tile64 (m ((c : Thread nD τ).loc main_arg5)) := W5_v68 m ρ c
theorem V11_v76 : V11 m ρ c main_v76 = flat16 (padFeat (lin3 (W6 m ρ c (Proc.devRef .tc main_v69)) (m ((c : Thread nD τ).loc main_arg6))) (sitofp (F := Ideal) .f32 (constantI S_ 32 0#32 : IVec S_ 32))) := W11_v76 m ρ c
theorem V11_v80 : V11 m ρ c main_v80 = tile16 (padBias (m ((c : Thread nD τ).loc main_arg7)) (sitofp (F := Ideal) .f32 (constantI S_ 32 0#32 : IVec S_ 32))) := W11_v80 m ρ c

end Cert.KernelIdeal.Hand

end
-- ==== Proof.KiCarryAdj.lean ====
import proofs.«423821_j61503931678798_3_alg».proof.Proof.KiCarry
import proofs.«423821_j61503931678798_3_alg».proof.Proof.KiHostAdj

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Gcn

variable (m : (ℓ : Loc nD τ sig) → Buf (Elt Ideal) ℓ) (ρ : Dev nD → PrngReg) (c : Dev nD)

theorem W1_v48 : W1 m ρ c (Proc.devRef .tc main_v48) = adjT (m ((c : Thread nD τ).loc main_arg1)) := hostOps0_v48 _
theorem W3_v48 : W3 m ρ c (Proc.devRef .tc main_v48) = adjT (m ((c : Thread nD τ).loc main_arg1)) :=
  (hostOps0_2_keep _ main_v48 (by decide)).trans ((hostOps0_1_keep _ main_v48 (by decide)).trans (W1_v48 m ρ c))
theorem W4_v48 : W4 m ρ c (Proc.devRef .tc main_v48) = adjT (m ((c : Thread nD τ).loc main_arg1)) :=
  (W4_in m ρ c 0 rfl).trans (W3_v48 m ρ c)
theorem W5_v48 : W5 m ρ c (Proc.devRef .tc main_v48) = adjT (m ((c : Thread nD τ).loc main_arg1)) :=
  (hostOps1_keep _ main_v48 (by decide)).trans (W4_v48 m ρ c)
theorem W6_v48 : W6 m ρ c (Proc.devRef .tc main_v48) = adjT (m ((c : Thread nD τ).loc main_arg1)) :=
  (W6_in m ρ c 0 rfl).trans (W5_v48 m ρ c)
theorem W11_v48 : W11 m ρ c (Proc.devRef .tc main_v48) = adjT (m ((c : Thread nD τ).loc main_arg1)) :=
  (W11_keep m ρ c main_v48 (by decide) (by decide) (by decide) (by decide) (by decide)).trans (W6_v48 m ρ c)

theorem V3_v48 : V3 m ρ c main_v48 = adjT (m ((c : Thread nD τ).loc main_arg1)) := W3_v48 m ρ c
theorem V5_v48 : V5 m ρ c main_v48 = adjT (m ((c : Thread nD τ).loc main_arg1)) := W5_v48 m ρ c
theorem V11_v48 : V11 m ρ c main_v48 = adjT (m ((c : Thread nD τ).loc main_arg1)) := W11_v48 m ρ c

end Cert.KernelIdeal.Hand

end
-- ==== Proof.KiPay0.lean ====
import proofs.«423821_j61503931678798_3_alg».proof.Proof.Gen.KernelIdeal.Skeleton
import proofs.«423821_j61503931678798_3_alg».proof.Proof.Spec
import proofs.«423821_j61503931678798_3_alg».proof.Proof.LibPlainDot
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Hand

open Idealize.ShloMosaic Idealize.SL.Sem Idealize.ShloMosaic.ValueIdx Cert.KernelIdeal Cert.KernelIdeal.Gen

theorem k0_pay1_apply (r : Fin 512) (j : Fin 1024) : k0_pay1 (F := Ideal) (ix2 r j) = Cert.Gcn.zeroE := by
  unfold k0_pay1
  rw [shapeCast_self]
  rfl

theorem k0_pay2_apply (h : S512x1024.Idx → EReal) (acc : S512x1024.Idx → EReal) (a : S512x512.Idx → EReal)
    (r : Fin 512) (j : Fin 1024) :
    k0_pay2 (F := Ideal) h acc a (ix2 r j) = acc (ix2 r j) + ∑ q : Fin 512, a (ix2 r q) * h (ix2 q j) := by
  unfold k0_pay2
  rw [shapeCast_self, shapeCast_self, shapeCast_self]
  refine (addf_apply _ _ _).trans ?_
  exact congrArg (acc (ix2 r j) + ·) (Cert.PlainDot.matmul_zero_apply (φ₁ := .bf16) (φ₂ := .bf16) 512 512 1024 a h r j)

theorem rowTest0 (b : Fin 20) (r : Fin 512) :
    IntOp.cmpi .slt (IntOp.addi (Scalar.muli (BitVec.ofNat 32 b.val) 512#32) (BitVec.ofNat 32 r.val)) 10000#32 = 1#1
      ↔ 512 * b.val + r.val < 10000 := by
  have hb := b.isLt
  have hr := r.isLt
  have e : IntOp.addi (Scalar.muli (BitVec.ofNat 32 b.val) 512#32) (BitVec.ofNat 32 r.val) = BitVec.ofNat 32 (512 * b.val + r.val) := by
    apply BitVec.eq_of_toNat_eq
    simp only [IntOp.addi, Scalar.muli, IntOp.muli, BitVec.toNat_add, BitVec.toNat_mul, BitVec.toNat_ofNat]
    omega
  rw [e, StableHlo.Predicate.slt_iff_toNat (by simp only [BitVec.toNat_ofNat]; omega) (by decide)]
  simp only [BitVec.toNat_ofNat]
  omega

theorem k0_pay3_apply (i : grid0.Coords) (acc : S512x1024.Idx → EReal) (bias : S1024.Idx → EReal)
    (r : Fin 512) (j : Fin 1024) :
    k0_pay3 (F := Ideal) i acc bias (ix2 r j)
      = if 512 * (i 0).val + r.val < 10000 then max (acc (ix2 r j) + bias (ix1 j)) Cert.Gcn.zeroE else Cert.Gcn.zeroE := by
  unfold k0_pay3

  try rw [shapeCast_self]
  refine (select_apply _ _ _ _).trans ?_
  have hc : cmpi .slt (addi (broadcast S512x1024 (Scalar.muli (BitVec.ofNat 32 (i 0).val) 512#32)) (iota .tc S512x1024 32 [0] iota_S512x1024_d0_w32)) (broadcast S512x1024 10000#32) (ix2 r j)
      = IntOp.cmpi .slt (IntOp.addi (Scalar.muli (BitVec.ofNat 32 (i 0).val) 512#32) (BitVec.ofNat 32 r.val)) 10000#32 := by
    show IntOp.cmpi .slt (IntOp.addi _ (iota .tc S512x1024 32 [0] iota_S512x1024_d0_w32 (ix2 r j))) _ = _
    rw [iota_single_apply]
    rfl
  have hb : broadcastTo S512x1024 (shapeCast S1x1024 bias shapeCasts_S1024_S1x1024) broadcasts_S1x1024_S512x1024 (ix2 r j) = bias (ix1 j) :=
    (broadcastTo_1b_ab_apply _ _ r j).trans (shapeCast_a_1a_apply bias _ 0 j)
  by_cases hlt : 512 * (i 0).val + r.val < 10000
  · rw [if_pos hlt, hc, (rowTest0 (i 0) r).mpr hlt, select_one]
    refine (maximumf_apply _ _ _).trans ?_
    exact congrArg (max · Cert.Gcn.zeroE) ((addf_apply _ _ _).trans (congrArg (acc (ix2 r j) + ·) hb))
  · rw [if_neg hlt, hc, eq_zero_of_ne_one (fun h1 => hlt ((rowTest0 (i 0) r).mp h1)), select_zero]
    rfl

end Cert.KernelIdeal.Hand

end
-- ==== Proof.KiBlockSum.lean ====
import Mathlib.Algebra.BigOperators.Fin
import Mathlib.Logic.Equiv.Fin.Basic

namespace Cert.KernelIdeal.Hand

open Finset

variable {M : Type*} [AddCommMonoid M]

abbrev upTo (k : ℕ) : Finset (Fin 20) := Finset.univ.filter (fun s : Fin 20 => s.val ≤ k)

theorem sum_upTo_zero (g : Fin 20 → M) : ∑ s ∈ upTo 0, g s = g ⟨0, by omega⟩ := by
  have e : upTo 0 = {(⟨0, by omega⟩ : Fin 20)} := by
    ext s
    simp only [upTo, Finset.mem_filter, Finset.mem_univ, true_and, Finset.mem_singleton, Fin.ext_iff]
    omega
  rw [e, Finset.sum_singleton]

theorem sum_upTo_succ (g : Fin 20 → M) (k : ℕ) (hk : k + 1 < 20) :
    ∑ s ∈ upTo (k + 1), g s = (∑ s ∈ upTo k, g s) + g ⟨k + 1, hk⟩ := by
  have e : upTo (k + 1) = insert (⟨k + 1, hk⟩ : Fin 20) (upTo k) := by
    ext s
    simp only [upTo, Finset.mem_filter, Finset.mem_univ, true_and, Finset.mem_insert, Fin.ext_iff]
    omega
  have hn : (⟨k + 1, hk⟩ : Fin 20) ∉ upTo k := by
    simp only [upTo, Finset.mem_filter, Finset.mem_univ, true_and]
    omega
  rw [e, Finset.sum_insert hn, add_comm]

theorem sum_upTo_last (g : Fin 20 → M) : ∑ s ∈ upTo 19, g s = ∑ s : Fin 20, g s := by
  have e : upTo 19 = Finset.univ := by
    ext s
    simp only [upTo, Finset.mem_filter, Finset.mem_univ, true_and, iff_true]
    omega
  rw [e]

theorem sum_blocks_20_512 (f : Fin 10240 → M) :
    ∑ s : Fin 20, ∑ q : Fin 512, f ⟨512 * s.val + q.val, by omega⟩ = ∑ m : Fin 10240, f m := by
  rw [← Fintype.sum_prod_type']
  refine Fintype.sum_equiv (finProdFinEquiv.trans (finCongr (show 20 * 512 = 10240 from rfl))) _ _ ?_
  rintro ⟨s, q⟩
  refine congrArg f (Fin.ext ?_)
  simp only [Equiv.trans_apply, finProdFinEquiv_apply_val, finCongr_apply, Fin.val_cast]
  omega

end Cert.KernelIdeal.Hand
-- ==== Proof.KiRegionValue0.lean ====
import proofs.«423821_j61503931678798_3_alg».proof.Proof.KiDat0
import proofs.«423821_j61503931678798_3_alg».proof.Proof.KiPay0
import proofs.«423821_j61503931678798_3_alg».proof.Proof.KiBlockSum
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

abbrev aArr0 (c : Dev nD) : S10240x10240.Idx → EReal := V c main_v48
abbrev hArr0 (c : Dev nD) : S10240x1024.Idx → EReal := V c main_v55
abbrev bArr0 (c : Dev nD) : S1024.Idx → EReal := V c main_v58

abbrev row0 (b : Fin 20) (r : Fin 512) : Fin 10240 := ⟨512 * b.val + r.val, by omega⟩

theorem idx_facts0 : ∀ t : Fin cfg0.N,
    win0_0.index t (0 : Fin 2) = (grid0.coords t 0).val ∧ win0_0.index t (1 : Fin 2) = (grid0.coords t 1).val
    ∧ win0_1.index t (0 : Fin 2) = 0 ∧ win0_1.index t (1 : Fin 2) = 0
    ∧ win0_2.index t (0 : Fin 1) = 0
    ∧ win0_3.index t (0 : Fin 2) = (grid0.coords t 0).val ∧ win0_3.index t (1 : Fin 2) = 0
    ∧ (grid0.coords t 0).val = t.val / 20 ∧ (grid0.coords t 1).val = t.val % 20 :=
  (by decide +kernel : ∀ t : Fin grid0.N, _)

theorem ablk0_apply (c : Dev nD) (t : Fin cfg0.N) (r q : Fin 512) :
    View.ld (ablk0 V c t) rA0 (ix2 r q) = aArr0 V c (ix2 (row0 (grid0.coords t 0) r) (row0 (grid0.coords t 1) q)) := by
  obtain ⟨e0, e1, -⟩ := idx_facts0 t
  show V c main_v48 (((cfg0.win 0).blk t).view.emb (rA0.idx (ix2 r q))) = V c main_v48 _
  refine congrArg (V c main_v48) (funext fun a => Fin.ext ?_)
  match a with
  | ⟨0, _⟩ => show win0_0.index t (0 : Fin 2) * 512 + 1 * (0 + 1 * r.val) = 512 * (grid0.coords t 0).val + r.val; omega
  | ⟨1, _⟩ => show win0_0.index t (1 : Fin 2) * 512 + 1 * (0 + 1 * q.val) = 512 * (grid0.coords t 1).val + q.val; omega

theorem hrows0_apply (c : Dev nD) (t : Fin cfg0.N) (q : Fin 512) (j : Fin 1024) :
    View.ld (hblk0 V c t) (rH0 (grid0.coords t)) (ix2 q j) = hArr0 V c (ix2 (row0 (grid0.coords t 1) q) j) := by
  obtain ⟨-, -, e2, e3, -⟩ := idx_facts0 t
  have o0 : k0_off1 (grid0.coords t) 0 = 512 * (grid0.coords t 1).val := congrFun (k0_off1_eq (grid0.coords t)) 0
  have o1 : k0_off1 (grid0.coords t) 1 = 0 := congrFun (k0_off1_eq (grid0.coords t)) 1
  show V c main_v55 (((cfg0.win 1).blk t).view.emb ((rH0 (grid0.coords t)).idx (ix2 q j))) = V c main_v55 _
  refine congrArg (V c main_v55) (funext fun a => Fin.ext ?_)
  match a with
  | ⟨0, _⟩ => show win0_1.index t (0 : Fin 2) * 10240 + 1 * (k0_off1 (grid0.coords t) 0 + 1 * q.val) = 512 * (grid0.coords t 1).val + q.val; omega
  | ⟨1, _⟩ => show win0_1.index t (1 : Fin 2) * 1024 + 1 * (k0_off1 (grid0.coords t) 1 + 1 * j.val) = j.val; omega

theorem bias0_apply (c : Dev nD) (t : Fin cfg0.N) (j : Fin 1024) :
    View.ld (bblk0 V c t) rB0 (ix1 j) = bArr0 V c (ix1 j) := by
  obtain ⟨-, -, -, -, e4, -⟩ := idx_facts0 t
  show V c main_v58 (((cfg0.win 2).blk t).view.emb (rB0.idx (ix1 j))) = V c main_v58 _
  refine congrArg (V c main_v58) (funext fun a => Fin.ext ?_)
  match a with
  | ⟨0, _⟩ => show win0_2.index t (0 : Fin 1) * 1024 + 1 * (0 + 1 * j.val) = j.val; omega

abbrev term0 (c : Dev nD) (b : Fin 20) (r : Fin 512) (j : Fin 1024) (s : Fin 20) : EReal :=
  ∑ q : Fin 512, aArr0 V c (ix2 (row0 b r) (row0 s q)) * hArr0 V c (ix2 (row0 s q) j)

theorem step0 (c : Dev nD) (t : Fin cfg0.N) (acc : S512x1024.Idx → EReal) (r : Fin 512) (j : Fin 1024) :
    k0_pay2 (F := Ideal) (View.ld (hblk0 V c t) (rH0 (grid0.coords t))) acc (View.ld (ablk0 V c t) rA0) (ix2 r j)
      = acc (ix2 r j) + term0 V c (grid0.coords t 0) r j (grid0.coords t 1) := by
  refine (k0_pay2_apply _ _ _ r j).trans ?_
  exact congrArg (acc (ix2 r j) + ·) (Finset.sum_congr rfl fun q _ =>
    congrArg₂ (· * ·) (ablk0_apply V c t r q) (hrows0_apply V c t q j))

theorem scr0_closed_first (c : Dev nD) (t : Fin cfg0.N) (h : t.val % 20 = 0) (r : Fin 512) (j : Fin 1024) :
    scr0 V c t.val t.isLt (ix2 r j) = ∑ s ∈ upTo (t.val % 20), term0 V c (grid0.coords t 0) r j s := by
  obtain ⟨-, -, -, -, -, -, -, -, e8⟩ := idx_facts0 t
  rw [scr0_first V c t h]
  refine (step0 V c t _ r j).trans ?_
  rw [k0_pay1_apply, show Cert.Gcn.zeroE = 0 from Ideal.ofBits_zero_f32, zero_add, h, sum_upTo_zero]
  exact congrArg (term0 V c (grid0.coords t 0) r j) (Fin.ext (e8.trans h))

theorem scr0_closed_next (c : Dev nD) (t : Fin cfg0.N) (h : ¬t.val % 20 = 0) (r : Fin 512) (j : Fin 1024)
    (ih : ∀ (r : Fin 512) (j : Fin 1024),
      scr0 V c (t.val - 1) (Nat.lt_of_le_of_lt (Nat.sub_le _ _) t.isLt) (ix2 r j)
        = ∑ s ∈ upTo ((t.val - 1) % 20),
            term0 V c (grid0.coords ⟨t.val - 1, Nat.lt_of_le_of_lt (Nat.sub_le _ _) t.isLt⟩ 0) r j s) :
    scr0 V c t.val t.isLt (ix2 r j) = ∑ s ∈ upTo (t.val % 20), term0 V c (grid0.coords t 0) r j s := by
  obtain ⟨-, -, -, -, -, -, -, e7, e8⟩ := idx_facts0 t
  obtain ⟨-, -, -, -, -, -, -, e7', -⟩ := idx_facts0 ⟨t.val - 1, Nat.lt_of_le_of_lt (Nat.sub_le _ _) t.isLt⟩
  have e7'' : (grid0.coords ⟨t.val - 1, Nat.lt_of_le_of_lt (Nat.sub_le _ _) t.isLt⟩ 0).val = (t.val - 1) / 20 := e7'
  have hb : grid0.coords ⟨t.val - 1, Nat.lt_of_le_of_lt (Nat.sub_le _ _) t.isLt⟩ 0 = grid0.coords t 0 :=
    Fin.ext (by rw [e7, e7'']; omega)
  have hk : t.val % 20 = (t.val - 1) % 20 + 1 := by omega
  have hk' : (t.val - 1) % 20 + 1 < 20 := by omega
  rw [scr0_next V c t h]
  refine (step0 V c t _ r j).trans ?_
  rw [ih r j, hb, hk, sum_upTo_succ _ _ hk']
  exact congrArg (_ + ·) (congrArg (term0 V c (grid0.coords t 0) r j) (Fin.ext (e8.trans hk)))

theorem scr0_closed (c : Dev nD) : ∀ (n : ℕ) (hn : n < cfg0.N) (r : Fin 512) (j : Fin 1024),
    scr0 V c n hn (ix2 r j) = ∑ s ∈ upTo (n % 20), term0 V c (grid0.coords ⟨n, hn⟩ 0) r j s
  | 0, hn, r, j => scr0_closed_first V c ⟨0, hn⟩ rfl r j
  | n + 1, hn, r, j => by
    by_cases h : (n + 1) % 20 = 0
    · exact scr0_closed_first V c ⟨n + 1, hn⟩ h r j
    · exact scr0_closed_next V c ⟨n + 1, hn⟩ h r j (fun r j => scr0_closed c n _ r j)

theorem sum_all0 (c : Dev nD) (b : Fin 20) (r : Fin 512) (j : Fin 1024) :
    ∑ s ∈ upTo 19, term0 V c b r j s = ∑ m : Fin 10240, aArr0 V c (ix2 (row0 b r) m) * hArr0 V c (ix2 m j) :=
  (sum_upTo_last _).trans (sum_blocks_20_512 (fun m => aArr0 V c (ix2 (row0 b r) m) * hArr0 V c (ix2 m j)))

def regionOut0 (A : S10240x10240.Idx → EReal) (H : S10240x1024.Idx → EReal) (bias : S1024.Idx → EReal) :
    S10240x1024.Idx → EReal := fun i =>
  if (i 0).val < 10000 then max ((∑ m : Fin 10240, A (ix2 (i 0) m) * H (ix2 m (i 1))) + bias (ix1 (i 1))) Cert.Gcn.zeroE
  else Cert.Gcn.zeroE

theorem regionOut0_apply (A : S10240x10240.Idx → EReal) (H : S10240x1024.Idx → EReal) (bias : S1024.Idx → EReal)
    (n : Fin 10240) (j : Fin 1024) :
    regionOut0 A H bias (ix2 n j)
      = if n.val < 10000 then max ((∑ m : Fin 10240, A (ix2 n m) * H (ix2 m j)) + bias (ix1 j)) Cert.Gcn.zeroE
        else Cert.Gcn.zeroE := rfl

theorem flushed0_eq (c : Dev nD) (t : Fin cfg0.N) (hf : (cfg0.win 3).flush t = true) :
    (dat0 V c).flushed 3 t
      = ((cfg0.win 3).blk t).view.read (Elt Ideal) (regionOut0 (aArr0 V c) (hArr0 V c) (bArr0 V c)) := by
  have h19 : t.val % 20 = 19 := (flush0_3 t).mp hf
  obtain ⟨-, -, -, -, -, e5, e6, -⟩ := idx_facts0 t
  show (cfg0.win 3).cut (grid0.coords t) ((dat0 V c).after 3 t) = _
  rw [after0_3]
  funext y
  obtain ⟨r, j, rfl⟩ : ∃ (r : Fin 512) (j : Fin 1024), y = ix2 r j := ⟨y 0, y 1, eq_ix2 y⟩
  have hemb : ((cfg0.win 3).blk t).view.emb (ix2 r j) = ix2 (row0 (grid0.coords t 0) r) j := funext fun a => Fin.ext (by
    match a with
    | ⟨0, _⟩ => show win0_3.index t (0 : Fin 2) * 512 + 1 * r.val = 512 * (grid0.coords t 0).val + r.val; omega
    | ⟨1, _⟩ => show win0_3.index t (1 : Fin 2) * 1024 + 1 * j.val = j.val; omega)
  show k0_pay3 (F := Ideal) (grid0.coords t) (scr0 V c t.val t.isLt) (View.ld (bblk0 V c t) rB0) (ix2 r j)
    = regionOut0 (aArr0 V c) (hArr0 V c) (bArr0 V c) (((cfg0.win 3).blk t).view.emb (ix2 r j))
  rw [hemb, regionOut0_apply]
  refine (k0_pay3_apply (grid0.coords t) _ _ r j).trans ?_
  rw [bias0_apply V c t j, scr0_closed V c t.val t.isLt r j, h19]
  exact congrArg (fun x => if 512 * (grid0.coords t 0).val + r.val < 10000 then max (x + bArr0 V c (ix1 j)) Cert.Gcn.zeroE
    else Cert.Gcn.zeroE) (sum_all0 V c (grid0.coords t 0) r j)

theorem cover0 (i : S10240x1024.Idx) :
    ∃ t : Fin cfg0.N, (cfg0.win 3).flush t = true ∧ i ∈ ((cfg0.win 3).blk t).view.set := by
  have hi0 : (i 0).val < 10240 := (i 0).isLt
  have hi1 : (i 1).val < 1024 := (i 1).isLt
  have hN : cfg0.N = 400 := N_0
  have htN : 20 * ((i 0).val / 512) + 19 < cfg0.N := by rw [hN]; omega
  obtain ⟨-, -, -, -, -, e5, e6, e7, -⟩ := idx_facts0 ⟨20 * ((i 0).val / 512) + 19, htN⟩
  have e7' : (grid0.coords ⟨20 * ((i 0).val / 512) + 19, htN⟩ 0).val = (20 * ((i 0).val / 512) + 19) / 20 := e7
  refine ⟨⟨20 * ((i 0).val / 512) + 19, htN⟩, (flush0_3 _).mpr (by show (20 * ((i 0).val / 512) + 19) % 20 = 19; omega), ?_⟩
  show i ∈ ((View.whole main_v59).slice (win0_3.rect ⟨20 * ((i 0).val / 512) + 19, htN⟩)).set
  rw [View.set_slice_whole, Rect.mem_set_unit]
  intro a
  match a with
  | ⟨0, _⟩ =>
    show win0_3.index ⟨20 * ((i 0).val / 512) + 19, htN⟩ (0 : Fin 2) * 512 ≤ (i 0).val
      ∧ (i 0).val < win0_3.index ⟨20 * ((i 0).val / 512) + 19, htN⟩ (0 : Fin 2) * 512 + 512
    rw [e5, e7']; omega
  | ⟨1, _⟩ =>
    show win0_3.index ⟨20 * ((i 0).val / 512) + 19, htN⟩ (1 : Fin 2) * 1024 ≤ (i 1).val
      ∧ (i 1).val < win0_3.index ⟨20 * ((i 0).val / 512) + 19, htN⟩ (1 : Fin 2) * 1024 + 1024
    rw [e6]; omega

theorem region0_out (c : Dev nD) :
    (dat0 (F := Ideal) V c).arrAt 3 cfg0.N = regionOut0 (V c main_v48) (V c main_v55) (V c main_v58) :=
  (dat0 (F := Ideal) V c).arrAt_eq_of_cover 3 (regionOut0 (aArr0 V c) (hArr0 V c) (bArr0 V c))
    (fun t hf => flushed0_eq V c t hf) cover0

end Cert.KernelIdeal.Hand

end
-- ==== Proof.KiPay1.lean ====
import proofs.«423821_j61503931678798_3_alg».proof.Proof.Gen.KernelIdeal.Skeleton
import proofs.«423821_j61503931678798_3_alg».proof.Proof.Spec
import proofs.«423821_j61503931678798_3_alg».proof.Proof.LibPlainDot
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Hand

open Idealize.ShloMosaic Idealize.SL.Sem Idealize.ShloMosaic.ValueIdx Cert.KernelIdeal Cert.KernelIdeal.Gen

theorem k1_pay1_apply (r : Fin 512) (j : Fin 1024) : k1_pay1 (F := Ideal) (ix2 r j) = Cert.Gcn.zeroE := by
  unfold k1_pay1
  rw [shapeCast_self]
  rfl

theorem k1_pay2_apply (h : S512x1024.Idx → EReal) (acc : S512x1024.Idx → EReal) (a : S512x512.Idx → EReal)
    (r : Fin 512) (j : Fin 1024) :
    k1_pay2 (F := Ideal) h acc a (ix2 r j) = acc (ix2 r j) + ∑ q : Fin 512, a (ix2 r q) * h (ix2 q j) := by
  unfold k1_pay2
  rw [shapeCast_self, shapeCast_self, shapeCast_self]
  refine (addf_apply _ _ _).trans ?_
  exact congrArg (acc (ix2 r j) + ·) (Cert.PlainDot.matmul_zero_apply (φ₁ := .bf16) (φ₂ := .bf16) 512 512 1024 a h r j)

theorem rowTest1 (b : Fin 20) (r : Fin 512) :
    IntOp.cmpi .slt (IntOp.addi (Scalar.muli (BitVec.ofNat 32 b.val) 512#32) (BitVec.ofNat 32 r.val)) 10000#32 = 1#1
      ↔ 512 * b.val + r.val < 10000 := by
  have hb := b.isLt
  have hr := r.isLt
  have e : IntOp.addi (Scalar.muli (BitVec.ofNat 32 b.val) 512#32) (BitVec.ofNat 32 r.val) = BitVec.ofNat 32 (512 * b.val + r.val) := by
    apply BitVec.eq_of_toNat_eq
    simp only [IntOp.addi, Scalar.muli, IntOp.muli, BitVec.toNat_add, BitVec.toNat_mul, BitVec.toNat_ofNat]
    omega
  rw [e, StableHlo.Predicate.slt_iff_toNat (by simp only [BitVec.toNat_ofNat]; omega) (by decide)]
  simp only [BitVec.toNat_ofNat]
  omega

theorem k1_pay3_apply (i : grid1.Coords) (acc : S512x1024.Idx → EReal) (bias : S1024.Idx → EReal)
    (r : Fin 512) (j : Fin 1024) :
    k1_pay3 (F := Ideal) i acc bias (ix2 r j)
      = if 512 * (i 0).val + r.val < 10000 then max (acc (ix2 r j) + bias (ix1 j)) Cert.Gcn.zeroE else Cert.Gcn.zeroE := by
  unfold k1_pay3

  try rw [shapeCast_self]
  refine (select_apply _ _ _ _).trans ?_
  have hc : cmpi .slt (addi (broadcast S512x1024 (Scalar.muli (BitVec.ofNat 32 (i 0).val) 512#32)) (iota .tc S512x1024 32 [0] iota_S512x1024_d0_w32)) (broadcast S512x1024 10000#32) (ix2 r j)
      = IntOp.cmpi .slt (IntOp.addi (Scalar.muli (BitVec.ofNat 32 (i 0).val) 512#32) (BitVec.ofNat 32 r.val)) 10000#32 := by
    show IntOp.cmpi .slt (IntOp.addi _ (iota .tc S512x1024 32 [0] iota_S512x1024_d0_w32 (ix2 r j))) _ = _
    rw [iota_single_apply]
    rfl
  have hb : broadcastTo S512x1024 (shapeCast S1x1024 bias shapeCasts_S1024_S1x1024) broadcasts_S1x1024_S512x1024 (ix2 r j) = bias (ix1 j) :=
    (broadcastTo_1b_ab_apply _ _ r j).trans (shapeCast_a_1a_apply bias _ 0 j)
  by_cases hlt : 512 * (i 0).val + r.val < 10000
  · rw [if_pos hlt, hc, (rowTest1 (i 0) r).mpr hlt, select_one]
    refine (maximumf_apply _ _ _).trans ?_
    exact congrArg (max · Cert.Gcn.zeroE) ((addf_apply _ _ _).trans (congrArg (acc (ix2 r j) + ·) hb))
  · rw [if_neg hlt, hc, eq_zero_of_ne_one (fun h1 => hlt ((rowTest1 (i 0) r).mp h1)), select_zero]
    rfl

end Cert.KernelIdeal.Hand

end
-- ==== Proof.KiRegionValue1.lean ====
import proofs.«423821_j61503931678798_3_alg».proof.Proof.KiDat1
import proofs.«423821_j61503931678798_3_alg».proof.Proof.KiPay1
import proofs.«423821_j61503931678798_3_alg».proof.Proof.KiBlockSum
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

abbrev aArr1 (c : Dev nD) : S10240x10240.Idx → EReal := V c main_v48
abbrev hArr1 (c : Dev nD) : S10240x1024.Idx → EReal := V c main_v65
abbrev bArr1 (c : Dev nD) : S1024.Idx → EReal := V c main_v68

abbrev row1 (b : Fin 20) (r : Fin 512) : Fin 10240 := ⟨512 * b.val + r.val, by omega⟩

theorem idx_facts1 : ∀ t : Fin cfg1.N,
    win1_0.index t (0 : Fin 2) = (grid1.coords t 0).val ∧ win1_0.index t (1 : Fin 2) = (grid1.coords t 1).val
    ∧ win1_1.index t (0 : Fin 2) = 0 ∧ win1_1.index t (1 : Fin 2) = 0
    ∧ win1_2.index t (0 : Fin 1) = 0
    ∧ win1_3.index t (0 : Fin 2) = (grid1.coords t 0).val ∧ win1_3.index t (1 : Fin 2) = 0
    ∧ (grid1.coords t 0).val = t.val / 20 ∧ (grid1.coords t 1).val = t.val % 20 :=
  (by decide +kernel : ∀ t : Fin grid1.N, _)

theorem ablk1_apply (c : Dev nD) (t : Fin cfg1.N) (r q : Fin 512) :
    View.ld (ablk1 V c t) rA1 (ix2 r q) = aArr1 V c (ix2 (row1 (grid1.coords t 0) r) (row1 (grid1.coords t 1) q)) := by
  obtain ⟨e0, e1, -⟩ := idx_facts1 t
  show V c main_v48 (((cfg1.win 0).blk t).view.emb (rA1.idx (ix2 r q))) = V c main_v48 _
  refine congrArg (V c main_v48) (funext fun a => Fin.ext ?_)
  match a with
  | ⟨0, _⟩ => show win1_0.index t (0 : Fin 2) * 512 + 1 * (0 + 1 * r.val) = 512 * (grid1.coords t 0).val + r.val; omega
  | ⟨1, _⟩ => show win1_0.index t (1 : Fin 2) * 512 + 1 * (0 + 1 * q.val) = 512 * (grid1.coords t 1).val + q.val; omega

theorem hrows1_apply (c : Dev nD) (t : Fin cfg1.N) (q : Fin 512) (j : Fin 1024) :
    View.ld (hblk1 V c t) (rH1 (grid1.coords t)) (ix2 q j) = hArr1 V c (ix2 (row1 (grid1.coords t 1) q) j) := by
  obtain ⟨-, -, e2, e3, -⟩ := idx_facts1 t
  have o0 : k1_off1 (grid1.coords t) 0 = 512 * (grid1.coords t 1).val := congrFun (k1_off1_eq (grid1.coords t)) 0
  have o1 : k1_off1 (grid1.coords t) 1 = 0 := congrFun (k1_off1_eq (grid1.coords t)) 1
  show V c main_v65 (((cfg1.win 1).blk t).view.emb ((rH1 (grid1.coords t)).idx (ix2 q j))) = V c main_v65 _
  refine congrArg (V c main_v65) (funext fun a => Fin.ext ?_)
  match a with
  | ⟨0, _⟩ => show win1_1.index t (0 : Fin 2) * 10240 + 1 * (k1_off1 (grid1.coords t) 0 + 1 * q.val) = 512 * (grid1.coords t 1).val + q.val; omega
  | ⟨1, _⟩ => show win1_1.index t (1 : Fin 2) * 1024 + 1 * (k1_off1 (grid1.coords t) 1 + 1 * j.val) = j.val; omega

theorem bias1_apply (c : Dev nD) (t : Fin cfg1.N) (j : Fin 1024) :
    View.ld (bblk1 V c t) rB1 (ix1 j) = bArr1 V c (ix1 j) := by
  obtain ⟨-, -, -, -, e4, -⟩ := idx_facts1 t
  show V c main_v68 (((cfg1.win 2).blk t).view.emb (rB1.idx (ix1 j))) = V c main_v68 _
  refine congrArg (V c main_v68) (funext fun a => Fin.ext ?_)
  match a with
  | ⟨0, _⟩ => show win1_2.index t (0 : Fin 1) * 1024 + 1 * (0 + 1 * j.val) = j.val; omega

abbrev term1 (c : Dev nD) (b : Fin 20) (r : Fin 512) (j : Fin 1024) (s : Fin 20) : EReal :=
  ∑ q : Fin 512, aArr1 V c (ix2 (row1 b r) (row1 s q)) * hArr1 V c (ix2 (row1 s q) j)

theorem step1 (c : Dev nD) (t : Fin cfg1.N) (acc : S512x1024.Idx → EReal) (r : Fin 512) (j : Fin 1024) :
    k1_pay2 (F := Ideal) (View.ld (hblk1 V c t) (rH1 (grid1.coords t))) acc (View.ld (ablk1 V c t) rA1) (ix2 r j)
      = acc (ix2 r j) + term1 V c (grid1.coords t 0) r j (grid1.coords t 1) := by
  refine (k1_pay2_apply _ _ _ r j).trans ?_
  exact congrArg (acc (ix2 r j) + ·) (Finset.sum_congr rfl fun q _ =>
    congrArg₂ (· * ·) (ablk1_apply V c t r q) (hrows1_apply V c t q j))

theorem scr1_closed_first (c : Dev nD) (t : Fin cfg1.N) (h : t.val % 20 = 0) (r : Fin 512) (j : Fin 1024) :
    scr1 V c t.val t.isLt (ix2 r j) = ∑ s ∈ upTo (t.val % 20), term1 V c (grid1.coords t 0) r j s := by
  obtain ⟨-, -, -, -, -, -, -, -, e8⟩ := idx_facts1 t
  rw [scr1_first V c t h]
  refine (step1 V c t _ r j).trans ?_
  rw [k1_pay1_apply, show Cert.Gcn.zeroE = 0 from Ideal.ofBits_zero_f32, zero_add, h, sum_upTo_zero]
  exact congrArg (term1 V c (grid1.coords t 0) r j) (Fin.ext (e8.trans h))

theorem scr1_closed_next (c : Dev nD) (t : Fin cfg1.N) (h : ¬t.val % 20 = 0) (r : Fin 512) (j : Fin 1024)
    (ih : ∀ (r : Fin 512) (j : Fin 1024),
      scr1 V c (t.val - 1) (Nat.lt_of_le_of_lt (Nat.sub_le _ _) t.isLt) (ix2 r j)
        = ∑ s ∈ upTo ((t.val - 1) % 20),
            term1 V c (grid1.coords ⟨t.val - 1, Nat.lt_of_le_of_lt (Nat.sub_le _ _) t.isLt⟩ 0) r j s) :
    scr1 V c t.val t.isLt (ix2 r j) = ∑ s ∈ upTo (t.val % 20), term1 V c (grid1.coords t 0) r j s := by
  obtain ⟨-, -, -, -, -, -, -, e7, e8⟩ := idx_facts1 t
  obtain ⟨-, -, -, -, -, -, -, e7', -⟩ := idx_facts1 ⟨t.val - 1, Nat.lt_of_le_of_lt (Nat.sub_le _ _) t.isLt⟩
  have e7'' : (grid1.coords ⟨t.val - 1, Nat.lt_of_le_of_lt (Nat.sub_le _ _) t.isLt⟩ 0).val = (t.val - 1) / 20 := e7'
  have hb : grid1.coords ⟨t.val - 1, Nat.lt_of_le_of_lt (Nat.sub_le _ _) t.isLt⟩ 0 = grid1.coords t 0 :=
    Fin.ext (by rw [e7, e7'']; omega)
  have hk : t.val % 20 = (t.val - 1) % 20 + 1 := by omega
  have hk' : (t.val - 1) % 20 + 1 < 20 := by omega
  rw [scr1_next V c t h]
  refine (step1 V c t _ r j).trans ?_
  rw [ih r j, hb, hk, sum_upTo_succ _ _ hk']
  exact congrArg (_ + ·) (congrArg (term1 V c (grid1.coords t 0) r j) (Fin.ext (e8.trans hk)))

theorem scr1_closed (c : Dev nD) : ∀ (n : ℕ) (hn : n < cfg1.N) (r : Fin 512) (j : Fin 1024),
    scr1 V c n hn (ix2 r j) = ∑ s ∈ upTo (n % 20), term1 V c (grid1.coords ⟨n, hn⟩ 0) r j s
  | 0, hn, r, j => scr1_closed_first V c ⟨0, hn⟩ rfl r j
  | n + 1, hn, r, j => by
    by_cases h : (n + 1) % 20 = 0
    · exact scr1_closed_first V c ⟨n + 1, hn⟩ h r j
    · exact scr1_closed_next V c ⟨n + 1, hn⟩ h r j (fun r j => scr1_closed c n _ r j)

theorem sum_all1 (c : Dev nD) (b : Fin 20) (r : Fin 512) (j : Fin 1024) :
    ∑ s ∈ upTo 19, term1 V c b r j s = ∑ m : Fin 10240, aArr1 V c (ix2 (row1 b r) m) * hArr1 V c (ix2 m j) :=
  (sum_upTo_last _).trans (sum_blocks_20_512 (fun m => aArr1 V c (ix2 (row1 b r) m) * hArr1 V c (ix2 m j)))

def regionOut1 (A : S10240x10240.Idx → EReal) (H : S10240x1024.Idx → EReal) (bias : S1024.Idx → EReal) :
    S10240x1024.Idx → EReal := fun i =>
  if (i 0).val < 10000 then max ((∑ m : Fin 10240, A (ix2 (i 0) m) * H (ix2 m (i 1))) + bias (ix1 (i 1))) Cert.Gcn.zeroE
  else Cert.Gcn.zeroE

theorem regionOut1_apply (A : S10240x10240.Idx → EReal) (H : S10240x1024.Idx → EReal) (bias : S1024.Idx → EReal)
    (n : Fin 10240) (j : Fin 1024) :
    regionOut1 A H bias (ix2 n j)
      = if n.val < 10000 then max ((∑ m : Fin 10240, A (ix2 n m) * H (ix2 m j)) + bias (ix1 j)) Cert.Gcn.zeroE
        else Cert.Gcn.zeroE := rfl

theorem flushed1_eq (c : Dev nD) (t : Fin cfg1.N) (hf : (cfg1.win 3).flush t = true) :
    (dat1 V c).flushed 3 t
      = ((cfg1.win 3).blk t).view.read (Elt Ideal) (regionOut1 (aArr1 V c) (hArr1 V c) (bArr1 V c)) := by
  have h19 : t.val % 20 = 19 := (flush1_3 t).mp hf
  obtain ⟨-, -, -, -, -, e5, e6, -⟩ := idx_facts1 t
  show (cfg1.win 3).cut (grid1.coords t) ((dat1 V c).after 3 t) = _
  rw [after1_3]
  funext y
  obtain ⟨r, j, rfl⟩ : ∃ (r : Fin 512) (j : Fin 1024), y = ix2 r j := ⟨y 0, y 1, eq_ix2 y⟩
  have hemb : ((cfg1.win 3).blk t).view.emb (ix2 r j) = ix2 (row1 (grid1.coords t 0) r) j := funext fun a => Fin.ext (by
    match a with
    | ⟨0, _⟩ => show win1_3.index t (0 : Fin 2) * 512 + 1 * r.val = 512 * (grid1.coords t 0).val + r.val; omega
    | ⟨1, _⟩ => show win1_3.index t (1 : Fin 2) * 1024 + 1 * j.val = j.val; omega)
  show k1_pay3 (F := Ideal) (grid1.coords t) (scr1 V c t.val t.isLt) (View.ld (bblk1 V c t) rB1) (ix2 r j)
    = regionOut1 (aArr1 V c) (hArr1 V c) (bArr1 V c) (((cfg1.win 3).blk t).view.emb (ix2 r j))
  rw [hemb, regionOut1_apply]
  refine (k1_pay3_apply (grid1.coords t) _ _ r j).trans ?_
  rw [bias1_apply V c t j, scr1_closed V c t.val t.isLt r j, h19]
  exact congrArg (fun x => if 512 * (grid1.coords t 0).val + r.val < 10000 then max (x + bArr1 V c (ix1 j)) Cert.Gcn.zeroE
    else Cert.Gcn.zeroE) (sum_all1 V c (grid1.coords t 0) r j)

theorem cover1 (i : S10240x1024.Idx) :
    ∃ t : Fin cfg1.N, (cfg1.win 3).flush t = true ∧ i ∈ ((cfg1.win 3).blk t).view.set := by
  have hi0 : (i 0).val < 10240 := (i 0).isLt
  have hi1 : (i 1).val < 1024 := (i 1).isLt
  have hN : cfg1.N = 400 := N_1
  have htN : 20 * ((i 0).val / 512) + 19 < cfg1.N := by rw [hN]; omega
  obtain ⟨-, -, -, -, -, e5, e6, e7, -⟩ := idx_facts1 ⟨20 * ((i 0).val / 512) + 19, htN⟩
  have e7' : (grid1.coords ⟨20 * ((i 0).val / 512) + 19, htN⟩ 0).val = (20 * ((i 0).val / 512) + 19) / 20 := e7
  refine ⟨⟨20 * ((i 0).val / 512) + 19, htN⟩, (flush1_3 _).mpr (by show (20 * ((i 0).val / 512) + 19) % 20 = 19; omega), ?_⟩
  show i ∈ ((View.whole main_v69).slice (win1_3.rect ⟨20 * ((i 0).val / 512) + 19, htN⟩)).set
  rw [View.set_slice_whole, Rect.mem_set_unit]
  intro a
  match a with
  | ⟨0, _⟩ =>
    show win1_3.index ⟨20 * ((i 0).val / 512) + 19, htN⟩ (0 : Fin 2) * 512 ≤ (i 0).val
      ∧ (i 0).val < win1_3.index ⟨20 * ((i 0).val / 512) + 19, htN⟩ (0 : Fin 2) * 512 + 512
    rw [e5, e7']; omega
  | ⟨1, _⟩ =>
    show win1_3.index ⟨20 * ((i 0).val / 512) + 19, htN⟩ (1 : Fin 2) * 1024 ≤ (i 1).val
      ∧ (i 1).val < win1_3.index ⟨20 * ((i 0).val / 512) + 19, htN⟩ (1 : Fin 2) * 1024 + 1024
    rw [e6]; omega

theorem region1_out (c : Dev nD) :
    (dat1 (F := Ideal) V c).arrAt 3 cfg1.N = regionOut1 (V c main_v48) (V c main_v65) (V c main_v68) :=
  (dat1 (F := Ideal) V c).arrAt_eq_of_cover 3 (regionOut1 (aArr1 V c) (hArr1 V c) (bArr1 V c))
    (fun t hf => flushed1_eq V c t hf) cover1

end Cert.KernelIdeal.Hand

end
-- ==== Proof.KiPay2.lean ====
import proofs.«423821_j61503931678798_3_alg».proof.Proof.Gen.KernelIdeal.Skeleton
import proofs.«423821_j61503931678798_3_alg».proof.Proof.Spec
import proofs.«423821_j61503931678798_3_alg».proof.Proof.LibPlainDot
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

noncomputable section

namespace Cert.KernelIdeal.Hand

open Idealize.ShloMosaic Idealize.SL.Sem Idealize.ShloMosaic.ValueIdx Cert.KernelIdeal Cert.KernelIdeal.Gen

theorem k2_pay1_apply (r : Fin 512) (j : Fin 256) : k2_pay1 (F := Ideal) (ix2 r j) = Cert.Gcn.zeroE := by
  unfold k2_pay1
  rw [shapeCast_self]
  rfl

theorem k2_pay2_apply (h : S512x256.Idx → EReal) (acc : S512x256.Idx → EReal) (a : S512x512.Idx → EReal)
    (r : Fin 512) (j : Fin 256) :
    k2_pay2 (F := Ideal) h acc a (ix2 r j) = acc (ix2 r j) + ∑ q : Fin 512, a (ix2 r q) * h (ix2 q j) := by
  unfold k2_pay2
  rw [shapeCast_self, shapeCast_self, shapeCast_self]
  refine (addf_apply _ _ _).trans ?_
  exact congrArg (acc (ix2 r j) + ·) (Cert.PlainDot.matmul_zero_apply (φ₁ := .bf16) (φ₂ := .bf16) 512 512 256 a h r j)

theorem rowTest2 (b : Fin 20) (r : Fin 512) :
    IntOp.cmpi .slt (IntOp.addi (Scalar.muli (BitVec.ofNat 32 b.val) 512#32) (BitVec.ofNat 32 r.val)) 10000#32 = 1#1
      ↔ 512 * b.val + r.val < 10000 := by
  have hb := b.isLt
  have hr := r.isLt
  have e : IntOp.addi (Scalar.muli (BitVec.ofNat 32 b.val) 512#32) (BitVec.ofNat 32 r.val) = BitVec.ofNat 32 (512 * b.val + r.val) := by
    apply BitVec.eq_of_toNat_eq
    simp only [IntOp.addi, Scalar.muli, IntOp.muli, BitVec.toNat_add, BitVec.toNat_mul, BitVec.toNat_ofNat]
    omega
  rw [e, StableHlo.Predicate.slt_iff_toNat (by simp only [BitVec.toNat_ofNat]; omega) (by decide)]
  simp only [BitVec.toNat_ofNat]
  omega

theorem k2_pay3_apply (i : grid2.Coords) (acc : S512x256.Idx → EReal) (bias : S256.Idx → EReal)
    (r : Fin 512) (j : Fin 256) :
    k2_pay3 (F := Ideal) i acc bias (ix2 r j)
      = if 512 * (i 0).val + r.val < 10000 then max (acc (ix2 r j) + bias (ix1 j)) Cert.Gcn.zeroE else Cert.Gcn.zeroE := by
  unfold k2_pay3

  try rw [shapeCast_self]
  refine (select_apply _ _ _ _).trans ?_
  have hc : cmpi .slt (addi (broadcast S512x256 (Scalar.muli (BitVec.ofNat 32 (i 0).val) 512#32)) (iota .tc S512x256 32 [0] iota_S512x256_d0_w32)) (broadcast S512x256 10000#32) (ix2 r j)
      = IntOp.cmpi .slt (IntOp.addi (Scalar.muli (BitVec.ofNat 32 (i 0).val) 512#32) (BitVec.ofNat 32 r.val)) 10000#32 := by
    show IntOp.cmpi .slt (IntOp.addi _ (iota .tc S512x256 32 [0] iota_S512x256_d0_w32 (ix2 r j))) _ = _
    rw [iota_single_apply]
    rfl
  have hb : broadcastTo S512x256 (shapeCast S1x256 bias shapeCasts_S256_S1x256) broadcasts_S1x256_S512x256 (ix2 r j) = bias (ix1 j) :=
    (broadcastTo_1b_ab_apply _ _ r j).trans (shapeCast_a_1a_apply bias _ 0 j)
  by_cases hlt : 512 * (i 0).val + r.val < 10000
  · rw [if_pos hlt, hc, (rowTest2 (i 0) r).mpr hlt, select_one]
    refine (maximumf_apply _ _ _).trans ?_
    exact congrArg (max · Cert.Gcn.zeroE) ((addf_apply _ _ _).trans (congrArg (acc (ix2 r j) + ·) hb))
  · rw [if_neg hlt, hc, eq_zero_of_ne_one (fun h1 => hlt ((rowTest2 (i 0) r).mp h1)), select_zero]
    rfl

end Cert.KernelIdeal.Hand

end
-- ==== Proof.KiRegionValue2.lean ====
import proofs.«423821_j61503931678798_3_alg».proof.Proof.KiDat2
import proofs.«423821_j61503931678798_3_alg».proof.Proof.KiPay2
import proofs.«423821_j61503931678798_3_alg».proof.Proof.KiBlockSum
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

abbrev aArr2 (c : Dev nD) : S10240x10240.Idx → EReal := V c main_v48
abbrev hArr2 (c : Dev nD) : S10240x256.Idx → EReal := V c main_v76
abbrev bArr2 (c : Dev nD) : S256.Idx → EReal := V c main_v80

abbrev row2 (b : Fin 20) (r : Fin 512) : Fin 10240 := ⟨512 * b.val + r.val, by omega⟩

theorem idx_facts2 : ∀ t : Fin cfg2.N,
    win2_0.index t (0 : Fin 2) = (grid2.coords t 0).val ∧ win2_0.index t (1 : Fin 2) = (grid2.coords t 1).val
    ∧ win2_1.index t (0 : Fin 2) = 0 ∧ win2_1.index t (1 : Fin 2) = 0
    ∧ win2_2.index t (0 : Fin 1) = 0
    ∧ win2_3.index t (0 : Fin 2) = (grid2.coords t 0).val ∧ win2_3.index t (1 : Fin 2) = 0
    ∧ (grid2.coords t 0).val = t.val / 20 ∧ (grid2.coords t 1).val = t.val % 20 :=
  (by decide +kernel : ∀ t : Fin grid2.N, _)

theorem ablk2_apply (c : Dev nD) (t : Fin cfg2.N) (r q : Fin 512) :
    View.ld (ablk2 V c t) rA2 (ix2 r q) = aArr2 V c (ix2 (row2 (grid2.coords t 0) r) (row2 (grid2.coords t 1) q)) := by
  obtain ⟨e0, e1, -⟩ := idx_facts2 t
  show V c main_v48 (((cfg2.win 0).blk t).view.emb (rA2.idx (ix2 r q))) = V c main_v48 _
  refine congrArg (V c main_v48) (funext fun a => Fin.ext ?_)
  match a with
  | ⟨0, _⟩ => show win2_0.index t (0 : Fin 2) * 512 + 1 * (0 + 1 * r.val) = 512 * (grid2.coords t 0).val + r.val; omega
  | ⟨1, _⟩ => show win2_0.index t (1 : Fin 2) * 512 + 1 * (0 + 1 * q.val) = 512 * (grid2.coords t 1).val + q.val; omega

theorem hrows2_apply (c : Dev nD) (t : Fin cfg2.N) (q : Fin 512) (j : Fin 256) :
    View.ld (hblk2 V c t) (rH2 (grid2.coords t)) (ix2 q j) = hArr2 V c (ix2 (row2 (grid2.coords t 1) q) j) := by
  obtain ⟨-, -, e2, e3, -⟩ := idx_facts2 t
  have o0 : k2_off1 (grid2.coords t) 0 = 512 * (grid2.coords t 1).val := congrFun (k2_off1_eq (grid2.coords t)) 0
  have o1 : k2_off1 (grid2.coords t) 1 = 0 := congrFun (k2_off1_eq (grid2.coords t)) 1
  show V c main_v76 (((cfg2.win 1).blk t).view.emb ((rH2 (grid2.coords t)).idx (ix2 q j))) = V c main_v76 _
  refine congrArg (V c main_v76) (funext fun a => Fin.ext ?_)
  match a with
  | ⟨0, _⟩ => show win2_1.index t (0 : Fin 2) * 10240 + 1 * (k2_off1 (grid2.coords t) 0 + 1 * q.val) = 512 * (grid2.coords t 1).val + q.val; omega
  | ⟨1, _⟩ => show win2_1.index t (1 : Fin 2) * 256 + 1 * (k2_off1 (grid2.coords t) 1 + 1 * j.val) = j.val; omega

theorem bias2_apply (c : Dev nD) (t : Fin cfg2.N) (j : Fin 256) :
    View.ld (bblk2 V c t) rB2 (ix1 j) = bArr2 V c (ix1 j) := by
  obtain ⟨-, -, -, -, e4, -⟩ := idx_facts2 t
  show V c main_v80 (((cfg2.win 2).blk t).view.emb (rB2.idx (ix1 j))) = V c main_v80 _
  refine congrArg (V c main_v80) (funext fun a => Fin.ext ?_)
  match a with
  | ⟨0, _⟩ => show win2_2.index t (0 : Fin 1) * 256 + 1 * (0 + 1 * j.val) = j.val; omega

abbrev term2 (c : Dev nD) (b : Fin 20) (r : Fin 512) (j : Fin 256) (s : Fin 20) : EReal :=
  ∑ q : Fin 512, aArr2 V c (ix2 (row2 b r) (row2 s q)) * hArr2 V c (ix2 (row2 s q) j)

theorem step2 (c : Dev nD) (t : Fin cfg2.N) (acc : S512x256.Idx → EReal) (r : Fin 512) (j : Fin 256) :
    k2_pay2 (F := Ideal) (View.ld (hblk2 V c t) (rH2 (grid2.coords t))) acc (View.ld (ablk2 V c t) rA2) (ix2 r j)
      = acc (ix2 r j) + term2 V c (grid2.coords t 0) r j (grid2.coords t 1) := by
  refine (k2_pay2_apply _ _ _ r j).trans ?_
  exact congrArg (acc (ix2 r j) + ·) (Finset.sum_congr rfl fun q _ =>
    congrArg₂ (· * ·) (ablk2_apply V c t r q) (hrows2_apply V c t q j))

theorem scr2_closed_first (c : Dev nD) (t : Fin cfg2.N) (h : t.val % 20 = 0) (r : Fin 512) (j : Fin 256) :
    scr2 V c t.val t.isLt (ix2 r j) = ∑ s ∈ upTo (t.val % 20), term2 V c (grid2.coords t 0) r j s := by
  obtain ⟨-, -, -, -, -, -, -, -, e8⟩ := idx_facts2 t
  rw [scr2_first V c t h]
  refine (step2 V c t _ r j).trans ?_
  rw [k2_pay1_apply, show Cert.Gcn.zeroE = 0 from Ideal.ofBits_zero_f32, zero_add, h, sum_upTo_zero]
  exact congrArg (term2 V c (grid2.coords t 0) r j) (Fin.ext (e8.trans h))

theorem scr2_closed_next (c : Dev nD) (t : Fin cfg2.N) (h : ¬t.val % 20 = 0) (r : Fin 512) (j : Fin 256)
    (ih : ∀ (r : Fin 512) (j : Fin 256),
      scr2 V c (t.val - 1) (Nat.lt_of_le_of_lt (Nat.sub_le _ _) t.isLt) (ix2 r j)
        = ∑ s ∈ upTo ((t.val - 1) % 20),
            term2 V c (grid2.coords ⟨t.val - 1, Nat.lt_of_le_of_lt (Nat.sub_le _ _) t.isLt⟩ 0) r j s) :
    scr2 V c t.val t.isLt (ix2 r j) = ∑ s ∈ upTo (t.val % 20), term2 V c (grid2.coords t 0) r j s := by
  obtain ⟨-, -, -, -, -, -, -, e7, e8⟩ := idx_facts2 t
  obtain ⟨-, -, -, -, -, -, -, e7', -⟩ := idx_facts2 ⟨t.val - 1, Nat.lt_of_le_of_lt (Nat.sub_le _ _) t.isLt⟩
  have e7'' : (grid2.coords ⟨t.val - 1, Nat.lt_of_le_of_lt (Nat.sub_le _ _) t.isLt⟩ 0).val = (t.val - 1) / 20 := e7'
  have hb : grid2.coords ⟨t.val - 1, Nat.lt_of_le_of_lt (Nat.sub_le _ _) t.isLt⟩ 0 = grid2.coords t 0 :=
    Fin.ext (by rw [e7, e7'']; omega)
  have hk : t.val % 20 = (t.val - 1) % 20 + 1 := by omega
  have hk' : (t.val - 1) % 20 + 1 < 20 := by omega
  rw [scr2_next V c t h]
  refine (step2 V c t _ r j).trans ?_
  rw [ih r j, hb, hk, sum_upTo_succ _ _ hk']
  exact congrArg (_ + ·) (congrArg (term2 V c (grid2.coords t 0) r j) (Fin.ext (e8.trans hk)))

theorem scr2_closed (c : Dev nD) : ∀ (n : ℕ) (hn : n < cfg2.N) (r : Fin 512) (j : Fin 256),
    scr2 V c n hn (ix2 r j) = ∑ s ∈ upTo (n % 20), term2 V c (grid2.coords ⟨n, hn⟩ 0) r j s
  | 0, hn, r, j => scr2_closed_first V c ⟨0, hn⟩ rfl r j
  | n + 1, hn, r, j => by
    by_cases h : (n + 1) % 20 = 0
    · exact scr2_closed_first V c ⟨n + 1, hn⟩ h r j
    · exact scr2_closed_next V c ⟨n + 1, hn⟩ h r j (fun r j => scr2_closed c n _ r j)

theorem sum_all2 (c : Dev nD) (b : Fin 20) (r : Fin 512) (j : Fin 256) :
    ∑ s ∈ upTo 19, term2 V c b r j s = ∑ m : Fin 10240, aArr2 V c (ix2 (row2 b r) m) * hArr2 V c (ix2 m j) :=
  (sum_upTo_last _).trans (sum_blocks_20_512 (fun m => aArr2 V c (ix2 (row2 b r) m) * hArr2 V c (ix2 m j)))

def regionOut2 (A : S10240x10240.Idx → EReal) (H : S10240x256.Idx → EReal) (bias : S256.Idx → EReal) :
    S10240x256.Idx → EReal := fun i =>
  if (i 0).val < 10000 then max ((∑ m : Fin 10240, A (ix2 (i 0) m) * H (ix2 m (i 1))) + bias (ix1 (i 1))) Cert.Gcn.zeroE
  else Cert.Gcn.zeroE

theorem regionOut2_apply (A : S10240x10240.Idx → EReal) (H : S10240x256.Idx → EReal) (bias : S256.Idx → EReal)
    (n : Fin 10240) (j : Fin 256) :
    regionOut2 A H bias (ix2 n j)
      = if n.val < 10000 then max ((∑ m : Fin 10240, A (ix2 n m) * H (ix2 m j)) + bias (ix1 j)) Cert.Gcn.zeroE
        else Cert.Gcn.zeroE := rfl

theorem flushed2_eq (c : Dev nD) (t : Fin cfg2.N) (hf : (cfg2.win 3).flush t = true) :
    (dat2 V c).flushed 3 t
      = ((cfg2.win 3).blk t).view.read (Elt Ideal) (regionOut2 (aArr2 V c) (hArr2 V c) (bArr2 V c)) := by
  have h19 : t.val % 20 = 19 := (flush2_3 t).mp hf
  obtain ⟨-, -, -, -, -, e5, e6, -⟩ := idx_facts2 t
  show (cfg2.win 3).cut (grid2.coords t) ((dat2 V c).after 3 t) = _
  rw [after2_3]
  funext y
  obtain ⟨r, j, rfl⟩ : ∃ (r : Fin 512) (j : Fin 256), y = ix2 r j := ⟨y 0, y 1, eq_ix2 y⟩
  have hemb : ((cfg2.win 3).blk t).view.emb (ix2 r j) = ix2 (row2 (grid2.coords t 0) r) j := funext fun a => Fin.ext (by
    match a with
    | ⟨0, _⟩ => show win2_3.index t (0 : Fin 2) * 512 + 1 * r.val = 512 * (grid2.coords t 0).val + r.val; omega
    | ⟨1, _⟩ => show win2_3.index t (1 : Fin 2) * 256 + 1 * j.val = j.val; omega)
  show k2_pay3 (F := Ideal) (grid2.coords t) (scr2 V c t.val t.isLt) (View.ld (bblk2 V c t) rB2) (ix2 r j)
    = regionOut2 (aArr2 V c) (hArr2 V c) (bArr2 V c) (((cfg2.win 3).blk t).view.emb (ix2 r j))
  rw [hemb, regionOut2_apply]
  refine (k2_pay3_apply (grid2.coords t) _ _ r j).trans ?_
  rw [bias2_apply V c t j, scr2_closed V c t.val t.isLt r j, h19]
  exact congrArg (fun x => if 512 * (grid2.coords t 0).val + r.val < 10000 then max (x + bArr2 V c (ix1 j)) Cert.Gcn.zeroE
    else Cert.Gcn.zeroE) (sum_all2 V c (grid2.coords t 0) r j)

theorem cover2 (i : S10240x256.Idx) :
    ∃ t : Fin cfg2.N, (cfg2.win 3).flush t = true ∧ i ∈ ((cfg2.win 3).blk t).view.set := by
  have hi0 : (i 0).val < 10240 := (i 0).isLt
  have hi1 : (i 1).val < 256 := (i 1).isLt
  have hN : cfg2.N = 400 := N_2
  have htN : 20 * ((i 0).val / 512) + 19 < cfg2.N := by rw [hN]; omega
  obtain ⟨-, -, -, -, -, e5, e6, e7, -⟩ := idx_facts2 ⟨20 * ((i 0).val / 512) + 19, htN⟩
  have e7' : (grid2.coords ⟨20 * ((i 0).val / 512) + 19, htN⟩ 0).val = (20 * ((i 0).val / 512) + 19) / 20 := e7
  refine ⟨⟨20 * ((i 0).val / 512) + 19, htN⟩, (flush2_3 _).mpr (by show (20 * ((i 0).val / 512) + 19) % 20 = 19; omega), ?_⟩
  show i ∈ ((View.whole main_v81).slice (win2_3.rect ⟨20 * ((i 0).val / 512) + 19, htN⟩)).set
  rw [View.set_slice_whole, Rect.mem_set_unit]
  intro a
  match a with
  | ⟨0, _⟩ =>
    show win2_3.index ⟨20 * ((i 0).val / 512) + 19, htN⟩ (0 : Fin 2) * 512 ≤ (i 0).val
      ∧ (i 0).val < win2_3.index ⟨20 * ((i 0).val / 512) + 19, htN⟩ (0 : Fin 2) * 512 + 512
    rw [e5, e7']; omega
  | ⟨1, _⟩ =>
    show win2_3.index ⟨20 * ((i 0).val / 512) + 19, htN⟩ (1 : Fin 2) * 256 ≤ (i 1).val
      ∧ (i 1).val < win2_3.index ⟨20 * ((i 0).val / 512) + 19, htN⟩ (1 : Fin 2) * 256 + 256
    rw [e6]; omega

theorem region2_out (c : Dev nD) :
    (dat2 (F := Ideal) V c).arrAt 3 cfg2.N = regionOut2 (V c main_v48) (V c main_v76) (V c main_v80) :=
  (dat2 (F := Ideal) V c).arrAt_eq_of_cover 3 (regionOut2 (aArr2 V c) (hArr2 V c) (bArr2 V c))
    (fun t hf => flushed2_eq V c t hf) cover2

end Cert.KernelIdeal.Hand

end
-- ==== Proof.SpecChain.lean ====
import proofs.«423821_j61503931678798_3_alg».proof.Proof.Spec

noncomputable section

namespace Cert.Gcn

open Idealize.ShloMosaic

def c64 (b : Fin 16) (o : Fin 64) : Fin 1024 :=
  ⟨64 * b.val + o.val, by have := b.isLt; have := o.isLt; omega⟩

def c16 (b : Fin 16) (o : Fin 16) : Fin 256 :=
  ⟨16 * b.val + o.val, by have := b.isLt; have := o.isLt; omega⟩

theorem c64_val (b : Fin 16) (o : Fin 64) : (c64 b o).val = 64 * b.val + o.val := rfl

theorem c16_val (b : Fin 16) (o : Fin 16) : (c16 b o).val = 16 * b.val + o.val := rfl

variable (s d : Fin 170000 → Fin 10000)

theorem chain_step {fi fo : Nat} {J : Type} (A : Fin 10240 → Fin 10240 → EReal) (hA : ∀ n m, A n m = adj s d n m)
    (h : Fin 10240 → Fin 16 → Fin fi → EReal) (W : Fin fi → Fin fo → EReal) (bias : Fin fo → EReal)
    (H out : Fin 10240 → J → EReal) (B : J → EReal) (c : Fin 16 → Fin fo → J)
    (hH : ∀ n b o, H n (c b o) = lin (h n b) W o) (hB : ∀ b o, B (c b o) = bias o)
    (hout : ∀ n j, out n j
      = if n.val < 10000 then max ((∑ m : Fin 10240, A n m * H m j) + B j) zeroE else zeroE)
    (n : Fin 10240) (b : Fin 16) (o : Fin fo) : out n (c b o) = denseLayer s d h W bias n b o := by
  rw [hout]
  unfold denseLayer
  simp only [hA, hH, hB]

theorem denseNet_of_chain (x : Fin 16 → Fin 10000 → Fin 10 → EReal)
    (W1 : Fin 10 → Fin 64 → EReal) (b1 : Fin 64 → EReal) (W2 : Fin 64 → Fin 64 → EReal) (b2 : Fin 64 → EReal)
    (W3 : Fin 64 → Fin 10 → EReal) (b3 : Fin 10 → EReal)
    (A : Fin 10240 → Fin 10240 → EReal) (hA : ∀ n m, A n m = adj s d n m)
    (H1 out1 H2 out2 : Fin 10240 → Fin 1024 → EReal) (B1 B2 : Fin 1024 → EReal)
    (H3 out3 : Fin 10240 → Fin 256 → EReal) (B3 : Fin 256 → EReal)
    (hH1 : ∀ n b o, H1 n (c64 b o) = lin (padInput x n b) W1 o) (hB1 : ∀ b o, B1 (c64 b o) = b1 o)
    (hout1 : ∀ n j, out1 n j
      = if n.val < 10000 then max ((∑ m : Fin 10240, A n m * H1 m j) + B1 j) zeroE else zeroE)
    (hH2 : ∀ n b o, H2 n (c64 b o) = lin (fun f => out1 n (c64 b f)) W2 o) (hB2 : ∀ b o, B2 (c64 b o) = b2 o)
    (hout2 : ∀ n j, out2 n j
      = if n.val < 10000 then max ((∑ m : Fin 10240, A n m * H2 m j) + B2 j) zeroE else zeroE)
    (hH3 : ∀ n b (o : Fin 10), H3 n (c16 b (Fin.castLE (by omega) o)) = lin (fun f => out2 n (c64 b f)) W3 o)
    (hB3 : ∀ b (o : Fin 10), B3 (c16 b (Fin.castLE (by omega) o)) = b3 o)
    (hout3 : ∀ n j, out3 n j
      = if n.val < 10000 then max ((∑ m : Fin 10240, A n m * H3 m j) + B3 j) zeroE else zeroE)
    (b : Fin 16) (o : Fin 10) :
    Ideal.div (zeroE + ∑ n : Fin 10240, out3 n (c16 b (Fin.castLE (by omega) o))) tenKE
      = denseNet s d x W1 b1 W2 b2 W3 b3 b o := by
  have l1 : ∀ n b o, out1 n (c64 b o) = denseLayer s d (padInput x) W1 b1 n b o :=
    chain_step s d A hA (padInput x) W1 b1 H1 out1 B1 c64 hH1 hB1 hout1
  have l2 : ∀ n b o, out2 n (c64 b o)
      = denseLayer s d (denseLayer s d (padInput x) W1 b1) W2 b2 n b o :=
    chain_step s d A hA (denseLayer s d (padInput x) W1 b1) W2 b2 H2 out2 B2 c64
      (fun n b o => (hH2 n b o).trans (congrArg (fun v => lin v W2 o) (funext fun f => l1 n b f))) hB2 hout2
  have l3 : ∀ n b (o : Fin 10), out3 n (c16 b (Fin.castLE (by omega) o))
      = denseLayer s d (denseLayer s d (denseLayer s d (padInput x) W1 b1) W2 b2) W3 b3 n b o :=
    chain_step s d A hA (denseLayer s d (denseLayer s d (padInput x) W1 b1) W2 b2) W3 b3 H3 out3 B3
      (fun b o => c16 b (Fin.castLE (by omega) o))
      (fun n b o => (hH3 n b o).trans (congrArg (fun v => lin v W3 o) (funext fun f => l2 n b f))) hB3 hout3
  unfold denseNet
  exact congrArg₂ Ideal.div (congrArg₂ (· + ·) rfl (Finset.sum_congr rfl fun n _ => l3 n b o)) rfl

end Cert.Gcn

end
-- ==== Proof.KiResult.lean ====
import proofs.«423821_j61503931678798_3_alg».proof.Proof.KiHostLin
import proofs.«423821_j61503931678798_3_alg».proof.Proof.KiHostTail
import proofs.«423821_j61503931678798_3_alg».proof.Proof.KiHostAdj
import proofs.«423821_j61503931678798_3_alg».proof.Proof.KiCarry
import proofs.«423821_j61503931678798_3_alg».proof.Proof.KiCarryAdj
import proofs.«423821_j61503931678798_3_alg».proof.Proof.KiRegionValue0
import proofs.«423821_j61503931678798_3_alg».proof.Proof.KiRegionValue1
import proofs.«423821_j61503931678798_3_alg».proof.Proof.KiRegionValue2
import proofs.«423821_j61503931678798_3_alg».proof.Proof.SpecChain
import proofs.«423821_j61503931678798_3_alg».proof.Proof.Edges

noncomputable section

namespace Cert.KernelIdeal.Hand

open Cert.KernelIdeal Cert.KernelIdeal.Gen Idealize.ShloMosaic Idealize.ShloMosaic.TcCoe Idealize.SL.Sem Idealize.ShloMosaic.StableHlo
open Idealize.ShloMosaic.ValueIdx Cert.Gcn

theorem padRows_nodeMajor_apply (x0 : FVec Ideal S16x10000x10 .f32) (z : FVec Ideal S_ .f32) (hz : z ix0 = zeroE)
    (n : Fin 10240) (b : Fin 16) (f : Fin 10) :
    padRows (nodeMajor x0) z (ix3 n b f) = padInput (fun b n f => x0 (ix3 b n f)) n b f := by
  rw [padRows_apply]
  unfold padInput
  by_cases h : n.val < 10000
  · rw [dif_pos h, dif_pos h]; exact nodeMajor_apply x0 ⟨n.val, h⟩ b f
  · rw [dif_neg h, dif_neg h]; exact hz

theorem h1_apply (x0 : FVec Ideal S16x10000x10 .f32) (w1 : FVec Ideal S10x64 .f32) (z : FVec Ideal S_ .f32) (hz : z ix0 = zeroE)
    (n : Fin 10240) (b : Fin 16) (o : Fin 64) :
    lin1 (padRows (nodeMajor x0) z) w1 (ix2 n ⟨64 * b.val + o.val, by omega⟩)
      = lin (padInput (fun b n f => x0 (ix3 b n f)) n b) (fun f o => w1 (ix2 f o)) o := by
  rw [lin1_apply]
  exact congrArg (fun h => lin h (fun f o => w1 (ix2 f o)) o) (funext fun f => padRows_nodeMajor_apply x0 z hz n b f)

theorem h3_apply (y : FVec Ideal S10240x1024 .f32) (w3 : FVec Ideal S64x10 .f32) (z : FVec Ideal S_ .f32)
    (n : Fin 10240) (b : Fin 16) (o : Fin 10) :
    flat16 (padFeat (lin3 y w3) z) (ix2 n ⟨16 * b.val + o.val, by omega⟩)
      = lin (fun f : Fin 64 => y (ix2 n ⟨64 * b.val + f.val, by omega⟩)) (fun f o => w3 (ix2 f o)) o := by
  refine (flat16_apply _ n b ⟨o.val, by omega⟩).trans ?_
  rw [padFeat_apply, dif_pos (show (⟨o.val, by omega⟩ : Fin 16).val < 10 from o.isLt)]
  exact lin3_apply y w3 n b o

theorem h3_apply_pad (y : FVec Ideal S10240x1024 .f32) (w3 : FVec Ideal S64x10 .f32) (z : FVec Ideal S_ .f32)
    (n : Fin 10240) (b : Fin 16) (o : Fin 16) (ho : 10 ≤ o.val) :
    flat16 (padFeat (lin3 y w3) z) (ix2 n ⟨16 * b.val + o.val, by omega⟩) = z ix0 := by
  refine (flat16_apply _ n b o).trans ?_
  rw [padFeat_apply, dif_neg (by omega)]

theorem b3_apply (v : FVec Ideal S10 .f32) (z : FVec Ideal S_ .f32) (b : Fin 16) (o : Fin 10) :
    tile16 (padBias v z) (ix1 ⟨16 * b.val + o.val, by omega⟩) = v (ix1 o) := by
  refine (tile16_apply _ b ⟨o.val, by omega⟩).trans ?_
  rw [padBias_apply, dif_pos (show (⟨o.val, by omega⟩ : Fin 16).val < 10 from o.isLt)]

theorem b3_apply_pad (v : FVec Ideal S10 .f32) (z : FVec Ideal S_ .f32) (b : Fin 16) (o : Fin 16) (ho : 10 ≤ o.val) :
    tile16 (padBias v z) (ix1 ⟨16 * b.val + o.val, by omega⟩) = z ix0 := by
  refine (tile16_apply _ b o).trans ?_
  rw [padBias_apply, dif_neg (by omega)]

variable (m : (ℓ : Loc nD τ sig) → Buf (Elt Ideal) ℓ) (ρ : Dev nD → PrngReg) (c : Dev nD)

abbrev xIn : Fin 16 → Fin 10000 → Fin 10 → EReal := fun b n f => ((m ((c : Thread nD τ).loc main_arg0)) : FVec Ideal S16x10000x10 .f32) (ix3 b n f)
abbrev w1In : Fin 10 → Fin 64 → EReal := fun f o => ((m ((c : Thread nD τ).loc main_arg2)) : FVec Ideal S10x64 .f32) (ix2 f o)
abbrev b1In : Fin 64 → EReal := fun o => ((m ((c : Thread nD τ).loc main_arg3)) : FVec Ideal S64 .f32) (ix1 o)
abbrev w2In : Fin 64 → Fin 64 → EReal := fun f o => ((m ((c : Thread nD τ).loc main_arg4)) : FVec Ideal S64x64 .f32) (ix2 f o)
abbrev b2In : Fin 64 → EReal := fun o => ((m ((c : Thread nD τ).loc main_arg5)) : FVec Ideal S64 .f32) (ix1 o)
abbrev w3In : Fin 64 → Fin 10 → EReal := fun f o => ((m ((c : Thread nD τ).loc main_arg6)) : FVec Ideal S64x10 .f32) (ix2 f o)
abbrev b3In : Fin 10 → EReal := fun o => ((m ((c : Thread nD τ).loc main_arg7)) : FVec Ideal S10 .f32) (ix1 o)

theorem out1_eq :
    W4 m ρ c (Proc.devRef .tc main_v59)
      = regionOut0 (adjT (m ((c : Thread nD τ).loc main_arg1)))
          (lin1 (padRows (nodeMajor (m ((c : Thread nD τ).loc main_arg0))) (sitofp (F := Ideal) .f32 (constantI S_ 32 0#32 : IVec S_ 32))) (m ((c : Thread nD τ).loc main_arg2)))
          (tile64 (m ((c : Thread nD τ).loc main_arg3))) := by
  rw [W4_v59, region0_out, V3_v48, V3_v55, V3_v58]

theorem out2_eq :
    W6 m ρ c (Proc.devRef .tc main_v69)
      = regionOut1 (adjT (m ((c : Thread nD τ).loc main_arg1)))
          (lin2 (W4 m ρ c (Proc.devRef .tc main_v59)) (m ((c : Thread nD τ).loc main_arg4)))
          (tile64 (m ((c : Thread nD τ).loc main_arg5))) := by
  rw [W6_v69, region1_out, V5_v48, V5_v65, V5_v68]

theorem out3_eq :
    W12 m ρ c (Proc.devRef .tc main_v81)
      = regionOut2 (adjT (m ((c : Thread nD τ).loc main_arg1)))
          (flat16 (padFeat (lin3 (W6 m ρ c (Proc.devRef .tc main_v69)) (m ((c : Thread nD τ).loc main_arg6))) (sitofp (F := Ideal) .f32 (constantI S_ 32 0#32 : IVec S_ 32))))
          (tile16 (padBias (m ((c : Thread nD τ).loc main_arg7)) (sitofp (F := Ideal) .f32 (constantI S_ 32 0#32 : IVec S_ 32)))) := by
  rw [W12_v81, region2_out, V11_v48, V11_v76, V11_v80]

theorem ker_result_of_adj (s d : Fin 170000 → Fin 10000)
    (hA : ∀ n k : Fin 10240, (adjT (m ((c : Thread nD τ).loc main_arg1)) : FVec Ideal S10240x10240 .bf16) (ix2 n k) = adj s d n k)
    (b : Fin 16) (o : Fin 10) :
    (Wlast m ρ c (Proc.devRef .tc main_v86) : FVec Ideal S16x10 .f32) (ix2 b o)
      = denseNet s d (xIn m c) (w1In m c) (b1In m c) (w2In m c) (b2In m c) (w3In m c) (b3In m c) b o := by
  rw [Wlast_v86, tail3_apply]
  exact denseNet_of_chain s d (xIn m c) (w1In m c) (b1In m c) (w2In m c) (b2In m c) (w3In m c) (b3In m c)
    (fun n k => (adjT (m ((c : Thread nD τ).loc main_arg1)) : FVec Ideal S10240x10240 .bf16) (ix2 n k)) hA
    (fun n j => lin1 (padRows (nodeMajor (m ((c : Thread nD τ).loc main_arg0))) (sitofp (F := Ideal) .f32 (constantI S_ 32 0#32 : IVec S_ 32))) (m ((c : Thread nD τ).loc main_arg2)) (ix2 n j))
    (fun n j => (W4 m ρ c (Proc.devRef .tc main_v59) : FVec Ideal S10240x1024 .f32) (ix2 n j))
    (fun n j => lin2 (W4 m ρ c (Proc.devRef .tc main_v59)) (m ((c : Thread nD τ).loc main_arg4)) (ix2 n j))
    (fun n j => (W6 m ρ c (Proc.devRef .tc main_v69) : FVec Ideal S10240x1024 .f32) (ix2 n j))
    (fun j => tile64 (m ((c : Thread nD τ).loc main_arg3)) (ix1 j))
    (fun j => tile64 (m ((c : Thread nD τ).loc main_arg5)) (ix1 j))
    (fun n j => flat16 (padFeat (lin3 (W6 m ρ c (Proc.devRef .tc main_v69)) (m ((c : Thread nD τ).loc main_arg6))) (sitofp (F := Ideal) .f32 (constantI S_ 32 0#32 : IVec S_ 32))) (ix2 n j))
    (fun n j => (W12 m ρ c (Proc.devRef .tc main_v81) : FVec Ideal S10240x256 .f32) (ix2 n j))
    (fun j => tile16 (padBias (m ((c : Thread nD τ).loc main_arg7)) (sitofp (F := Ideal) .f32 (constantI S_ 32 0#32 : IVec S_ 32))) (ix1 j))
    (fun n b o => h1_apply _ _ _ sitofp_zero_ix0 n b o)
    (fun b o => tile64_apply _ b o)
    (fun n j => by rw [out1_eq]; rfl)
    (fun n b o => lin2_apply _ _ n b o)
    (fun b o => tile64_apply _ b o)
    (fun n j => by rw [out2_eq]; rfl)
    (fun n b o => h3_apply _ _ _ n b o)
    (fun b o => b3_apply _ _ b o)
    (fun n j => by rw [out3_eq]; rfl)
    b o

theorem ker_result
    (hr : ∀ (r : Fin 2) (e : Fin 160000), (((m ((c : Thread nD τ).loc main_arg1)) : IVec S2x160000 32) (ix2 r e)).toNat < 10000)
    (b : Fin 16) (o : Fin 10) :
    (Wlast m ρ c (Proc.devRef .tc main_v86) : FVec Ideal S16x10 .f32) (ix2 b o)
      = denseNet (Cert.Edges.src2 (m ((c : Thread nD τ).loc main_arg1)) hr) (Cert.Edges.dst2 (m ((c : Thread nD τ).loc main_arg1)) hr)
          (xIn m c) (w1In m c) (b1In m c) (w2In m c) (b2In m c) (w3In m c) (b3In m c) b o :=
  ker_result_of_adj m ρ c _ _ (fun n k => adjT_apply (m ((c : Thread nD τ).loc main_arg1)) hr n k) b o

end Cert.KernelIdeal.Hand

end
-- ==== Proof.RefValue.lean ====
import proofs.«423821_j61503931678798_3_alg».proof.Proof.Gen.ReferenceIdeal.Read
import proofs.«423821_j61503931678798_3_alg».proof.Proof.Spec
import proofs.«423821_j61503931678798_3_alg».proof.Proof.LibScatterGather1
import proofs.«423821_j61503931678798_3_alg».proof.Proof.LibScatterGather3

noncomputable section

namespace Cert.ReferenceIdeal.RefValue

open Cert.ReferenceIdeal Cert.ReferenceIdeal.Read Idealize.ShloMosaic Idealize.ShloMosaic.ValueIdx Cert.Gcn

def Col (c : IVec S170000x1 32) (f : Fin 170000 → Fin 10000) : Prop :=
  ∀ e : Fin 170000, c (ix2 e (0 : Fin 1)) = BitVec.ofNat 32 (f e).val

theorem Col.toNat {c : IVec S170000x1 32} {f : Fin 170000 → Fin 10000} (h : Col c f) (e : Fin 170000) :
    (c (ix2 e (0 : Fin 1))).toNat = (f e).val := by
  rw [h e, BitVec.toNat_ofNat]
  have := (f e).isLt
  omega

theorem Col.toInt {c : IVec S170000x1 32} {f : Fin 170000 → Fin 10000} (h : Col c f) (e : Fin 170000) :
    (c (ix2 e (0 : Fin 1))).toInt = ((f e).val : ℤ) := by
  have hn := h.toNat e
  have hl := (f e).isLt
  rw [BitVec.toInt_eq_toNat_of_lt (by rw [hn]; omega), hn]

section Weights

variable (x1 : (⟨S2x160000, .i32⟩ : BufTy).Contents (Elt Ideal)) (s d : Fin 170000 → Fin 10000)

theorem deg_apply (hd : Col (val_main_v13 (F := Ideal) x1) d) (n : Fin 10000) :
    val_main_v15 (F := Ideal) x1 (ix1 n) = deg d n := by
  unfold val_main_v15
  rw [Cert.LibScatterGather1.scatterAdd_apply_fin scatter_S10000_S170000x1_S170000_n_0_0_1 rfl rfl rfl]
  rw [val_main_v7_apply, val_main_cst_apply]
  unfold deg
  refine congrArg₂ (· + ·) rfl ?_
  refine Finset.sum_congr (Finset.filter_congr fun e _ => ?_) (fun e _ => ?_)
  · rw [hd.toInt e]
    exact ⟨fun h => Fin.ext (by exact_mod_cast h), fun h => by rw [h]⟩
  · rw [val_main_v14_apply, val_main_cst_1_apply]; rfl

theorem dinv_apply (hd : Col (val_main_v13 (F := Ideal) x1) d) (n : Fin 10000) :
    val_main_v17 (F := Ideal) x1 (ix1 n) = dinv d n := by
  rw [val_main_v17_apply, deg_apply x1 d hd, val_main_v16_apply, val_main_cst_2_apply]
  rfl

theorem dinv_src_apply (hd : Col (val_main_v13 (F := Ideal) x1) d) (hs : Col (val_main_v23 (F := Ideal) x1) s)
    (e : Fin 170000) : val_main_v24 (F := Ideal) x1 (ix1 e) = dinv d (s e) := by
  unfold val_main_v24
  rw [Cert.LibScatterGather1.gather_apply gather_S10000_S170000x1_S170000_n_0_n_n_0_1_1 rfl rfl rfl rfl _ _ e
    (by norm_num) (by rw [hs.toNat e]; exact (s e).isLt)]
  rw [← dinv_apply x1 d hd]
  exact congrArg _ (congrArg ix1 (Fin.ext (hs.toNat e)))

theorem dinv_dst_apply (hd : Col (val_main_v13 (F := Ideal) x1) d) (hd' : Col (val_main_v30 (F := Ideal) x1) d)
    (e : Fin 170000) : val_main_v31 (F := Ideal) x1 (ix1 e) = dinv d (d e) := by
  unfold val_main_v31
  rw [Cert.LibScatterGather1.gather_apply gather_S10000_S170000x1_S170000_n_0_n_n_0_1_1 rfl rfl rfl rfl _ _ e
    (by norm_num) (by rw [hd'.toNat e]; exact (d e).isLt)]
  rw [← dinv_apply x1 d hd]
  exact congrArg _ (congrArg ix1 (Fin.ext (hd'.toNat e)))

theorem weight_apply (hd : Col (val_main_v13 (F := Ideal) x1) d) (hs : Col (val_main_v23 (F := Ideal) x1) s)
    (hd' : Col (val_main_v30 (F := Ideal) x1) d) (e : Fin 170000) :
    val_main_v32 (F := Ideal) x1 (ix1 e) = weight s d e := by
  rw [val_main_v32_apply, dinv_src_apply x1 s d hd hs, dinv_dst_apply x1 d hd hd']
  rfl

end Weights

section Stage

variable (s d : Fin 170000 → Fin 10000)

theorem stage_apply {C : Nat}
    (dG : GatherDims ⟨3, ![16, 10000, C]⟩ ⟨2, ![170000, 1]⟩ ⟨3, ![16, 170000, C]⟩)
    (hoff : dG.offsetDims = [0, 2]) (hcoll : dG.collapsedSliceDims = [1]) (hob : dG.operandBatchingDims = [])
    (hsim : dG.startIndexMap = [1]) (hivd : dG.indexVectorDim = 1)
    (dS : ScatterDims ⟨3, ![16, 10000, C]⟩ ⟨2, ![170000, 1]⟩ ⟨3, ![16, 170000, C]⟩)
    (huw : dS.updateWindowDims = [0, 2]) (hiw : dS.insertedWindowDims = [1])
    (hsd : dS.scatterDimsToOperandDims = [1]) (hivd' : dS.indexVectorDim = 1)
    (t z bs z' : FVec Ideal ⟨3, ![16, 10000, C]⟩ .f32) (wt : FVec Ideal ⟨3, ![16, 170000, C]⟩ .f32)
    (cs cd : IVec ⟨2, ![170000, 1]⟩ 32)
    (hs : Col cs s) (hd : Col cd d)
    (hwt : ∀ (b : Fin 16) (e : Fin 170000) (o : Fin C), wt (ix3 b e o) = weight s d e)
    (hz : ∀ i, z i = zeroE) (hz' : ∀ i, z' i = zeroE)
    (b : Fin 16) (n : Fin 10000) (o : Fin C) :
    maximumf (addf (Host.scatterAdd (F := Ideal) dS z cd (mulf (Host.gather dG t cs) wt)) bs) z' (ix3 b n o)
      = max ((zeroE + ∑ e ∈ Finset.univ.filter (fun e => d e = n), t (ix3 b (s e) o) * weight s d e)
          + bs (ix3 b n o)) zeroE := by
  rw [maximumf_apply, addf_apply, Cert.LibScatterGather3.scatterAdd_rows_apply dS huw hiw hsd hivd', hz, hz']
  refine congrArg₂ max (congrArg₂ (· + ·) (congrArg₂ (· + ·) rfl ?_) rfl) rfl
  refine Finset.sum_congr (Finset.filter_congr fun e _ => ?_) (fun e _ => ?_)
  · rw [hd.toInt e]
    exact ⟨fun h => Fin.ext (by exact_mod_cast h), fun h => by rw [h]⟩
  · rw [mulf_apply, hwt, Cert.LibScatterGather3.gather_rows_apply dG hoff hcoll hob hsim hivd t cs b e o
      (by norm_num) (by rw [hs.toNat e]; exact (s e).isLt)]
    exact congrArg (· * weight s d e) (congrArg (fun m => t (ix3 b m o)) (Fin.ext (hs.toNat e)))

end Stage

section Layers

variable (x0 : (⟨S16x10000x10, .f32⟩ : BufTy).Contents (Elt Ideal)) (x1 : (⟨S2x160000, .i32⟩ : BufTy).Contents (Elt Ideal))
  (x2 : (⟨S10x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x10, .f32⟩ : BufTy).Contents (Elt Ideal)) (x7 : (⟨S10, .f32⟩ : BufTy).Contents (Elt Ideal))
  (s d : Fin 170000 → Fin 10000)

theorem lin1_apply (b : Fin 16) (m : Fin 10000) (o : Fin 64) :
    val_main_v33 (F := Ideal) x0 x2 (ix3 b m o)
      = lin (fun f => x0 (ix3 b m f)) (fun f o => x2 (ix2 f o)) o := by
  rw [val_main_v33_apply]
  unfold lin
  refine Finset.sum_congr rfl fun k _ => ?_
  refine congrArg₂ (· * ·) (congrArg (x0) (funext fun a => Fin.ext ?_)) (congrArg x2 (funext fun a => Fin.ext ?_))
  · match a with | ⟨0, _⟩ => rfl | ⟨1, _⟩ => rfl | ⟨2, _⟩ => rfl
  · match a with | ⟨0, _⟩ => rfl | ⟨1, _⟩ => rfl

theorem layer1_apply (hw : ∀ e : Fin 170000, val_main_v32 (F := Ideal) x1 (ix1 e) = weight s d e)
    (hs : Col (val_main_v39 (F := Ideal) x1) s) (hd : Col (val_main_v50 (F := Ideal) x1) d)
    (b : Fin 16) (n : Fin 10000) (o : Fin 64) :
    val_main_v55 (F := Ideal) x0 x1 x2 x3 (ix3 b n o)
      = sparseLayer s d (fun b n f => x0 (ix3 b n f)) (fun f o => x2 (ix2 f o)) (fun o => x3 (ix1 o)) b n o := by
  unfold val_main_v55 val_main_v54 val_main_v51 val_main_v43 val_main_v40
  refine (stage_apply s d gather_S16x10000x64_S170000x1_S16x170000x64_02_1_n_n_1_1_16164 rfl rfl rfl rfl rfl
    scatter_S16x10000x64_S170000x1_S16x170000x64_02_1_1_1 rfl rfl rfl rfl
    (val_main_v33 (F := Ideal) x0 x2) (val_main_v44 (F := Ideal)) (val_main_v53 (F := Ideal) x3)
    (val_main_call0_v0 (F := Ideal)) (val_main_v42 (F := Ideal) x1) (val_main_v39 (F := Ideal) x1)
    (val_main_v50 (F := Ideal) x1) hs hd ?_ ?_ ?_ b n o).trans ?_
  · intro b e o
    rw [val_main_v42_apply, val_main_v41_apply, ← hw e]
    exact congrArg _ (funext fun a => Fin.ext (by match a with | ⟨0, _⟩ => rfl))
  · intro i
    rw [val_main_v44_apply, val_main_cst_9_apply]; rfl
  · intro i
    rw [val_main_call0_v0_apply, val_main_call0_cst_apply]; rfl
  · unfold sparseLayer
    have hb : val_main_v53 (F := Ideal) x3 (ix3 b n o) = x3 (ix1 o) := by
      rw [val_main_v53_apply, val_main_v52_apply]
      exact congrArg x3 (funext fun a => Fin.ext (by match a with | ⟨0, _⟩ => rfl))
    rw [hb]
    refine congrArg₂ max (congrArg₂ (· + ·) (congrArg₂ (· + ·) rfl ?_) rfl) rfl
    exact Finset.sum_congr rfl fun e _ => congrArg (· * weight s d e) (lin1_apply x0 x2 b (s e) o)

theorem lin2_apply (b : Fin 16) (m : Fin 10000) (o : Fin 64) :
    val_main_v56 (F := Ideal) x0 x1 x2 x3 x4 (ix3 b m o)
      = lin (fun f => val_main_v55 (F := Ideal) x0 x1 x2 x3 (ix3 b m f)) (fun f o => x4 (ix2 f o)) o := by
  rw [val_main_v56_apply]
  unfold lin
  refine Finset.sum_congr rfl fun k _ => ?_
  refine congrArg₂ (· * ·) (congrArg (val_main_v55 (F := Ideal) x0 x1 x2 x3) (funext fun a => Fin.ext ?_)) (congrArg x4 (funext fun a => Fin.ext ?_))
  · match a with | ⟨0, _⟩ => rfl | ⟨1, _⟩ => rfl | ⟨2, _⟩ => rfl
  · match a with | ⟨0, _⟩ => rfl | ⟨1, _⟩ => rfl

theorem layer2_apply (hw : ∀ e : Fin 170000, val_main_v32 (F := Ideal) x1 (ix1 e) = weight s d e)
    (hs : Col (val_main_v62 (F := Ideal) x1) s) (hd : Col (val_main_v73 (F := Ideal) x1) d)
    (b : Fin 16) (n : Fin 10000) (o : Fin 64) :
    val_main_v78 (F := Ideal) x0 x1 x2 x3 x4 x5 (ix3 b n o)
      = sparseLayer s d (fun b n f => val_main_v55 (F := Ideal) x0 x1 x2 x3 (ix3 b n f)) (fun f o => x4 (ix2 f o)) (fun o => x5 (ix1 o)) b n o := by
  unfold val_main_v78 val_main_v77 val_main_v74 val_main_v66 val_main_v63
  refine (stage_apply s d gather_S16x10000x64_S170000x1_S16x170000x64_02_1_n_n_1_1_16164 rfl rfl rfl rfl rfl
    scatter_S16x10000x64_S170000x1_S16x170000x64_02_1_1_1 rfl rfl rfl rfl
    (val_main_v56 (F := Ideal) x0 x1 x2 x3 x4) (val_main_v67 (F := Ideal)) (val_main_v76 (F := Ideal) x5)
    (val_main_call1_v0 (F := Ideal)) (val_main_v65 (F := Ideal) x1) (val_main_v62 (F := Ideal) x1)
    (val_main_v73 (F := Ideal) x1) hs hd ?_ ?_ ?_ b n o).trans ?_
  · intro b e o
    rw [val_main_v65_apply, val_main_v64_apply, ← hw e]
    exact congrArg _ (funext fun a => Fin.ext (by match a with | ⟨0, _⟩ => rfl))
  · intro i
    rw [val_main_v67_apply, val_main_cst_14_apply]; rfl
  · intro i
    rw [val_main_call1_v0_apply, val_main_call1_cst_apply]; rfl
  · unfold sparseLayer
    have hb : val_main_v76 (F := Ideal) x5 (ix3 b n o) = x5 (ix1 o) := by
      rw [val_main_v76_apply, val_main_v75_apply]
      exact congrArg x5 (funext fun a => Fin.ext (by match a with | ⟨0, _⟩ => rfl))
    rw [hb]
    refine congrArg₂ max (congrArg₂ (· + ·) (congrArg₂ (· + ·) rfl ?_) rfl) rfl
    exact Finset.sum_congr rfl fun e _ => congrArg (· * weight s d e) (lin2_apply x0 x1 x2 x3 x4 b (s e) o)

theorem lin3_apply (b : Fin 16) (m : Fin 10000) (o : Fin 10) :
    val_main_v79 (F := Ideal) x0 x1 x2 x3 x4 x5 x6 (ix3 b m o)
      = lin (fun f => val_main_v78 (F := Ideal) x0 x1 x2 x3 x4 x5 (ix3 b m f)) (fun f o => x6 (ix2 f o)) o := by
  rw [val_main_v79_apply]
  unfold lin
  refine Finset.sum_congr rfl fun k _ => ?_
  refine congrArg₂ (· * ·) (congrArg (val_main_v78 (F := Ideal) x0 x1 x2 x3 x4 x5) (funext fun a => Fin.ext ?_)) (congrArg x6 (funext fun a => Fin.ext ?_))
  · match a with | ⟨0, _⟩ => rfl | ⟨1, _⟩ => rfl | ⟨2, _⟩ => rfl
  · match a with | ⟨0, _⟩ => rfl | ⟨1, _⟩ => rfl

theorem layer3_apply (hw : ∀ e : Fin 170000, val_main_v32 (F := Ideal) x1 (ix1 e) = weight s d e)
    (hs : Col (val_main_v85 (F := Ideal) x1) s) (hd : Col (val_main_v96 (F := Ideal) x1) d)
    (b : Fin 16) (n : Fin 10000) (o : Fin 10) :
    val_main_v101 (F := Ideal) x0 x1 x2 x3 x4 x5 x6 x7 (ix3 b n o)
      = sparseLayer s d (fun b n f => val_main_v78 (F := Ideal) x0 x1 x2 x3 x4 x5 (ix3 b n f)) (fun f o => x6 (ix2 f o)) (fun o => x7 (ix1 o)) b n o := by
  unfold val_main_v101 val_main_v100 val_main_v97 val_main_v89 val_main_v86
  refine (stage_apply s d gather_S16x10000x10_S170000x1_S16x170000x10_02_1_n_n_1_1_16110 rfl rfl rfl rfl rfl
    scatter_S16x10000x10_S170000x1_S16x170000x10_02_1_1_1 rfl rfl rfl rfl
    (val_main_v79 (F := Ideal) x0 x1 x2 x3 x4 x5 x6) (val_main_v90 (F := Ideal)) (val_main_v99 (F := Ideal) x7)
    (val_main_call2_v0 (F := Ideal)) (val_main_v88 (F := Ideal) x1) (val_main_v85 (F := Ideal) x1)
    (val_main_v96 (F := Ideal) x1) hs hd ?_ ?_ ?_ b n o).trans ?_
  · intro b e o
    rw [val_main_v88_apply, val_main_v87_apply, ← hw e]
    exact congrArg _ (funext fun a => Fin.ext (by match a with | ⟨0, _⟩ => rfl))
  · intro i
    rw [val_main_v90_apply, val_main_cst_19_apply]; rfl
  · intro i
    rw [val_main_call2_v0_apply, val_main_call2_cst_apply]; rfl
  · unfold sparseLayer
    have hb : val_main_v99 (F := Ideal) x7 (ix3 b n o) = x7 (ix1 o) := by
      rw [val_main_v99_apply, val_main_v98_apply]
      exact congrArg x7 (funext fun a => Fin.ext (by match a with | ⟨0, _⟩ => rfl))
    rw [hb]
    refine congrArg₂ max (congrArg₂ (· + ·) (congrArg₂ (· + ·) rfl ?_) rfl) rfl
    exact Finset.sum_congr rfl fun e _ => congrArg (· * weight s d e) (lin3_apply x0 x1 x2 x3 x4 x5 x6 b (s e) o)

theorem net_apply (hw : ∀ e : Fin 170000, val_main_v32 (F := Ideal) x1 (ix1 e) = weight s d e)
    (hs1 : Col (val_main_v39 (F := Ideal) x1) s) (hd1 : Col (val_main_v50 (F := Ideal) x1) d)
    (hs2 : Col (val_main_v62 (F := Ideal) x1) s) (hd2 : Col (val_main_v73 (F := Ideal) x1) d)
    (hs3 : Col (val_main_v85 (F := Ideal) x1) s) (hd3 : Col (val_main_v96 (F := Ideal) x1) d)
    (b : Fin 16) (o : Fin 10) :
    val_main_v104 (F := Ideal) x0 x1 x2 x3 x4 x5 x6 x7 (ix2 b o)
      = sparseNet s d (fun b n f => x0 (ix3 b n f)) (fun f o => x2 (ix2 f o)) (fun o => x3 (ix1 o))
          (fun f o => x4 (ix2 f o)) (fun o => x5 (ix1 o)) (fun f o => x6 (ix2 f o)) (fun o => x7 (ix1 o)) b o := by
  have h1 : (fun b n f => val_main_v55 (F := Ideal) x0 x1 x2 x3 (ix3 b n f))
      = sparseLayer s d (fun b n f => x0 (ix3 b n f)) (fun f o => x2 (ix2 f o)) (fun o => x3 (ix1 o)) :=
    funext fun b => funext fun n => funext fun f => layer1_apply x0 x1 x2 x3 s d hw hs1 hd1 b n f
  have h2 : (fun b n f => val_main_v78 (F := Ideal) x0 x1 x2 x3 x4 x5 (ix3 b n f))
      = sparseLayer s d (sparseLayer s d (fun b n f => x0 (ix3 b n f)) (fun f o => x2 (ix2 f o)) (fun o => x3 (ix1 o)))
          (fun f o => x4 (ix2 f o)) (fun o => x5 (ix1 o)) :=
    (funext fun b => funext fun n => funext fun f => layer2_apply x0 x1 x2 x3 x4 x5 s d hw hs2 hd2 b n f).trans
      (congrArg (fun h => sparseLayer s d h (fun f o => x4 (ix2 f o)) (fun o => x5 (ix1 o))) h1)
  rw [val_main_v104_apply, val_main_v102_apply, val_main_v103_apply, val_main_cst_22_apply, val_main_cst_23_apply]
  unfold sparseNet
  refine congrArg₂ Ideal.div (congrArg₂ (· + ·) rfl (Finset.sum_congr rfl fun k _ => ?_)) rfl
  have hi : idx_main_v102 (ix2 b o) k = ix3 b k o :=
    funext fun a => Fin.ext (by match a with | ⟨0, _⟩ => rfl | ⟨1, _⟩ => rfl | ⟨2, _⟩ => rfl)
  rw [hi]
  exact (layer3_apply x0 x1 x2 x3 x4 x5 x6 x7 s d hw hs3 hd3 b k o).trans
    (congrArg (fun h => sparseLayer s d h (fun f o => x6 (ix2 f o)) (fun o => x7 (ix1 o)) b k o) h2)

end Layers

end Cert.ReferenceIdeal.RefValue

end
-- ==== Proof.RefValue2.lean ====
import proofs.«423821_j61503931678798_3_alg».proof.Proof.RefValue
import proofs.«423821_j61503931678798_3_alg».proof.Proof.Edges

noncomputable section

namespace Cert.ReferenceIdeal.RefValue

open Cert.ReferenceIdeal Cert.ReferenceIdeal.Read Idealize.ShloMosaic Idealize.ShloMosaic.ValueIdx Cert.Gcn

section Columns

variable (x1 : (⟨S2x160000, .i32⟩ : BufTy).Contents (Elt Ideal))
  (hr : ∀ (r : Fin 2) (e : Fin 160000), (x1 (ix2 r e)).toNat < 10000)

theorem col_v13 : Col (val_main_v13 (F := Ideal) x1) (Cert.Edges.dst2 x1 hr) := fun e => by
  unfold val_main_v13 val_main_v12 val_main_v9 val_main_v11 val_main_v8 val_main_v10 val_main_c val_main_c_0
    val_main_v6 val_main_v3 val_main_v2 val_main_v4
  exact Cert.Edges.col_wrap_cat_apply x1 hr 1 ![1, 0] rfl _ _ _ _ _ _ e

theorem col_v23 : Col (val_main_v23 (F := Ideal) x1) (Cert.Edges.src2 x1 hr) := fun e => by
  unfold val_main_v23 val_main_v22 val_main_v19 val_main_v21 val_main_v18 val_main_v20 val_main_c_3 val_main_c_4
    val_main_v5 val_main_v1 val_main_v0 val_main_v4
  exact Cert.Edges.col_wrap_cat_apply x1 hr 0 ![0, 0] rfl _ _ _ _ _ _ e

theorem col_v30 : Col (val_main_v30 (F := Ideal) x1) (Cert.Edges.dst2 x1 hr) := fun e => by
  unfold val_main_v30 val_main_v29 val_main_v26 val_main_v28 val_main_v25 val_main_v27 val_main_c_5 val_main_c_6
    val_main_v6 val_main_v3 val_main_v2 val_main_v4
  exact Cert.Edges.col_wrap_cat_apply x1 hr 1 ![1, 0] rfl _ _ _ _ _ _ e

theorem col_v39 : Col (val_main_v39 (F := Ideal) x1) (Cert.Edges.src2 x1 hr) := fun e => by
  unfold val_main_v39 val_main_v38 val_main_v35 val_main_v37 val_main_v34 val_main_v36 val_main_c_7 val_main_c_8
    val_main_v5 val_main_v1 val_main_v0 val_main_v4
  exact Cert.Edges.col_wrap_cat_apply x1 hr 0 ![0, 0] rfl _ _ _ _ _ _ e

theorem col_v50 : Col (val_main_v50 (F := Ideal) x1) (Cert.Edges.dst2 x1 hr) := fun e => by
  unfold val_main_v50 val_main_v49 val_main_v46 val_main_v48 val_main_v45 val_main_v47 val_main_c_10 val_main_c_11
    val_main_v6 val_main_v3 val_main_v2 val_main_v4
  exact Cert.Edges.col_wrap_cat_apply x1 hr 1 ![1, 0] rfl _ _ _ _ _ _ e

theorem col_v62 : Col (val_main_v62 (F := Ideal) x1) (Cert.Edges.src2 x1 hr) := fun e => by
  unfold val_main_v62 val_main_v61 val_main_v58 val_main_v60 val_main_v57 val_main_v59 val_main_c_12 val_main_c_13
    val_main_v5 val_main_v1 val_main_v0 val_main_v4
  exact Cert.Edges.col_wrap_cat_apply x1 hr 0 ![0, 0] rfl _ _ _ _ _ _ e

theorem col_v73 : Col (val_main_v73 (F := Ideal) x1) (Cert.Edges.dst2 x1 hr) := fun e => by
  unfold val_main_v73 val_main_v72 val_main_v69 val_main_v71 val_main_v68 val_main_v70 val_main_c_15 val_main_c_16
    val_main_v6 val_main_v3 val_main_v2 val_main_v4
  exact Cert.Edges.col_wrap_cat_apply x1 hr 1 ![1, 0] rfl _ _ _ _ _ _ e

theorem col_v85 : Col (val_main_v85 (F := Ideal) x1) (Cert.Edges.src2 x1 hr) := fun e => by
  unfold val_main_v85 val_main_v84 val_main_v81 val_main_v83 val_main_v80 val_main_v82 val_main_c_17 val_main_c_18
    val_main_v5 val_main_v1 val_main_v0 val_main_v4
  exact Cert.Edges.col_wrap_cat_apply x1 hr 0 ![0, 0] rfl _ _ _ _ _ _ e

theorem col_v96 : Col (val_main_v96 (F := Ideal) x1) (Cert.Edges.dst2 x1 hr) := fun e => by
  unfold val_main_v96 val_main_v95 val_main_v92 val_main_v94 val_main_v91 val_main_v93 val_main_c_20 val_main_c_21
    val_main_v6 val_main_v3 val_main_v2 val_main_v4
  exact Cert.Edges.col_wrap_cat_apply x1 hr 1 ![1, 0] rfl _ _ _ _ _ _ e

end Columns

theorem ref_result (x0 : (⟨S16x10000x10, .f32⟩ : BufTy).Contents (Elt Ideal)) (x1 : (⟨S2x160000, .i32⟩ : BufTy).Contents (Elt Ideal))
    (x2 : (⟨S10x64, .f32⟩ : BufTy).Contents (Elt Ideal)) (x3 : (⟨S64, .f32⟩ : BufTy).Contents (Elt Ideal))
    (x4 : (⟨S64x64, .f32⟩ : BufTy).Contents (Elt Ideal)) (x5 : (⟨S64, .f32⟩ : BufTy).Contents (Elt Ideal))
    (x6 : (⟨S64x10, .f32⟩ : BufTy).Contents (Elt Ideal)) (x7 : (⟨S10, .f32⟩ : BufTy).Contents (Elt Ideal))
    (hr : ∀ (r : Fin 2) (e : Fin 160000), (x1 (ix2 r e)).toNat < 10000) (b : Fin 16) (o : Fin 10) :
    val_main_v104 (F := Ideal) x0 x1 x2 x3 x4 x5 x6 x7 (ix2 b o)
      = sparseNet (Cert.Edges.src2 x1 hr) (Cert.Edges.dst2 x1 hr) (fun b n f => x0 (ix3 b n f))
          (fun f o => x2 (ix2 f o)) (fun o => x3 (ix1 o)) (fun f o => x4 (ix2 f o)) (fun o => x5 (ix1 o))
          (fun f o => x6 (ix2 f o)) (fun o => x7 (ix1 o)) b o :=
  net_apply x0 x1 x2 x3 x4 x5 x6 x7 (Cert.Edges.src2 x1 hr) (Cert.Edges.dst2 x1 hr)
    (weight_apply x1 (Cert.Edges.src2 x1 hr) (Cert.Edges.dst2 x1 hr) (col_v13 x1 hr) (col_v23 x1 hr) (col_v30 x1 hr))
    (col_v39 x1 hr) (col_v50 x1 hr) (col_v62 x1 hr) (col_v73 x1 hr) (col_v85 x1 hr) (col_v96 x1 hr) b o

end Cert.ReferenceIdeal.RefValue

end
-- ==== Proof.lean ====
import proofs.«423821_j61503931678798_3_alg».proof.Defs
import proofs.«423821_j61503931678798_3_alg».proof.Proof.Gen.Kernel
import proofs.«423821_j61503931678798_3_alg».proof.Proof.Gen.KernelIdeal
import proofs.«423821_j61503931678798_3_alg».proof.Proof.Gen.ReferenceIdeal
import proofs.«423821_j61503931678798_3_alg».proof.Proof.Gen.Pre_finite_inputs
import proofs.«423821_j61503931678798_3_alg».proof.Proof.Gen.ReferenceIdeal.Run
import proofs.«423821_j61503931678798_3_alg».proof.Proof.Gen.ReferenceIdeal.Read
import proofs.«423821_j61503931678798_3_alg».proof.Proof.SameProgram
import proofs.«423821_j61503931678798_3_alg».proof.Proof.KiRun
import proofs.«423821_j61503931678798_3_alg».proof.Proof.KiResult
import proofs.«423821_j61503931678798_3_alg».proof.Proof.RefValue2
import proofs.«423821_j61503931678798_3_alg».proof.Proof.Edges
import proofs.«423821_j61503931678798_3_alg».proof.Proof.Spec
import Idealize.ShloMosaic.Adequacy
import Idealize.ShloMosaic.Init

noncomputable section

namespace Cert.Proof

open Idealize.ShloMosaic Idealize.ShloMosaic.TcCoe Idealize.SL.Sem

set_option maxHeartbeats 4000000 in
-- The word-level program is the idealized program's text: the one frame proof, generic in the number format, serves it too.
theorem frame_k : Cert.frame_Kernel := fun m ρ _ => by
  have h := Cert.KernelIdeal.Hand.frame (F := Bits) m ρ
  rw [← Cert.Kernel.Hand.defs_eq] at h
  exact h

theorem frame_ki : Cert.frame_KernelIdeal :=
  fun m ρ _ => Cert.KernelIdeal.Hand.frame (F := Ideal) m ρ

-- The reference is host operations only: its run with the result dropped.
theorem frame_ri : Cert.frame_ReferenceIdeal :=
  fun m ρ _ => (θ_run Cert.ReferenceIdeal.defs _ _).mono (fun _ h c => (h c).2)
    (Cert.ReferenceIdeal.Value.run (F := Ideal) m ρ)

theorem preserves : Cert.preserves_Kernel_KernelIdeal := trivial

-- Both programs end at one network of the arguments, the edge maps decoded from index words the precondition keeps in range.
theorem algebraic : Cert.algebraic_KernelIdeal_ReferenceIdeal := by
  intro m ρ m' ρ' hpre hagree
  refine ⟨fun c => Cert.KernelIdeal.Hand.Wlast (F := Ideal) m ρ c (Proc.devRef .tc Cert.KernelIdeal.main_v86), ?_, ?_⟩
  · exact (θ_run (Cert.KernelIdeal.defs (F := Ideal)) _ _).mono (fun r h c =>
      ⟨h c _ (Cert.KernelIdeal.Hand.mem_uc Cert.KernelIdeal.main_v86 (by decide)),
       (h c _ (Cert.KernelIdeal.Hand.mem_uc Cert.KernelIdeal.main_arg0 (by decide))).trans (Cert.KernelIdeal.Hand.Wlast_arg m ρ c Cert.KernelIdeal.main_arg0 (by decide)),
       (h c _ (Cert.KernelIdeal.Hand.mem_uc Cert.KernelIdeal.main_arg1 (by decide))).trans (Cert.KernelIdeal.Hand.Wlast_arg m ρ c Cert.KernelIdeal.main_arg1 (by decide)),
       (h c _ (Cert.KernelIdeal.Hand.mem_uc Cert.KernelIdeal.main_arg2 (by decide))).trans (Cert.KernelIdeal.Hand.Wlast_arg m ρ c Cert.KernelIdeal.main_arg2 (by decide)),
       (h c _ (Cert.KernelIdeal.Hand.mem_uc Cert.KernelIdeal.main_arg3 (by decide))).trans (Cert.KernelIdeal.Hand.Wlast_arg m ρ c Cert.KernelIdeal.main_arg3 (by decide)),
       (h c _ (Cert.KernelIdeal.Hand.mem_uc Cert.KernelIdeal.main_arg4 (by decide))).trans (Cert.KernelIdeal.Hand.Wlast_arg m ρ c Cert.KernelIdeal.main_arg4 (by decide)),
       (h c _ (Cert.KernelIdeal.Hand.mem_uc Cert.KernelIdeal.main_arg5 (by decide))).trans (Cert.KernelIdeal.Hand.Wlast_arg m ρ c Cert.KernelIdeal.main_arg5 (by decide)),
       (h c _ (Cert.KernelIdeal.Hand.mem_uc Cert.KernelIdeal.main_arg6 (by decide))).trans (Cert.KernelIdeal.Hand.Wlast_arg m ρ c Cert.KernelIdeal.main_arg6 (by decide)),
       (h c _ (Cert.KernelIdeal.Hand.mem_uc Cert.KernelIdeal.main_arg7 (by decide))).trans (Cert.KernelIdeal.Hand.Wlast_arg m ρ c Cert.KernelIdeal.main_arg7 (by decide))⟩)
      (Cert.KernelIdeal.Hand.run_all (F := Ideal) m ρ)
  · refine (θ_run (Cert.ReferenceIdeal.defs (F := Ideal)) _ _).mono (fun _ h c => ⟨(h c).1.trans ?_, (h c).2⟩)
      (Cert.ReferenceIdeal.Value.run (F := Ideal) m' ρ')
    have hr := Cert.Edges.range_of_pre _ _ _ _ _ _ _ _ (hpre c)
    rw [Cert.ReferenceIdeal.Read.val_main_v104_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    funext i
    obtain ⟨b, o, rfl⟩ : ∃ (b : Fin 16) (o : Fin 10), i = ValueIdx.ix2 b o := ⟨i 0, i 1, ValueIdx.eq_ix2 i⟩
    rw [Cert.ReferenceIdeal.RefValue.ref_result _ _ _ _ _ _ _ _ hr b o, ← Cert.Gcn.denseNet_eq_sparseNet]
    exact (Cert.KernelIdeal.Hand.ker_result m ρ c hr b o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
